-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v82)) (v1 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_v93) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_v157) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S131072x256 : Shape := ⟨2, ![131072, 256]⟩
abbrev S65536 : Shape := ⟨1, ![65536]⟩
abbrev S131072 : Shape := ⟨1, ![131072]⟩
abbrev S128x256 : Shape := ⟨2, ![128, 256]⟩
abbrev S512x256 : Shape := ⟨2, ![512, 256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S131072x256 : S_.BroadcastsInDim S131072x256 (![] : Fin 0 → Fin S131072x256.rank)
  reducesTo_S131072x256_S_d0_1 : S131072x256.ReducesTo [0, 1] S_
  bcast_S_S128x256 : S_.BroadcastsInDim S128x256 (![] : Fin 0 → Fin S128x256.rank)
  reducesTo_S128x256_S_d0_1 : S128x256.ReducesTo [0, 1] S_
  bcast_S_S512x256 : S_.BroadcastsInDim S512x256 (![] : Fin 0 → Fin S512x256.rank)
  reducesTo_S512x256_S_d0_1 : S512x256.ReducesTo [0, 1] S_
  bcast_S_S65536 : S_.BroadcastsInDim S65536 (![] : Fin 0 → Fin S65536.rank)
  reducesTo_S65536_S_d0 : S65536.ReducesTo [0] S_
  bcast_S_S131072 : S_.BroadcastsInDim S131072 (![] : Fin 0 → Fin S131072.rank)
  reducesTo_S131072_S_d0 : S131072.ReducesTo [0] S_

variable [Facts]

def fn_part1 {F : FTy → Type} [FloatOps F] (main_arg2 : IVec S65536 32) (main_arg3 : IVec S131072 32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_c_6 : IVec S_ 32 := constantI S_ 32 128#32
  let main_v19 : IVec S65536 32 := broadcastInDim S65536 ![] bcast_S_S65536 main_c_6
  let main_v20 : IVec S65536 1 := cmpi .slt main_arg2 main_v19
  let main_c_7 : IVec S_ 1 := constantI S_ 1 1#1
  let main_v21 : IVec S_ 1 := (fun x v => Host.reduce IntOp.andi x v reducesTo_S65536_S_d0 h_S_) main_v20 main_c_7
  let main_v22 : IVec S_ 1 := andi main_v18 main_v21
  let main_c_8 : IVec S_ 32 := constantI S_ 32 512#32
  let main_v23 : IVec S131072 32 := broadcastInDim S131072 ![] bcast_S_S131072 main_c_8
  let main_v24 : IVec S131072 1 := cmpi .slt main_arg3 main_v23
  let main_c_9 : IVec S_ 1 := constantI S_ 1 1#1
  let main_v25 : IVec S_ 1 := (fun x v => Host.reduce IntOp.andi x v reducesTo_S131072_S_d0 h_S_) main_v24 main_c_9
  let main_v26 : IVec S_ 1 := andi main_v22 main_v25
  main_v26

def fn {F : FTy → Type} [FloatOps F] (main_arg0 : FVec F S65536x256 .f32) (main_arg1 : FVec F S131072x256 .f32) (main_arg2 : IVec S65536 32) (main_arg3 : IVec S131072 32) (main_arg4 : FVec F S128x256 .f32) (main_arg5 : FVec F S512x256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S131072x256 .f32 := Host.absf main_arg1
  let main_cst_0 : FVec F S_ .f32 := constant S_ .f32 0x7F800000#32
  let main_v5 : FVec F S131072x256 .f32 := broadcastInDim S131072x256 ![] bcast_S_S131072x256 main_cst_0
  let main_v6 : IVec S131072x256 1 := cmpf .olt main_v4 main_v5
  let main_c_1 : IVec S_ 1 := constantI S_ 1 1#1
  let main_v7 : IVec S_ 1 := (fun x v => Host.reduce IntOp.andi x v reducesTo_S131072x256_S_d0_1 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S512x256 .f32 := Host.absf main_arg5
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg2 main_arg3 main_v13 main_v16
-- ==== Kernel.lean ====
abbrev S65536x256 : Shape := ⟨2, ![65536, 256]⟩
abbrev S131072x256 : Shape := ⟨2, ![131072, 256]⟩
abbrev S65536 : Shape := ⟨1, ![65536]⟩
abbrev S131072 : Shape := ⟨1, ![131072]⟩
abbrev S128x256 : Shape := ⟨2, ![128, 256]⟩
abbrev S512x256 : Shape := ⟨2, ![512, 256]⟩
abbrev S65536x1 : Shape := ⟨2, ![65536, 1]⟩
abbrev S2x128x256 : Shape := ⟨3, ![2, 128, 256]⟩
abbrev S2x128x128 : Shape := ⟨3, ![2, 128, 128]⟩
abbrev S8192x256 : Shape := ⟨2, ![8192, 256]⟩
abbrev S8192x1 : Shape := ⟨2, ![8192, 1]⟩
abbrev S1x128x256 : Shape := ⟨3, ![1, 128, 256]⟩
abbrev S1x128x128 : Shape := ⟨3, ![1, 128, 128]⟩
abbrev S128x128 : Shape := ⟨2, ![128, 128]⟩
abbrev S8192 : Shape := ⟨1, ![8192]⟩
abbrev S8192x128 : Shape := ⟨2, ![8192, 128]⟩
abbrev S128 : Shape := ⟨1, ![128]⟩
abbrev S128x1 : Shape := ⟨2, ![128, 1]⟩
abbrev S_ : Shape := ⟨0, ![]⟩
abbrev S2x128x1 : Shape := ⟨3, ![2, 128, 1]⟩
abbrev S2x128 : Shape := ⟨2, ![2, 128]⟩
abbrev S131072x1 : Shape := ⟨2, ![131072, 1]⟩
abbrev S2x512x256 : Shape := ⟨3, ![2, 512, 256]⟩
abbrev S2x512x128 : Shape := ⟨3, ![2, 512, 128]⟩
abbrev S4096x256 : Shape := ⟨2, ![4096, 256]⟩
abbrev S4096x1 : Shape := ⟨2, ![4096, 1]⟩
abbrev S1x512x256 : Shape := ⟨3, ![1, 512, 256]⟩
abbrev S1x512x128 : Shape := ⟨3, ![1, 512, 128]⟩
abbrev S512x128 : Shape := ⟨2, ![512, 128]⟩
abbrev S4096 : Shape := ⟨1, ![4096]⟩
abbrev S4096x512 : Shape := ⟨2, ![4096, 512]⟩
abbrev S512 : Shape := ⟨1, ![512]⟩
abbrev S512x1 : Shape := ⟨2, ![512, 1]⟩
abbrev S2x512x1 : Shape := ⟨3, ![2, 512, 1]⟩
abbrev S2x512 : Shape := ⟨2, ![2, 512]⟩
abbrev S8x1x128 : Shape := ⟨3, ![8, 1, 128]⟩
abbrev S1x1x128 : Shape := ⟨3, ![1, 1, 128]⟩
abbrev S1x8192x1 : Shape := ⟨3, ![1, 8192, 1]⟩
abbrev S1 : Shape := ⟨1, ![1]⟩
abbrev S1x1x1 : Shape := ⟨3, ![1, 1, 1]⟩
abbrev S1x128 : Shape := ⟨2, ![1, 128]⟩
abbrev S8x128 : Shape := ⟨2, ![8, 128]⟩
abbrev S8x1 : Shape := ⟨2, ![8, 1]⟩
abbrev S8 : Shape := ⟨1, ![8]⟩
abbrev S32x1x128 : Shape := ⟨3, ![32, 1, 128]⟩
abbrev S1x4096x1 : Shape := ⟨3, ![1, 4096, 1]⟩
abbrev S32x128 : Shape := ⟨2, ![32, 128]⟩
abbrev S32x1 : Shape := ⟨2, ![32, 1]⟩
abbrev S32 : Shape := ⟨1, ![32]⟩

abbrev nBuf : Space → Nat
  | .hbm => 130
  | .vmem => 34
  | .smem => 0
  | _ => 0

abbrev hbmTy0_0 (i : Nat) : BufTy := match i % 128 with
  | 0 => ⟨S65536x256, .f32⟩
  | 1 => ⟨S131072x256, .f32⟩
  | 2 => ⟨S65536, .i32⟩
  | 3 => ⟨S131072, .i32⟩
  | 4 => ⟨S128x256, .f32⟩
  | 5 => ⟨S512x256, .f32⟩
  | 6 => ⟨S65536x1, .i32⟩
  | 7 => ⟨S2x128x256, .f32⟩
  | 8 => ⟨S2x128x128, .f32⟩
  | 9 => ⟨S_, .f32⟩
  | 10 => ⟨S128x256, .f32⟩
  | 11 => ⟨S2x128x1, .f32⟩
  | 12 => ⟨S2x128, .f32⟩
  | 13 => ⟨S_, .f32⟩
  | 14 => ⟨S128, .f32⟩
  | 15 => ⟨S_, .f32⟩
  | 16 => ⟨S128, .f32⟩
  | 17 => ⟨S128, .f32⟩
  | 18 => ⟨S128x1, .f32⟩
  | 19 => ⟨S128x256, .f32⟩
  | 20 => ⟨S128x256, .f32⟩
  | 21 => ⟨S128x256, .f32⟩
  | 22 => ⟨S_, .f32⟩
  | 23 => ⟨S128, .f32⟩
  | 24 => ⟨S128x1, .f32⟩
  | 25 => ⟨S128x1, .f32⟩
  | 26 => ⟨S_, .f32⟩
  | 27 => ⟨S128x1, .f32⟩
  | 28 => ⟨S128x1, .f32⟩
  | 29 => ⟨S128x256, .f32⟩
  | 30 => ⟨S128x256, .f32⟩
  | 31 => ⟨S_, .f32⟩
  | 32 => ⟨S128x256, .f32⟩
  | 33 => ⟨S128x256, .f32⟩
  | 34 => ⟨S_, .f32⟩
  | 35 => ⟨S128x256, .f32⟩
  | 36 => ⟨S128x256, .f32⟩
  | 37 => ⟨S128x256, .f32⟩
  | 38 => ⟨S128x256, .f32⟩
  | 39 => ⟨S_, .f32⟩
  | 40 => ⟨S128, .f32⟩
  | 41 => ⟨S128x1, .f32⟩
  | 42 => ⟨S128x1, .f32⟩
  | 43 => ⟨S_, .f32⟩
  | 44 => ⟨S128x1, .f32⟩
  | 45 => ⟨S128x1, .f32⟩
  | 46 => ⟨S128x256, .f32⟩
  | 47 => ⟨S128x256, .f32⟩
  | 48 => ⟨S128x1, .f32⟩
  | 49 => ⟨S_, .f32⟩
  | 50 => ⟨S128x1, .f32⟩
  | 51 => ⟨S128x1, .i1⟩
  | 52 => ⟨S128x256, .i1⟩
  | 53 => ⟨S128x256, .f32⟩
  | 54 => ⟨S131072x1, .i32⟩
  | 55 => ⟨S2x512x256, .f32⟩
  | 56 => ⟨S2x512x128, .f32⟩
  | 57 => ⟨S_, .f32⟩
  | 58 => ⟨S512x256, .f32⟩
  | 59 => ⟨S2x512x1, .f32⟩
  | 60 => ⟨S2x512, .f32⟩
  | 61 => ⟨S_, .f32⟩
  | 62 => ⟨S512, .f32⟩
  | 63 => ⟨S_, .f32⟩
  | 64 => ⟨S512, .f32⟩
  | 65 => ⟨S512, .f32⟩
  | 66 => ⟨S512x1, .f32⟩
  | 67 => ⟨S512x256, .f32⟩
  | 68 => ⟨S512x256, .f32⟩
  | 69 => ⟨S512x256, .f32⟩
  | 70 => ⟨S_, .f32⟩
  | 71 => ⟨S512, .f32⟩
  | 72 => ⟨S512x1, .f32⟩
  | 73 => ⟨S512x1, .f32⟩
  | 74 => ⟨S_, .f32⟩
  | 75 => ⟨S512x1, .f32⟩
  | 76 => ⟨S512x1, .f32⟩
  | 77 => ⟨S512x256, .f32⟩
  | 78 => ⟨S512x256, .f32⟩
  | 79 => ⟨S_, .f32⟩
  | 80 => ⟨S512x256, .f32⟩
  | 81 => ⟨S512x256, .f32⟩
  | 82 => ⟨S_, .f32⟩
  | 83 => ⟨S512x256, .f32⟩
  | 84 => ⟨S512x256, .f32⟩
  | 85 => ⟨S512x256, .f32⟩
  | 86 => ⟨S512x256, .f32⟩
  | 87 => ⟨S_, .f32⟩
  | 88 => ⟨S512, .f32⟩
  | 89 => ⟨S512x1, .f32⟩
  | 90 => ⟨S512x1, .f32⟩
  | 91 => ⟨S_, .f32⟩
  | 92 => ⟨S512x1, .f32⟩
  | 93 => ⟨S512x1, .f32⟩
  | 94 => ⟨S512x256, .f32⟩
  | 95 => ⟨S512x256, .f32⟩
  | 96 => ⟨S512x1, .f32⟩
  | 97 => ⟨S_, .f32⟩
  | 98 => ⟨S512x1, .f32⟩
  | 99 => ⟨S512x1, .i1⟩
  | 100 => ⟨S512x256, .i1⟩
  | 101 => ⟨S512x256, .f32⟩
  | 102 => ⟨S65536x1, .i32⟩
  | 103 => ⟨S8x1x128, .f32⟩
  | 104 => ⟨S8x128, .f32⟩
  | 105 => ⟨S8x1, .f32⟩
  | 106 => ⟨S8, .f32⟩
  | 107 => ⟨S_, .f32⟩
  | 108 => ⟨S_, .f32⟩
  | 109 => ⟨S8x1, .f32⟩
  | 110 => ⟨S8, .f32⟩
  | 111 => ⟨S_, .f32⟩
  | 112 => ⟨S_, .f32⟩
  | 113 => ⟨S_, .f32⟩
  | 114 => ⟨S_, .f32⟩
  | 115 => ⟨S_, .f32⟩
  | 116 => ⟨S131072x1, .i32⟩
  | 117 => ⟨S32x1x128, .f32⟩
  | 118 => ⟨S32x128, .f32⟩
  | 119 => ⟨S32x1, .f32⟩
  | 120 => ⟨S32, .f32⟩
  | 121 => ⟨S_, .f32⟩
  | 122 => ⟨S_, .f32⟩
  | 123 => ⟨S32x1, .f32⟩
  | 124 => ⟨S32, .f32⟩
  | 125 => ⟨S_, .f32⟩
  | 126 => ⟨S_, .f32⟩
  | 127 => ⟨S_, .f32⟩
  | _ => ⟨S65536x256, .f32⟩

abbrev hbmTy0_1 (i : Nat) : BufTy := match i % 128 with
  | 0 => ⟨S_, .f32⟩
  | 1 => ⟨S_, .f32⟩
  | _ => ⟨S65536x256, .f32⟩

abbrev hbmTy (i : Nat) : BufTy := match i / 128 with
  | 0 => hbmTy0_0 i
  | 1 => hbmTy0_1 i
  | _ => ⟨S65536x256, .f32⟩

abbrev bufTy : (tb : Table) → Fin (tcTables nBuf tb) → BufTy
  | .hbm, ⟨i, _⟩ => hbmTy i
  | .local _ .vmem, ⟨0, _⟩ => ⟨S8192x256, .f32⟩
  | .local _ .vmem, ⟨1, _⟩ => ⟨S8192x256, .f32⟩
  | .local _ .vmem, ⟨2, _⟩ => ⟨S8192x1, .i32⟩
  | .local _ .vmem, ⟨3, _⟩ => ⟨S8192x1, .i32⟩
  | .local _ .vmem, ⟨4, _⟩ => ⟨S1x128x256, .f32⟩
  | .local _ .vmem, ⟨5, _⟩ => ⟨S1x128x256, .f32⟩
  | .local _ .vmem, ⟨6, _⟩ => ⟨S1x128x128, .f32⟩
  | .local _ .vmem, ⟨7, _⟩ => ⟨S1x128x128, .f32⟩
  | .local _ .vmem, ⟨8, _⟩ => ⟨S128x256, .f32⟩
  | .local _ .vmem, ⟨9, _⟩ => ⟨S128x128, .f32⟩
  | .local _ .vmem, ⟨10, _⟩ => ⟨S4096x256, .f32⟩
  | .local _ .vmem, ⟨11, _⟩ => ⟨S4096x256, .f32⟩
  | .local _ .vmem, ⟨12, _⟩ => ⟨S4096x1, .i32⟩
  | .local _ .vmem, ⟨13, _⟩ => ⟨S4096x1, .i32⟩
  | .local _ .vmem, ⟨14, _⟩ => ⟨S1x512x256, .f32⟩
  | .local _ .vmem, ⟨15, _⟩ => ⟨S1x512x256, .f32⟩
  | .local _ .vmem, ⟨16, _⟩ => ⟨S1x512x128, .f32⟩
  | .local _ .vmem, ⟨17, _⟩ => ⟨S1x512x128, .f32⟩
  | .local _ .vmem, ⟨18, _⟩ => ⟨S512x256, .f32⟩
  | .local _ .vmem, ⟨19, _⟩ => ⟨S512x128, .f32⟩
  | .local _ .vmem, ⟨20, _⟩ => ⟨S8192x256, .f32⟩
  | .local _ .vmem, ⟨21, _⟩ => ⟨S8192x256, .f32⟩
  | .local _ .vmem, ⟨22, _⟩ => ⟨S8192x1, .i32⟩
  | .local _ .vmem, ⟨23, _⟩ => ⟨S8192x1, .i32⟩
  | .local _ .vmem, ⟨24, _⟩ => ⟨S128x256, .f32⟩
  | .local _ .vmem, ⟨25, _⟩ => ⟨S1x1x128, .f32⟩
  | .local _ .vmem, ⟨26, _⟩ => ⟨S1x1x128, .f32⟩
  | .local _ .vmem, ⟨27, _⟩ => ⟨S4096x256, .f32⟩
  | .local _ .vmem, ⟨28, _⟩ => ⟨S4096x256, .f32⟩
  | .local _ .vmem, ⟨29, _⟩ => ⟨S4096x1, .i32⟩
  | .local _ .vmem, ⟨30, _⟩ => ⟨S4096x1, .i32⟩
  | .local _ .vmem, ⟨31, _⟩ => ⟨S512x256, .f32⟩
  | .local _ .vmem, ⟨32, _⟩ => ⟨S1x1x128, .f32⟩
  | .local _ .vmem, ⟨33, _⟩ => ⟨S1x1x128, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_call0_v0 : Ref sig .tc := ⟨.hbm, 52, rfl⟩
abbrev main_v35 : Ref sig .tc := ⟨.hbm, 53, rfl⟩
abbrev main_v36 : Ref sig .tc := ⟨.hbm, 54, rfl⟩
abbrev main_v37_0 : Ref sig .tc := ⟨.hbm, 55, rfl⟩
abbrev main_v37_1 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_v41 : Ref sig .tc := ⟨.hbm, 62, rfl⟩
abbrev main_cst_11 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_12 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_13 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_14 : Ref sig .tc := ⟨.hbm, 79, rfl⟩
abbrev main_v55 : Ref sig .tc := ⟨.hbm, 80, rfl⟩
abbrev main_v56 : Ref sig .tc := ⟨.hbm, 81, rfl⟩
abbrev main_cst_15 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_16 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_17 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_18 : Ref sig .tc := ⟨.hbm, 97, rfl⟩
abbrev main_v69 : Ref sig .tc := ⟨.hbm, 98, rfl⟩
abbrev main_v70 : Ref sig .tc := ⟨.hbm, 99, rfl⟩
abbrev main_call1_v0 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_19 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_20 : Ref sig .tc := ⟨.hbm, 111, rfl⟩
abbrev main_v80 : Ref sig .tc := ⟨.hbm, 112, rfl⟩
abbrev main_cst_21 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_22 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_23 : Ref sig .tc := ⟨.hbm, 125, rfl⟩
abbrev main_v91 : Ref sig .tc := ⟨.hbm, 126, rfl⟩
abbrev main_cst_24 : Ref sig .tc := ⟨.hbm, 127, rfl⟩
abbrev main_v92 : Ref sig .tc := ⟨.hbm, 128, rfl⟩
abbrev main_v93 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc1_scratch1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg3_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v34 : BitVec 1 := Scalar.cmpi .eq arg1 c3_i32
  let v35 : BitVec 32 := Scalar.extui v34
  let c0_i32_15 : BitVec 32 := 0#32
  let v36 : BitVec 1 := Scalar.cmpi .ne v35 c0_i32_15
  v36

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 16], ![false, false]⟩

def k1_cond2 (i : grid1.Coords) : BitVec 1 :=
  let arg1 : BitVec 32 := BitVec.ofNat 32 (i 1).val
  let c15_i32 : BitVec 32 := 15#32
  let v34 : BitVec 1 := Scalar.cmpi .eq arg1 c15_i32
  let v35 : BitVec 32 := Scalar.extui v34
  let c0_i32_15 : BitVec 32 := 0#32
  let v36 : BitVec 1 := Scalar.cmpi .ne v35 c0_i32_15
  v36

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S8192x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x1x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S4096x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S512x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1x1x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S65536_S65536x1 : S65536.ShapeCasts S65536x1
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S8192x256_S8192x256_0_0 : ∀ a, (![0, 0] : Fin 2 → Nat) a + S8192x256.size a ≤ S8192x256.size a
  h_S8192x256 : 0 < S8192x256.numel
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  reduces_S8192x256_S8192 : S8192x256.Reduces [1] S8192
  shapeCasts_S8192_S8192x1 : S8192.ShapeCasts S8192x1
  broadcasts_S8192x1_S8192x256 : S8192x1.Broadcasts S8192x256
  iota_S8192x128_d1_w32 : S8192x128.Iotas .tc 32 [1]
  broadcasts_S8192x1_S8192x128 : S8192x1.Broadcasts S8192x128
  natLt_1_32 : 1 < 32
  reduces_S8192x128_S128 : S8192x128.Reduces [0] S128
  shapeCasts_S128_S128x1 : S128.ShapeCasts S128x1
  shapeCasts_S128x1_S128x1 : S128x1.ShapeCasts S128x1
  broadcasts_S128x1_S128x128 : S128x1.Broadcasts S128x128
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  shapeCasts_S128x256_S1x128x256 : S128x256.ShapeCasts S1x128x256
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  reducesTo_S2x128x256_S128x256_d0 : S2x128x256.ReducesTo [0] S128x256
  h_S_ : 0 < S_.numel
  slices_S2x128x128_S2x128x1_0_0_0 : S2x128x128.Slices ![0, 0, 0] S2x128x1
  shapeCasts_S2x128x1_S2x128 : S2x128x1.ShapeCasts S2x128
  reducesTo_S2x128_S128_d0 : S2x128.ReducesTo [0] S128
  bcast_S_S128 : S_.BroadcastsInDim S128 (![] : Fin 0 → Fin S128.rank)
  bcast_S128_S128x1_0 : S128.BroadcastsInDim S128x1 (![0] : Fin 1 → Fin S128x1.rank)
  bcast_S128x1_S128x256_0_1 : S128x1.BroadcastsInDim S128x256 (![0, 1] : Fin 2 → Fin S128x256.rank)
  reducesTo_S128x256_S128_d1 : S128x256.ReducesTo [1] S128
  bcast_S_S128x1 : S_.BroadcastsInDim S128x1 (![] : Fin 0 → Fin S128x1.rank)
  bcast_S_S128x256 : S_.BroadcastsInDim S128x256 (![] : Fin 0 → Fin S128x256.rank)
  shapeCasts_S131072_S131072x1 : S131072.ShapeCasts S131072x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S4096x256_S4096x256_0_0 : ∀ a, (![0, 0] : Fin 2 → Nat) a + S4096x256.size a ≤ S4096x256.size a
  h_S4096x256 : 0 < S4096x256.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  reduces_S4096x256_S4096 : S4096x256.Reduces [1] S4096
  shapeCasts_S4096_S4096x1 : S4096.ShapeCasts S4096x1
  broadcasts_S4096x1_S4096x256 : S4096x1.Broadcasts S4096x256
  iota_S4096x512_d1_w32 : S4096x512.Iotas .tc 32 [1]
  broadcasts_S4096x1_S4096x512 : S4096x1.Broadcasts S4096x512
  reduces_S4096x512_S512 : S4096x512.Reduces [0] S512
  shapeCasts_S512_S512x1 : S512.ShapeCasts S512x1
  shapeCasts_S512x1_S512x1 : S512x1.ShapeCasts S512x1
  broadcasts_S512x1_S512x128 : S512x1.Broadcasts S512x128
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  reducesTo_S2x512x256_S512x256_d0 : S2x512x256.ReducesTo [0] S512x256
  slices_S2x512x128_S2x512x1_0_0_0 : S2x512x128.Slices ![0, 0, 0] S2x512x1
  shapeCasts_S2x512x1_S2x512 : S2x512x1.ShapeCasts S2x512
  reducesTo_S2x512_S512_d0 : S2x512.ReducesTo [0] S512
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  reducesTo_S512x256_S512_d1 : S512x256.ReducesTo [1] S512
  bcast_S_S512x1 : S_.BroadcastsInDim S512x1 (![] : Fin 0 → Fin S512x1.rank)
  bcast_S_S512x256 : S_.BroadcastsInDim S512x256 (![] : Fin 0 → Fin S512x256.rank)
  reduces_S8192x128_S8192 : S8192x128.Reduces [1] S8192
  shapeCasts_S8192x1_S1x8192x1 : S8192x1.ShapeCasts S1x8192x1
  reduces_S1x8192x1_S1 : S1x8192x1.Reduces [1, 2] S1
  shapeCasts_S1_S1x1x1 : S1.ShapeCasts S1x1x1
  inpos_S1x1x1_p0_0_0 : ∀ a, (![0, 0, 0] : Fin 3 → Nat) a < S1x1x1.size a
  iota_S1x128_d1_w32 : S1x128.Iotas .tc 32 [1]
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  shapeCasts_S8x1x128_S8x128 : S8x1x128.ShapeCasts S8x128
  slices_S8x128_S8x1_0_0 : S8x128.Slices ![0, 0] S8x1
  shapeCasts_S8x1_S8 : S8x1.ShapeCasts S8
  reducesTo_S8_S_d0 : S8.ReducesTo [0] S_
  slices_S8x128_S8x1_0_1 : S8x128.Slices ![0, 1] S8x1
  reduces_S4096x512_S4096 : S4096x512.Reduces [1] S4096
  shapeCasts_S4096x1_S1x4096x1 : S4096x1.ShapeCasts S1x4096x1
  reduces_S1x4096x1_S1 : S1x4096x1.Reduces [1, 2] S1
  shapeCasts_S32x1x128_S32x128 : S32x1x128.ShapeCasts S32x128
  slices_S32x128_S32x1_0_0 : S32x128.Slices ![0, 0] S32x1
  shapeCasts_S32x1_S32 : S32x1.ShapeCasts S32
  reducesTo_S32_S_d0 : S32.ReducesTo [0] S_
  slices_S32x128_S32x1_0_1 : S32x128.Slices ![0, 1] S32x1
  dot_S8192x128_S8192x256_S128x256_0_0_1_1_n_n_wf : DotDims.WF S8192x128 S8192x256 S128x256 [0] [0] [1] [1] [] []
  dot_S4096x512_S4096x256_S512x256_0_0_1_1_n_n_wf : DotDims.WF S4096x512 S4096x256 S512x256 [0] [0] [1] [1] [] []
  dot_S8192x256_S128x256_S8192x128_1_1_0_0_n_n_wf : DotDims.WF S8192x256 S128x256 S8192x128 [1] [1] [0] [0] [] []
  dot_S4096x256_S512x256_S4096x512_1_1_0_0_n_n_wf : DotDims.WF S4096x256 S512x256 S4096x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S65536x256.size a
  hwx0_0 : ∀ i : grid0.Coords, EltTy.bits .f32 = 32 ∨ (Rect.block (s := S65536x256) S8192x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S65536x1.size a
  hwx0_1 : ∀ i : grid0.Coords, EltTy.bits .i32 = 32 ∨ (Rect.block (s := S65536x1) S8192x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x256.size a ≤ S2x128x256.size a
  hwx0_2 : ∀ i : grid0.Coords, EltTy.bits .f32 = 32 ∨ (Rect.block (s := S2x128x256) S1x128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x128.size a ≤ S2x128x128.size a
  hwx0_3 : ∀ i : grid0.Coords, EltTy.bits .f32 = 32 ∨ (Rect.block (s := S2x128x128) S1x128x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S131072x256.size a
  hwx1_0 : ∀ i : grid1.Coords, EltTy.bits .f32 = 32 ∨ (Rect.block (s := S131072x256) S4096x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S131072x1.size a
  hwx1_1 : ∀ i : grid1.Coords, EltTy.bits .i32 = 32 ∨ (Rect.block (s := S131072x1) S4096x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x256.size a ≤ S2x512x256.size a
  hwx1_2 : ∀ i : grid1.Coords, EltTy.bits .f32 = 32 ∨ (Rect.block (s := S2x512x256) S1x512x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x128.size a ≤ S2x512x128.size a
  hwx1_3 : ∀ i : grid1.Coords, EltTy.bits .f32 = 32 ∨ (Rect.block (s := S2x512x128) S1x512x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x256.size a ≤ S65536x256.size a
  hwx2_0 : ∀ i : grid2.Coords, EltTy.bits .f32 = 32 ∨ (Rect.block (s := S65536x256) S8192x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8192x1.size a ≤ S65536x1.size a
  hwx2_1 : ∀ i : grid2.Coords, EltTy.bits .i32 = 32 ∨ (Rect.block (s := S65536x1) S8192x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x256.size a ≤ S128x256.size a
  hwx2_2 : ∀ i : grid2.Coords, EltTy.bits .f32 = 32 ∨ (Rect.block (s := S128x256) S128x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x128.size a ≤ S8x1x128.size a
  hwx2_3 : ∀ i : grid2.Coords, EltTy.bits .f32 = 32 ∨ (Rect.block (s := S8x1x128) S1x1x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x256.size a ≤ S131072x256.size a
  hwx3_0 : ∀ i : grid3.Coords, EltTy.bits .f32 = 32 ∨ (Rect.block (s := S131072x256) S4096x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x1.size a ≤ S131072x1.size a
  hwx3_1 : ∀ i : grid3.Coords, EltTy.bits .i32 = 32 ∨ (Rect.block (s := S131072x1) S4096x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x256.size a ≤ S512x256.size a
  hwx3_2 : ∀ i : grid3.Coords, EltTy.bits .f32 = 32 ∨ (Rect.block (s := S512x256) S512x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1x128.size a ≤ S32x1x128.size a
  hwx3_3 : ∀ i : grid3.Coords, EltTy.bits .f32 = 32 ∨ (Rect.block (s := S32x1x128) S1x1x128.size (cc3_transform_3 i) (hinb3_3 i)).WholeWords (EltTy.packing .f32)

variable [Facts₀]

def dot_S8192x128_S8192x256_S128x256_0_0_1_1_n_n : DotDims S8192x128 S8192x256 S128x256 where
  lhsContracting := [0]
  rhsContracting := [0]
  lhsNonContracting := [1]
  rhsNonContracting := [1]
  lhsBatch := []
  rhsBatch := []
  wf := dot_S8192x128_S8192x256_S128x256_0_0_1_1_n_n_wf
def dot_S4096x512_S4096x256_S512x256_0_0_1_1_n_n : DotDims S4096x512 S4096x256 S512x256 where
  lhsContracting := [0]
  rhsContracting := [0]
  lhsNonContracting := [1]
  rhsNonContracting := [1]
  lhsBatch := []
  rhsBatch := []
  wf := dot_S4096x512_S4096x256_S512x256_0_0_1_1_n_n_wf
def dot_S8192x256_S128x256_S8192x128_1_1_0_0_n_n : DotDims S8192x256 S128x256 S8192x128 where
  lhsContracting := [1]
  rhsContracting := [1]
  lhsNonContracting := [0]
  rhsNonContracting := [0]
  lhsBatch := []
  rhsBatch := []
  wf := dot_S8192x256_S128x256_S8192x128_1_1_0_0_n_n_wf
def dot_S4096x256_S512x256_S4096x512_1_1_0_0_n_n : DotDims S4096x256 S512x256 S4096x512 where
  lhsContracting := [1]
  rhsContracting := [1]
  lhsNonContracting := [0]
  rhsNonContracting := [0]
  lhsBatch := []
  rhsBatch := []
  wf := dot_S4096x256_S512x256_S4096x512_1_1_0_0_n_n_wf

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x128x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S4096x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37_0) S1x512x256.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37_1) S1x512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

abbrev win2_0 : Pipeline.Window sig grid2 :=
  Pipeline.Window.ofSpec (Memref.whole main_arg0) S8192x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v72) S8192x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v35) S128x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v73) S1x1x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg1) S4096x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v83) S4096x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v71) S512x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v84) S1x1x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S65536x256 : Shape := ⟨2, ![65536, 256]⟩
abbrev S131072x256 : Shape := ⟨2, ![131072, 256]⟩
abbrev S65536 : Shape := ⟨1, ![65536]⟩
abbrev S131072 : Shape := ⟨1, ![131072]⟩
abbrev S128x256 : Shape := ⟨2, ![128, 256]⟩
abbrev S512x256 : Shape := ⟨2, ![512, 256]⟩
abbrev S_ : Shape := ⟨0, ![]⟩
abbrev S65536x1 : Shape := ⟨2, ![65536, 1]⟩
abbrev S129x256 : Shape := ⟨2, ![129, 256]⟩
abbrev S129 : Shape := ⟨1, ![129]⟩
abbrev S128 : Shape := ⟨1, ![128]⟩
abbrev S128x1 : Shape := ⟨2, ![128, 1]⟩
abbrev S131072x1 : Shape := ⟨2, ![131072, 1]⟩
abbrev S513x256 : Shape := ⟨2, ![513, 256]⟩
abbrev S513 : Shape := ⟨1, ![513]⟩
abbrev S512 : Shape := ⟨1, ![512]⟩
abbrev S512x1 : Shape := ⟨2, ![512, 1]⟩
abbrev S256x128 : Shape := ⟨2, ![256, 128]⟩
abbrev S65536x128 : Shape := ⟨2, ![65536, 128]⟩
abbrev S65536x1x1 : Shape := ⟨3, ![65536, 1, 1]⟩
abbrev S1 : Shape := ⟨1, ![1]⟩
abbrev S1x1x1 : Shape := ⟨3, ![1, 1, 1]⟩
abbrev S256x512 : Shape := ⟨2, ![256, 512]⟩
abbrev S131072x512 : Shape := ⟨2, ![131072, 512]⟩
abbrev S131072x1x1 : Shape := ⟨3, ![131072, 1, 1]⟩

abbrev nBuf : Space → Nat
  | .hbm => 292
  | .vmem => 0
  | .smem => 0
  | _ => 0

abbrev hbmTy0_0 (i : Nat) : BufTy := match i % 128 with
  | 0 => ⟨S65536x256, .f32⟩
  | 1 => ⟨S131072x256, .f32⟩
  | 2 => ⟨S65536, .i32⟩
  | 3 => ⟨S131072, .i32⟩
  | 4 => ⟨S128x256, .f32⟩
  | 5 => ⟨S512x256, .f32⟩
  | 6 => ⟨S65536x256, .f32⟩
  | 7 => ⟨S_, .f32⟩
  | 8 => ⟨S65536, .f32⟩
  | 9 => ⟨S65536x1, .f32⟩
  | 10 => ⟨S65536x1, .f32⟩
  | 11 => ⟨S_, .f32⟩
  | 12 => ⟨S65536x1, .f32⟩
  | 13 => ⟨S65536x1, .f32⟩
  | 14 => ⟨S65536x256, .f32⟩
  | 15 => ⟨S65536x256, .f32⟩
  | 16 => ⟨S_, .i32⟩
  | 17 => ⟨S65536, .i32⟩
  | 18 => ⟨S65536, .i1⟩
  | 19 => ⟨S_, .i32⟩
  | 20 => ⟨S_, .i32⟩
  | 21 => ⟨S65536, .i32⟩
  | 22 => ⟨S65536, .i32⟩
  | 23 => ⟨S65536x1, .i1⟩
  | 24 => ⟨S_, .f32⟩
  | 25 => ⟨S_, .f32⟩
  | 26 => ⟨S65536x256, .i1⟩
  | 27 => ⟨S65536x256, .f32⟩
  | 28 => ⟨S65536x256, .f32⟩
  | 29 => ⟨S_, .f32⟩
  | 30 => ⟨S129x256, .f32⟩
  | 31 => ⟨S65536x1, .i32⟩
  | 32 => ⟨S129x256, .f32⟩
  | 33 => ⟨S128x256, .f32⟩
  | 34 => ⟨S65536, .f32⟩
  | 35 => ⟨S_, .f32⟩
  | 36 => ⟨S129, .f32⟩
  | 37 => ⟨S65536x1, .i32⟩
  | 38 => ⟨S129, .f32⟩
  | 39 => ⟨S128, .f32⟩
  | 40 => ⟨S_, .f32⟩
  | 41 => ⟨S128, .f32⟩
  | 42 => ⟨S128, .f32⟩
  | 43 => ⟨S128x1, .f32⟩
  | 44 => ⟨S128x256, .f32⟩
  | 45 => ⟨S128x256, .f32⟩
  | 46 => ⟨S128x256, .f32⟩
  | 47 => ⟨S_, .f32⟩
  | 48 => ⟨S128, .f32⟩
  | 49 => ⟨S128x1, .f32⟩
  | 50 => ⟨S128x1, .f32⟩
  | 51 => ⟨S_, .f32⟩
  | 52 => ⟨S128x1, .f32⟩
  | 53 => ⟨S128x1, .f32⟩
  | 54 => ⟨S128x256, .f32⟩
  | 55 => ⟨S128x256, .f32⟩
  | 56 => ⟨S_, .f32⟩
  | 57 => ⟨S128x256, .f32⟩
  | 58 => ⟨S128x256, .f32⟩
  | 59 => ⟨S_, .f32⟩
  | 60 => ⟨S128x256, .f32⟩
  | 61 => ⟨S128x256, .f32⟩
  | 62 => ⟨S128x256, .f32⟩
  | 63 => ⟨S128x256, .f32⟩
  | 64 => ⟨S_, .f32⟩
  | 65 => ⟨S128, .f32⟩
  | 66 => ⟨S128x1, .f32⟩
  | 67 => ⟨S128x1, .f32⟩
  | 68 => ⟨S_, .f32⟩
  | 69 => ⟨S128x1, .f32⟩
  | 70 => ⟨S128x1, .f32⟩
  | 71 => ⟨S128x256, .f32⟩
  | 72 => ⟨S128x256, .f32⟩
  | 73 => ⟨S128x1, .f32⟩
  | 74 => ⟨S_, .f32⟩
  | 75 => ⟨S128x1, .f32⟩
  | 76 => ⟨S128x1, .i1⟩
  | 77 => ⟨S128x256, .i1⟩
  | 78 => ⟨S128x256, .f32⟩
  | 79 => ⟨S131072x256, .f32⟩
  | 80 => ⟨S_, .f32⟩
  | 81 => ⟨S131072, .f32⟩
  | 82 => ⟨S131072x1, .f32⟩
  | 83 => ⟨S131072x1, .f32⟩
  | 84 => ⟨S_, .f32⟩
  | 85 => ⟨S131072x1, .f32⟩
  | 86 => ⟨S131072x1, .f32⟩
  | 87 => ⟨S131072x256, .f32⟩
  | 88 => ⟨S131072x256, .f32⟩
  | 89 => ⟨S_, .i32⟩
  | 90 => ⟨S131072, .i32⟩
  | 91 => ⟨S131072, .i1⟩
  | 92 => ⟨S_, .i32⟩
  | 93 => ⟨S_, .i32⟩
  | 94 => ⟨S131072, .i32⟩
  | 95 => ⟨S131072, .i32⟩
  | 96 => ⟨S131072x1, .i1⟩
  | 97 => ⟨S_, .f32⟩
  | 98 => ⟨S_, .f32⟩
  | 99 => ⟨S131072x256, .i1⟩
  | 100 => ⟨S131072x256, .f32⟩
  | 101 => ⟨S131072x256, .f32⟩
  | 102 => ⟨S_, .f32⟩
  | 103 => ⟨S513x256, .f32⟩
  | 104 => ⟨S131072x1, .i32⟩
  | 105 => ⟨S513x256, .f32⟩
  | 106 => ⟨S512x256, .f32⟩
  | 107 => ⟨S131072, .f32⟩
  | 108 => ⟨S_, .f32⟩
  | 109 => ⟨S513, .f32⟩
  | 110 => ⟨S131072x1, .i32⟩
  | 111 => ⟨S513, .f32⟩
  | 112 => ⟨S512, .f32⟩
  | 113 => ⟨S_, .f32⟩
  | 114 => ⟨S512, .f32⟩
  | 115 => ⟨S512, .f32⟩
  | 116 => ⟨S512x1, .f32⟩
  | 117 => ⟨S512x256, .f32⟩
  | 118 => ⟨S512x256, .f32⟩
  | 119 => ⟨S512x256, .f32⟩
  | 120 => ⟨S_, .f32⟩
  | 121 => ⟨S512, .f32⟩
  | 122 => ⟨S512x1, .f32⟩
  | 123 => ⟨S512x1, .f32⟩
  | 124 => ⟨S_, .f32⟩
  | 125 => ⟨S512x1, .f32⟩
  | 126 => ⟨S512x1, .f32⟩
  | 127 => ⟨S512x256, .f32⟩
  | _ => ⟨S65536x256, .f32⟩

abbrev hbmTy0_1 (i : Nat) : BufTy := match i % 128 with
  | 0 => ⟨S512x256, .f32⟩
  | 1 => ⟨S_, .f32⟩
  | 2 => ⟨S512x256, .f32⟩
  | 3 => ⟨S512x256, .f32⟩
  | 4 => ⟨S_, .f32⟩
  | 5 => ⟨S512x256, .f32⟩
  | 6 => ⟨S512x256, .f32⟩
  | 7 => ⟨S512x256, .f32⟩
  | 8 => ⟨S512x256, .f32⟩
  | 9 => ⟨S_, .f32⟩
  | 10 => ⟨S512, .f32⟩
  | 11 => ⟨S512x1, .f32⟩
  | 12 => ⟨S512x1, .f32⟩
  | 13 => ⟨S_, .f32⟩
  | 14 => ⟨S512x1, .f32⟩
  | 15 => ⟨S512x1, .f32⟩
  | 16 => ⟨S512x256, .f32⟩
  | 17 => ⟨S512x256, .f32⟩
  | 18 => ⟨S512x1, .f32⟩
  | 19 => ⟨S_, .f32⟩
  | 20 => ⟨S512x1, .f32⟩
  | 21 => ⟨S512x1, .i1⟩
  | 22 => ⟨S512x256, .i1⟩
  | 23 => ⟨S512x256, .f32⟩
  | 24 => ⟨S_, .i32⟩
  | 25 => ⟨S65536, .i32⟩
  | 26 => ⟨S65536, .i1⟩
  | 27 => ⟨S65536, .f32⟩
  | 28 => ⟨S65536x256, .f32⟩
  | 29 => ⟨S_, .f32⟩
  | 30 => ⟨S65536, .f32⟩
  | 31 => ⟨S65536x1, .f32⟩
  | 32 => ⟨S65536x1, .f32⟩
  | 33 => ⟨S_, .f32⟩
  | 34 => ⟨S65536x1, .f32⟩
  | 35 => ⟨S65536x1, .f32⟩
  | 36 => ⟨S65536x256, .f32⟩
  | 37 => ⟨S65536x256, .f32⟩
  | 38 => ⟨S256x128, .f32⟩
  | 39 => ⟨S65536x128, .f32⟩
  | 40 => ⟨S_, .f32⟩
  | 41 => ⟨S65536x128, .f32⟩
  | 42 => ⟨S65536x128, .f32⟩
  | 43 => ⟨S_, .f32⟩
  | 44 => ⟨S65536, .f32⟩
  | 45 => ⟨S_, .f32⟩
  | 46 => ⟨S65536, .f32⟩
  | 47 => ⟨S65536, .f32⟩
  | 48 => ⟨S65536x1, .f32⟩
  | 49 => ⟨S65536x128, .f32⟩
  | 50 => ⟨S65536x128, .f32⟩
  | 51 => ⟨S65536x128, .f32⟩
  | 52 => ⟨S_, .f32⟩
  | 53 => ⟨S65536, .f32⟩
  | 54 => ⟨S65536x1, .f32⟩
  | 55 => ⟨S65536x1, .f32⟩
  | 56 => ⟨S65536x128, .f32⟩
  | 57 => ⟨S65536x128, .f32⟩
  | 58 => ⟨S_, .i32⟩
  | 59 => ⟨S65536, .i32⟩
  | 60 => ⟨S65536, .i32⟩
  | 61 => ⟨S65536x1, .i32⟩
  | 62 => ⟨S_, .i32⟩
  | 63 => ⟨S65536x1, .i32⟩
  | 64 => ⟨S65536x1, .i1⟩
  | 65 => ⟨S_, .i32⟩
  | 66 => ⟨S65536x1, .i32⟩
  | 67 => ⟨S65536x1, .i32⟩
  | 68 => ⟨S65536x1, .i32⟩
  | 69 => ⟨S65536x1x1, .i32⟩
  | 70 => ⟨S1, .i32⟩
  | 71 => ⟨S_, .i32⟩
  | 72 => ⟨S65536x1x1, .i32⟩
  | 73 => ⟨S65536x1x1, .i1⟩
  | 74 => ⟨S1x1x1, .i32⟩
  | 75 => ⟨S65536x1x1, .i32⟩
  | 76 => ⟨S65536x1x1, .i1⟩
  | 77 => ⟨S65536x1x1, .i1⟩
  | 78 => ⟨S_, .i1⟩
  | 79 => ⟨S65536x1, .i1⟩
  | 80 => ⟨S65536x1, .f32⟩
  | 81 => ⟨S_, .f32⟩
  | 82 => ⟨S65536x1, .f32⟩
  | 83 => ⟨S65536x1, .f32⟩
  | 84 => ⟨S65536, .f32⟩
  | 85 => ⟨S65536, .f32⟩
  | 86 => ⟨S65536, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .i32⟩
  | 95 => ⟨S131072, .i32⟩
  | 96 => ⟨S131072, .i1⟩
  | 97 => ⟨S131072, .f32⟩
  | 98 => ⟨S131072x256, .f32⟩
  | 99 => ⟨S_, .f32⟩
  | 100 => ⟨S131072, .f32⟩
  | 101 => ⟨S131072x1, .f32⟩
  | 102 => ⟨S131072x1, .f32⟩
  | 103 => ⟨S_, .f32⟩
  | 104 => ⟨S131072x1, .f32⟩
  | 105 => ⟨S131072x1, .f32⟩
  | 106 => ⟨S131072x256, .f32⟩
  | 107 => ⟨S131072x256, .f32⟩
  | 108 => ⟨S256x512, .f32⟩
  | 109 => ⟨S131072x512, .f32⟩
  | 110 => ⟨S_, .f32⟩
  | 111 => ⟨S131072x512, .f32⟩
  | 112 => ⟨S131072x512, .f32⟩
  | 113 => ⟨S_, .f32⟩
  | 114 => ⟨S131072, .f32⟩
  | 115 => ⟨S_, .f32⟩
  | 116 => ⟨S131072, .f32⟩
  | 117 => ⟨S131072, .f32⟩
  | 118 => ⟨S131072x1, .f32⟩
  | 119 => ⟨S131072x512, .f32⟩
  | 120 => ⟨S131072x512, .f32⟩
  | 121 => ⟨S131072x512, .f32⟩
  | 122 => ⟨S_, .f32⟩
  | 123 => ⟨S131072, .f32⟩
  | 124 => ⟨S131072x1, .f32⟩
  | 125 => ⟨S131072x1, .f32⟩
  | 126 => ⟨S131072x512, .f32⟩
  | 127 => ⟨S131072x512, .f32⟩
  | _ => ⟨S65536x256, .f32⟩

abbrev hbmTy0_2 (i : Nat) : BufTy := match i % 128 with
  | 0 => ⟨S_, .i32⟩
  | 1 => ⟨S131072, .i32⟩
  | 2 => ⟨S131072, .i32⟩
  | 3 => ⟨S131072x1, .i32⟩
  | 4 => ⟨S_, .i32⟩
  | 5 => ⟨S131072x1, .i32⟩
  | 6 => ⟨S131072x1, .i1⟩
  | 7 => ⟨S_, .i32⟩
  | 8 => ⟨S131072x1, .i32⟩
  | 9 => ⟨S131072x1, .i32⟩
  | 10 => ⟨S131072x1, .i32⟩
  | 11 => ⟨S131072x1x1, .i32⟩
  | 12 => ⟨S1, .i32⟩
  | 13 => ⟨S_, .i32⟩
  | 14 => ⟨S131072x1x1, .i32⟩
  | 15 => ⟨S131072x1x1, .i1⟩
  | 16 => ⟨S1x1x1, .i32⟩
  | 17 => ⟨S131072x1x1, .i32⟩
  | 18 => ⟨S131072x1x1, .i1⟩
  | 19 => ⟨S131072x1x1, .i1⟩
  | 20 => ⟨S_, .i1⟩
  | 21 => ⟨S131072x1, .i1⟩
  | 22 => ⟨S131072x1, .f32⟩
  | 23 => ⟨S_, .f32⟩
  | 24 => ⟨S131072x1, .f32⟩
  | 25 => ⟨S131072x1, .f32⟩
  | 26 => ⟨S131072, .f32⟩
  | 27 => ⟨S131072, .f32⟩
  | 28 => ⟨S131072, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | _ => ⟨S65536x256, .f32⟩

abbrev hbmTy (i : Nat) : BufTy := match i / 128 with
  | 0 => hbmTy0_0 i
  | 1 => hbmTy0_1 i
  | 2 => hbmTy0_2 i
  | _ => ⟨S65536x256, .f32⟩

abbrev bufTy : (tb : Table) → Fin (tcTables nBuf tb) → BufTy
  | .hbm, ⟨i, _⟩ => hbmTy i
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_call0_v0 : Ref sig .tc := ⟨.hbm, 20, rfl⟩
abbrev main_call0_v1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_cst_9 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_10 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_11 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_12 : Ref sig .tc := ⟨.hbm, 74, rfl⟩
abbrev main_v49 : Ref sig .tc := ⟨.hbm, 75, rfl⟩
abbrev main_v50 : Ref sig .tc := ⟨.hbm, 76, rfl⟩
abbrev main_call2_v0 : Ref sig .tc := ⟨.hbm, 77, rfl⟩
abbrev main_v51 : Ref sig .tc := ⟨.hbm, 78, rfl⟩
abbrev main_v52 : Ref sig .tc := ⟨.hbm, 79, rfl⟩
abbrev main_cst_13 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_14 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_15 : Ref sig .tc := ⟨.hbm, 89, rfl⟩
abbrev main_v60 : Ref sig .tc := ⟨.hbm, 90, rfl⟩
abbrev main_v61 : Ref sig .tc := ⟨.hbm, 91, rfl⟩
abbrev main_c_16 : Ref sig .tc := ⟨.hbm, 92, rfl⟩
abbrev main_call3_v0 : Ref sig .tc := ⟨.hbm, 93, rfl⟩
abbrev main_call3_v1 : Ref sig .tc := ⟨.hbm, 94, rfl⟩
abbrev main_v62 : Ref sig .tc := ⟨.hbm, 95, rfl⟩
abbrev main_v63 : Ref sig .tc := ⟨.hbm, 96, rfl⟩
abbrev main_cst_17 : Ref sig .tc := ⟨.hbm, 97, rfl⟩
abbrev main_call4_v0 : Ref sig .tc := ⟨.hbm, 98, rfl⟩
abbrev main_call4_v1 : Ref sig .tc := ⟨.hbm, 99, rfl⟩
abbrev main_call4_v2 : Ref sig .tc := ⟨.hbm, 100, rfl⟩
abbrev main_v64 : Ref sig .tc := ⟨.hbm, 101, rfl⟩
abbrev main_cst_18 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_19 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_20 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_21 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_cst_22 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_23 : Ref sig .tc := ⟨.hbm, 129, rfl⟩
abbrev main_v87 : Ref sig .tc := ⟨.hbm, 130, rfl⟩
abbrev main_v88 : Ref sig .tc := ⟨.hbm, 131, rfl⟩
abbrev main_cst_24 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_25 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_cst_26 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_cst_27 : Ref sig .tc := ⟨.hbm, 147, rfl⟩
abbrev main_v101 : Ref sig .tc := ⟨.hbm, 148, rfl⟩
abbrev main_v102 : Ref sig .tc := ⟨.hbm, 149, rfl⟩
abbrev main_call5_v0 : Ref sig .tc := ⟨.hbm, 150, rfl⟩
abbrev main_v103 : Ref sig .tc := ⟨.hbm, 151, rfl⟩
abbrev main_c_28 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_cst_29 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_cst_30 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_cst_31 : Ref sig .tc := ⟨.hbm, 168, rfl⟩
abbrev main_v117 : Ref sig .tc := ⟨.hbm, 169, rfl⟩
abbrev main_v118 : Ref sig .tc := ⟨.hbm, 170, rfl⟩
abbrev main_call6_cst : Ref sig .tc := ⟨.hbm, 171, rfl⟩
abbrev main_call6_v0 : Ref sig .tc := ⟨.hbm, 172, rfl⟩
abbrev main_call6_cst_0 : Ref sig .tc := ⟨.hbm, 173, rfl⟩
abbrev main_call6_v1 : Ref sig .tc := ⟨.hbm, 174, rfl⟩
abbrev main_call6_v2 : Ref sig .tc := ⟨.hbm, 175, rfl⟩
abbrev main_call6_v3 : Ref sig .tc := ⟨.hbm, 176, rfl⟩
abbrev main_call6_v4 : Ref sig .tc := ⟨.hbm, 177, rfl⟩
abbrev main_call6_v5 : Ref sig .tc := ⟨.hbm, 178, rfl⟩
abbrev main_call6_v6 : Ref sig .tc := ⟨.hbm, 179, rfl⟩
abbrev main_call6_cst_1 : Ref sig .tc := ⟨.hbm, 180, rfl⟩
abbrev main_call6_v7 : Ref sig .tc := ⟨.hbm, 181, rfl⟩
abbrev main_call6_v8 : Ref sig .tc := ⟨.hbm, 182, rfl⟩
abbrev main_call6_v9 : Ref sig .tc := ⟨.hbm, 183, rfl⟩
abbrev main_call6_v10 : Ref sig .tc := ⟨.hbm, 184, rfl⟩
abbrev main_v119 : Ref sig .tc := ⟨.hbm, 185, rfl⟩
abbrev main_c_32 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_call7_c : Ref sig .tc := ⟨.hbm, 190, rfl⟩
abbrev main_call7_v0 : Ref sig .tc := ⟨.hbm, 191, rfl⟩
abbrev main_call7_v1 : Ref sig .tc := ⟨.hbm, 192, rfl⟩
abbrev main_call7_c_0 : Ref sig .tc := ⟨.hbm, 193, rfl⟩
abbrev main_call7_v2 : Ref sig .tc := ⟨.hbm, 194, rfl⟩
abbrev main_call7_v3 : Ref sig .tc := ⟨.hbm, 195, rfl⟩
abbrev main_call7_v4 : Ref sig .tc := ⟨.hbm, 196, rfl⟩
abbrev main_call7_v5 : Ref sig .tc := ⟨.hbm, 197, rfl⟩
abbrev main_call7_c_1 : Ref sig .tc := ⟨.hbm, 198, rfl⟩
abbrev main_call7_c_2 : Ref sig .tc := ⟨.hbm, 199, rfl⟩
abbrev main_call7_v6 : Ref sig .tc := ⟨.hbm, 200, rfl⟩
abbrev main_call7_v7 : Ref sig .tc := ⟨.hbm, 201, rfl⟩
abbrev main_call7_v8 : Ref sig .tc := ⟨.hbm, 202, rfl⟩
abbrev main_call7_v9 : Ref sig .tc := ⟨.hbm, 203, rfl⟩
abbrev main_call7_v10 : Ref sig .tc := ⟨.hbm, 204, rfl⟩
abbrev main_call7_v11 : Ref sig .tc := ⟨.hbm, 205, rfl⟩
abbrev main_call7_c_3 : Ref sig .tc := ⟨.hbm, 206, rfl⟩
abbrev main_call7_v12 : Ref sig .tc := ⟨.hbm, 207, rfl⟩
abbrev main_call7_v13 : Ref sig .tc := ⟨.hbm, 208, rfl⟩
abbrev main_call7_cst : Ref sig .tc := ⟨.hbm, 209, rfl⟩
abbrev main_call7_v14 : Ref sig .tc := ⟨.hbm, 210, rfl⟩
abbrev main_v123 : Ref sig .tc := ⟨.hbm, 211, rfl⟩
abbrev main_v124 : Ref sig .tc := ⟨.hbm, 212, rfl⟩
abbrev main_v125 : Ref sig .tc := ⟨.hbm, 213, rfl⟩
abbrev main_v126 : Ref sig .tc := ⟨.hbm, 214, rfl⟩
abbrev main_cst_33 : Ref sig .tc := ⟨.hbm, 215, rfl⟩
abbrev main_v127 : Ref sig .tc := ⟨.hbm, 216, rfl⟩
abbrev main_cst_34 : Ref sig .tc := ⟨.hbm, 217, rfl⟩
abbrev main_v128 : Ref sig .tc := ⟨.hbm, 218, rfl⟩
abbrev main_cst_35 : Ref sig .tc := ⟨.hbm, 219, rfl⟩
abbrev main_v129 : Ref sig .tc := ⟨.hbm, 220, rfl⟩
abbrev main_v130 : Ref sig .tc := ⟨.hbm, 221, rfl⟩
abbrev main_c_36 : Ref sig .tc := ⟨.hbm, 222, rfl⟩
abbrev main_v131 : Ref sig .tc := ⟨.hbm, 223, rfl⟩
abbrev main_v132 : Ref sig .tc := ⟨.hbm, 224, rfl⟩
abbrev main_v133 : Ref sig .tc := ⟨.hbm, 225, rfl⟩
abbrev main_v134 : Ref sig .tc := ⟨.hbm, 226, rfl⟩
abbrev main_cst_37 : Ref sig .tc := ⟨.hbm, 227, rfl⟩
abbrev main_v135 : Ref sig .tc := ⟨.hbm, 228, rfl⟩
abbrev main_v136 : Ref sig .tc := ⟨.hbm, 229, rfl⟩
abbrev main_v137 : Ref sig .tc := ⟨.hbm, 230, rfl⟩
abbrev main_cst_38 : Ref sig .tc := ⟨.hbm, 231, rfl⟩
abbrev main_v138 : Ref sig .tc := ⟨.hbm, 232, rfl⟩
abbrev main_v139 : Ref sig .tc := ⟨.hbm, 233, rfl⟩
abbrev main_v140 : Ref sig .tc := ⟨.hbm, 234, rfl⟩
abbrev main_v141 : Ref sig .tc := ⟨.hbm, 235, rfl⟩
abbrev main_v142 : Ref sig .tc := ⟨.hbm, 236, rfl⟩
abbrev main_v143 : Ref sig .tc := ⟨.hbm, 237, rfl⟩
abbrev main_cst_39 : Ref sig .tc := ⟨.hbm, 238, rfl⟩
abbrev main_v144 : Ref sig .tc := ⟨.hbm, 239, rfl⟩
abbrev main_v145 : Ref sig .tc := ⟨.hbm, 240, rfl⟩
abbrev main_call8_cst : Ref sig .tc := ⟨.hbm, 241, rfl⟩
abbrev main_call8_v0 : Ref sig .tc := ⟨.hbm, 242, rfl⟩
abbrev main_call8_cst_0 : Ref sig .tc := ⟨.hbm, 243, rfl⟩
abbrev main_call8_v1 : Ref sig .tc := ⟨.hbm, 244, rfl⟩
abbrev main_call8_v2 : Ref sig .tc := ⟨.hbm, 245, rfl⟩
abbrev main_call8_v3 : Ref sig .tc := ⟨.hbm, 246, rfl⟩
abbrev main_call8_v4 : Ref sig .tc := ⟨.hbm, 247, rfl⟩
abbrev main_call8_v5 : Ref sig .tc := ⟨.hbm, 248, rfl⟩
abbrev main_call8_v6 : Ref sig .tc := ⟨.hbm, 249, rfl⟩
abbrev main_call8_cst_1 : Ref sig .tc := ⟨.hbm, 250, rfl⟩
abbrev main_call8_v7 : Ref sig .tc := ⟨.hbm, 251, rfl⟩
abbrev main_call8_v8 : Ref sig .tc := ⟨.hbm, 252, rfl⟩
abbrev main_call8_v9 : Ref sig .tc := ⟨.hbm, 253, rfl⟩
abbrev main_call8_v10 : Ref sig .tc := ⟨.hbm, 254, rfl⟩
abbrev main_v146 : Ref sig .tc := ⟨.hbm, 255, rfl⟩
abbrev main_c_40 : Ref sig .tc := ⟨.hbm, 256, rfl⟩
abbrev main_v147 : Ref sig .tc := ⟨.hbm, 257, rfl⟩
abbrev main_v148 : Ref sig .tc := ⟨.hbm, 258, rfl⟩
abbrev main_v149 : Ref sig .tc := ⟨.hbm, 259, rfl⟩
abbrev main_call9_c : Ref sig .tc := ⟨.hbm, 260, rfl⟩
abbrev main_call9_v0 : Ref sig .tc := ⟨.hbm, 261, rfl⟩
abbrev main_call9_v1 : Ref sig .tc := ⟨.hbm, 262, rfl⟩
abbrev main_call9_c_0 : Ref sig .tc := ⟨.hbm, 263, rfl⟩
abbrev main_call9_v2 : Ref sig .tc := ⟨.hbm, 264, rfl⟩
abbrev main_call9_v3 : Ref sig .tc := ⟨.hbm, 265, rfl⟩
abbrev main_call9_v4 : Ref sig .tc := ⟨.hbm, 266, rfl⟩
abbrev main_call9_v5 : Ref sig .tc := ⟨.hbm, 267, rfl⟩
abbrev main_call9_c_1 : Ref sig .tc := ⟨.hbm, 268, rfl⟩
abbrev main_call9_c_2 : Ref sig .tc := ⟨.hbm, 269, rfl⟩
abbrev main_call9_v6 : Ref sig .tc := ⟨.hbm, 270, rfl⟩
abbrev main_call9_v7 : Ref sig .tc := ⟨.hbm, 271, rfl⟩
abbrev main_call9_v8 : Ref sig .tc := ⟨.hbm, 272, rfl⟩
abbrev main_call9_v9 : Ref sig .tc := ⟨.hbm, 273, rfl⟩
abbrev main_call9_v10 : Ref sig .tc := ⟨.hbm, 274, rfl⟩
abbrev main_call9_v11 : Ref sig .tc := ⟨.hbm, 275, rfl⟩
abbrev main_call9_c_3 : Ref sig .tc := ⟨.hbm, 276, rfl⟩
abbrev main_call9_v12 : Ref sig .tc := ⟨.hbm, 277, rfl⟩
abbrev main_call9_v13 : Ref sig .tc := ⟨.hbm, 278, rfl⟩
abbrev main_call9_cst : Ref sig .tc := ⟨.hbm, 279, rfl⟩
abbrev main_call9_v14 : Ref sig .tc := ⟨.hbm, 280, rfl⟩
abbrev main_v150 : Ref sig .tc := ⟨.hbm, 281, rfl⟩
abbrev main_v151 : Ref sig .tc := ⟨.hbm, 282, rfl⟩
abbrev main_v152 : Ref sig .tc := ⟨.hbm, 283, rfl⟩
abbrev main_v153 : Ref sig .tc := ⟨.hbm, 284, rfl⟩
abbrev main_cst_41 : Ref sig .tc := ⟨.hbm, 285, rfl⟩
abbrev main_v154 : Ref sig .tc := ⟨.hbm, 286, rfl⟩
abbrev main_cst_42 : Ref sig .tc := ⟨.hbm, 287, rfl⟩
abbrev main_v155 : Ref sig .tc := ⟨.hbm, 288, rfl⟩
abbrev main_cst_43 : Ref sig .tc := ⟨.hbm, 289, rfl⟩
abbrev main_v156 : Ref sig .tc := ⟨.hbm, 290, rfl⟩
abbrev main_v157 : Ref sig .tc := ⟨.hbm, 291, rfl⟩

abbrev nD : Nat := 1
abbrev τ : Topo := Topo.v7x

variable {F : FTy → Type} [FloatOps F]

class Facts₀ : Prop where
  reducesTo_S65536x256_S65536_d1 : S65536x256.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x256_0_1 : S65536x1.BroadcastsInDim S65536x256 (![0, 1] : Fin 2 → Fin S65536x256.rank)
  bcast_S_S65536 : S_.BroadcastsInDim S65536 (![] : Fin 0 → Fin S65536.rank)
  bcast_S_S65536x256 : S_.BroadcastsInDim S65536x256 (![] : Fin 0 → Fin S65536x256.rank)
  bcast_S_S129x256 : S_.BroadcastsInDim S129x256 (![] : Fin 0 → Fin S129x256.rank)
  slices_S129x256_S128x256_0_0 : S129x256.Slices ![0, 0] S128x256
  bcast_S_S129 : S_.BroadcastsInDim S129 (![] : Fin 0 → Fin S129.rank)
  slices_S129_S128_0 : S129.Slices ![0] S128
  bcast_S_S128 : S_.BroadcastsInDim S128 (![] : Fin 0 → Fin S128.rank)
  bcast_S128_S128x1_0 : S128.BroadcastsInDim S128x1 (![0] : Fin 1 → Fin S128x1.rank)
  bcast_S128x1_S128x256_0_1 : S128x1.BroadcastsInDim S128x256 (![0, 1] : Fin 2 → Fin S128x256.rank)
  reducesTo_S128x256_S128_d1 : S128x256.ReducesTo [1] S128
  bcast_S_S128x1 : S_.BroadcastsInDim S128x1 (![] : Fin 0 → Fin S128x1.rank)
  bcast_S_S128x256 : S_.BroadcastsInDim S128x256 (![] : Fin 0 → Fin S128x256.rank)
  reducesTo_S131072x256_S131072_d1 : S131072x256.ReducesTo [1] S131072
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x256_0_1 : S131072x1.BroadcastsInDim S131072x256 (![0, 1] : Fin 2 → Fin S131072x256.rank)
  bcast_S_S131072 : S_.BroadcastsInDim S131072 (![] : Fin 0 → Fin S131072.rank)
  bcast_S_S131072x256 : S_.BroadcastsInDim S131072x256 (![] : Fin 0 → Fin S131072x256.rank)
  bcast_S_S513x256 : S_.BroadcastsInDim S513x256 (![] : Fin 0 → Fin S513x256.rank)
  slices_S513x256_S512x256_0_0 : S513x256.Slices ![0, 0] S512x256
  bcast_S_S513 : S_.BroadcastsInDim S513 (![] : Fin 0 → Fin S513.rank)
  slices_S513_S512_0 : S513.Slices ![0] S512
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  reducesTo_S512x256_S512_d1 : S512x256.ReducesTo [1] S512
  bcast_S_S512x1 : S_.BroadcastsInDim S512x1 (![] : Fin 0 → Fin S512x1.rank)
  bcast_S_S512x256 : S_.BroadcastsInDim S512x256 (![] : Fin 0 → Fin S512x256.rank)
  transposes_S128x256_S256x128_1_0 : S128x256.Transposes [1, 0] S256x128
  bcast_S_S65536x128 : S_.BroadcastsInDim S65536x128 (![] : Fin 0 → Fin S65536x128.rank)
  reducesTo_S65536x128_S65536_d1 : S65536x128.ReducesTo [1] S65536
  bcast_S65536x1_S65536x128_0_1 : S65536x1.BroadcastsInDim S65536x128 (![0, 1] : Fin 2 → Fin S65536x128.rank)
  shapeCasts_S65536x1_S65536x1x1 : S65536x1.ShapeCasts S65536x1x1
  bcast_S_S65536x1x1 : S_.BroadcastsInDim S65536x1x1 (![] : Fin 0 → Fin S65536x1x1.rank)
  bcast_S1_S1x1x1_2 : S1.BroadcastsInDim S1x1x1 (![2] : Fin 1 → Fin S1x1x1.rank)
  bcast_S1x1x1_S65536x1x1_0_1_2 : S1x1x1.BroadcastsInDim S65536x1x1 (![0, 1, 2] : Fin 3 → Fin S65536x1x1.rank)
  reducesTo_S65536x1x1_S65536x1_d2 : S65536x1x1.ReducesTo [2] S65536x1
  shapeCasts_S65536x1_S65536 : S65536x1.ShapeCasts S65536
  reducesTo_S65536_S_d0 : S65536.ReducesTo [0] S_
  transposes_S512x256_S256x512_1_0 : S512x256.Transposes [1, 0] S256x512
  bcast_S_S131072x512 : S_.BroadcastsInDim S131072x512 (![] : Fin 0 → Fin S131072x512.rank)
  reducesTo_S131072x512_S131072_d1 : S131072x512.ReducesTo [1] S131072
  bcast_S131072x1_S131072x512_0_1 : S131072x1.BroadcastsInDim S131072x512 (![0, 1] : Fin 2 → Fin S131072x512.rank)
  shapeCasts_S131072x1_S131072x1x1 : S131072x1.ShapeCasts S131072x1x1
  bcast_S_S131072x1x1 : S_.BroadcastsInDim S131072x1x1 (![] : Fin 0 → Fin S131072x1x1.rank)
  bcast_S1x1x1_S131072x1x1_0_1_2 : S1x1x1.BroadcastsInDim S131072x1x1 (![0, 1, 2] : Fin 3 → Fin S131072x1x1.rank)
  reducesTo_S131072x1x1_S131072x1_d2 : S131072x1x1.ReducesTo [2] S131072x1
  shapeCasts_S131072x1_S131072 : S131072x1.ShapeCasts S131072
  reducesTo_S131072_S_d0 : S131072.ReducesTo [0] S_
  scatter_S129x256_S65536x1_S65536x256_1_0_0_1_wf : ScatterDims.WF S129x256 S65536x1 S65536x256 [1] [0] [0] 1
  scatter_S129_S65536x1_S65536_n_0_0_1_wf : ScatterDims.WF S129 S65536x1 S65536 [] [0] [0] 1
  scatter_S513x256_S131072x1_S131072x256_1_0_0_1_wf : ScatterDims.WF S513x256 S131072x1 S131072x256 [1] [0] [0] 1
  scatter_S513_S131072x1_S131072_n_0_0_1_wf : ScatterDims.WF S513 S131072x1 S131072 [] [0] [0] 1
  dot_S65536x256_S256x128_S65536x128_1_0_0_1_n_n_wf : DotDims.WF S65536x256 S256x128 S65536x128 [1] [0] [0] [1] [] []
  gather_S65536x128_S65536x1x1_S65536x1_n_1_0_0_1_2_11_wf : GatherDims.WF S65536x128 S65536x1x1 S65536x1 [] [1] [0] [1] [0] 2 ![1, 1]
  dot_S131072x256_S256x512_S131072x512_1_0_0_1_n_n_wf : DotDims.WF S131072x256 S256x512 S131072x512 [1] [0] [0] [1] [] []
  gather_S131072x512_S131072x1x1_S131072x1_n_1_0_0_1_2_11_wf : GatherDims.WF S131072x512 S131072x1x1 S131072x1 [] [1] [0] [1] [0] 2 ![1, 1]

variable [Facts₀]

def scatter_S129x256_S65536x1_S65536x256_1_0_0_1 : ScatterDims S129x256 S65536x1 S65536x256 where
  updateWindowDims := [1]
  insertedWindowDims := [0]
  scatterDimsToOperandDims := [0]
  indexVectorDim := 1
  wf := scatter_S129x256_S65536x1_S65536x256_1_0_0_1_wf
def scatter_S129_S65536x1_S65536_n_0_0_1 : ScatterDims S129 S65536x1 S65536 where
  updateWindowDims := []
  insertedWindowDims := [0]
  scatterDimsToOperandDims := [0]
  indexVectorDim := 1
  wf := scatter_S129_S65536x1_S65536_n_0_0_1_wf
def scatter_S513x256_S131072x1_S131072x256_1_0_0_1 : ScatterDims S513x256 S131072x1 S131072x256 where
  updateWindowDims := [1]
  insertedWindowDims := [0]
  scatterDimsToOperandDims := [0]
  indexVectorDim := 1
  wf := scatter_S513x256_S131072x1_S131072x256_1_0_0_1_wf
def scatter_S513_S131072x1_S131072_n_0_0_1 : ScatterDims S513 S131072x1 S131072 where
  updateWindowDims := []
  insertedWindowDims := [0]
  scatterDimsToOperandDims := [0]
  indexVectorDim := 1
  wf := scatter_S513_S131072x1_S131072_n_0_0_1_wf
def dot_S65536x256_S256x128_S65536x128_1_0_0_1_n_n : DotDims S65536x256 S256x128 S65536x128 where
  lhsContracting := [1]
  rhsContracting := [0]
  lhsNonContracting := [0]
  rhsNonContracting := [1]
  lhsBatch := []
  rhsBatch := []
  wf := dot_S65536x256_S256x128_S65536x128_1_0_0_1_n_n_wf
def gather_S65536x128_S65536x1x1_S65536x1_n_1_0_0_1_2_11 : GatherDims S65536x128 S65536x1x1 S65536x1 where
  offsetDims := []
  collapsedSliceDims := [1]
  operandBatchingDims := [0]
  startIndicesBatchingDims := [0]
  startIndexMap := [1]
  indexVectorDim := 2
  sliceSizes := ![1, 1]
  wf := gather_S65536x128_S65536x1x1_S65536x1_n_1_0_0_1_2_11_wf
def dot_S131072x256_S256x512_S131072x512_1_0_0_1_n_n : DotDims S131072x256 S256x512 S131072x512 where
  lhsContracting := [1]
  rhsContracting := [0]
  lhsNonContracting := [0]
  rhsNonContracting := [1]
  lhsBatch := []
  rhsBatch := []
  wf := dot_S131072x256_S256x512_S131072x512_1_0_0_1_n_n_wf
def gather_S131072x512_S131072x1x1_S131072x1_n_1_0_0_1_2_11 : GatherDims S131072x512 S131072x1x1 S131072x1 where
  offsetDims := []
  collapsedSliceDims := [1]
  operandBatchingDims := [0]
  startIndicesBatchingDims := [0]
  startIndexMap := [1]
  indexVectorDim := 2
  sliceSizes := ![1, 1]
  wf := gather_S131072x512_S131072x1x1_S131072x1_n_1_0_0_1_2_11_wf

class Facts : Prop extends Facts₀ where

variable [Facts]
-- ==== Proof.K.Upd0.lean ====
import proofs.«418718_j72808285602381_2_alg».proof.Proof.Gen.Kernel.Launch
import proofs.«418718_j72808285602381_2_alg».proof.Proof.Gen.Kernel.Skeleton
import proofs.«418718_j72808285602381_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev xblk0 (c : Dev nD) (t : Fin cfg0.N) : Vec F S8192x256 .f32 := iblk0 V c 0 t
abbrev lblk0 (c : Dev nD) (t : Fin cfg0.N) : Vec F S8192x1 .i32 := iblk0 V c 1 t

def acc0 (c : Dev nD) : (n : ℕ) → n < cfg0.N → Vec F S128x256 .f32 × Vec F S128x128 .f32
  | 0, h => (k0_pay6 (xblk0 V c ⟨0, h⟩) (lblk0 V c ⟨0, h⟩) k0_pay3, k0_pay7 (lblk0 V c ⟨0, h⟩) k0_pay4)
  | n + 1, h =>
    if (n + 1) % 4 = 0 then
      (k0_pay6 (xblk0 V c ⟨n + 1, h⟩) (lblk0 V c ⟨n + 1, h⟩) k0_pay3, k0_pay7 (lblk0 V c ⟨n + 1, h⟩) k0_pay4)
    else
      (k0_pay6 (xblk0 V c ⟨n + 1, h⟩) (lblk0 V c ⟨n + 1, h⟩) (acc0 c n (Nat.lt_of_succ_lt h)).1,
       k0_pay7 (lblk0 V c ⟨n + 1, h⟩) (acc0 c n (Nat.lt_of_succ_lt h)).2)

def PhiS0 (c : Dev nD) : (n : ℕ) → n ≤ cfg0.N → sProp 𝕄
  | 0, _ => Pipeline.ΦA spec0 c
  | n + 1, hn => iprop(owns (c : Thread nD τ) (Memref.whole cc0_scratch0) fullShare (acc0 V c n hn).1
      ∗ owns (c : Thread nD τ) (Memref.whole cc0_scratch1) fullShare (acc0 V c n hn).2
      ∗ Pipeline.scopedRestBut (Ix := Unit) (Name := ℕ) (U := UR sig nD τ) (Lvl := ℕ) (Val := Elt F) spec0 c [cc0_scratch0, cc0_scratch1]
      ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (acc0 V c t.val t.isLt).1
    | ⟨3, _⟩ => k0_pay2 (acc0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := rfl
theorem after0_0 (c : Dev nD) (t : Fin cfg0.N) : (dat0 V c).after 0 t = iblk0 V c 0 t := rfl
theorem after0_1 (c : Dev nD) (t : Fin cfg0.N) : (dat0 V c).after 1 t = iblk0 V c 1 t := rfl
theorem after0_2 (c : Dev nD) (t : Fin cfg0.N) : (dat0 V c).after 2 t = k0_pay1 (acc0 V c t.val t.isLt).1 := rfl
theorem after0_3 (c : Dev nD) (t : Fin cfg0.N) : (dat0 V c).after 3 t = k0_pay2 (acc0 V c t.val t.isLt).2 := rfl

abbrev firstC0 (i : grid0.Coords) : Prop :=
  (Scalar.cmpi .ne (Scalar.extui (Scalar.cmpi .eq (BitVec.ofNat 32 (i 1).val) 0#32)) 0#32) = 1#1
theorem hfirst0 : ∀ t : Fin cfg0.N, firstC0 (grid0.coords t) ↔ t.val % 4 = 0 :=
  (by decide +kernel : ∀ t : Fin grid0.N, firstC0 (grid0.coords t) ↔ t.val % 4 = 0)

abbrev lastC0 (i : grid0.Coords) : Prop := k0_cond2 i = 1#1
theorem hlast0 : ∀ t : Fin cfg0.N, lastC0 (grid0.coords t) ↔ t.val % 4 = 3 :=
  (by decide +kernel : ∀ t : Fin grid0.N, lastC0 (grid0.coords t) ↔ t.val % 4 = 3)

/-- A box as large as its shape can only start at the origin. -/
theorem offZero {n : ℕ} {off size : Fin n → ℕ} (inb : ∀ a, off a + size a ≤ size a) : off = fun _ => 0 :=
  funext fun a => by have := inb a; omega

section
variable {r : ℕ} {size : Fin r → ℕ} {e : EltTy} {off : Fin r → ℕ} (inb : ∀ a, off a + size a ≤ size a)
  (v : View sig .tc .vmem ⟨r, size⟩ e) (w : Shape.Idx ⟨r, size⟩ → Elt F e)

/-- The last store through such a box decides what the buffer reads as, whatever was stored before. -/
theorem readStoredWhole (f : v.ty.Contents (Elt F)) (L : List (View.Piece (Elt F) ⟨r, size⟩ e)) :
    v.read (Elt F) (v.writes (Elt F) f ((⟨Rect.unit off size inb, w⟩ : View.Piece (Elt F) ⟨r, size⟩ e) :: L)) = w :=
  (View.read_writes_eq_canon v f _ (fun y => ⟨_, List.mem_cons_self, View.mem_set_unit_zero (offZero inb) inb y⟩)).trans
    (View.canon_cons_unit_zero (offZero inb) inb w L)

theorem readCovWhole :
    v.readCov [(⟨Rect.unit off size inb, w⟩ : View.Piece (Elt F) ⟨r, size⟩ e)] (Rect.unit off size inb).toLoadRect = w :=
  View.readCov_unit_zero v (offZero inb) inb w

theorem ldWhole : View.ld w (Rect.unit off size inb) = w :=
  View.ld_unit_zero (offZero inb) inb w

end

/-- One run of the body: under `P` the running arrays restart from zero, under `Q` both are copied out. -/
theorem kernel0 (c : Dev nD) (E : Set ℕ) (i : grid0.Coords)
    (arg2 : Memref sig .tc .vmem S8192x256 .f32) (harg2 : arg2.IsWhole)
    (arg3 : Memref sig .tc .vmem S8192x1 .i32) (harg3 : arg3.IsWhole)
    (arg4 : Memref sig .tc .vmem S1x128x256 .f32) (harg4 : arg4.IsWhole)
    (arg5 : Memref sig .tc .vmem S1x128x128 .f32) (harg5 : arg5.IsWhole)
    (arg6 : Memref sig .tc .vmem S128x256 .f32) (harg6 : arg6.IsWhole)
    (arg7 : Memref sig .tc .vmem S128x128 .f32) (harg7 : arg7.IsWhole)
    (P Q : Prop) [Decidable P] [Decidable Q] (hP : firstC0 i ↔ P) (hQ : lastC0 i ↔ Q) (hPQ : ¬ (P ∧ Q))
    (x : Vec F S8192x256 .f32) (l : Vec F S8192x1 .i32) (o2 : Vec F S1x128x256 .f32) (o3 : Vec F S1x128x128 .f32)
    (s6 : Vec F S128x256 .f32) (s7 : Vec F S128x128 .f32) (K : PUnit → sProp 𝕄) :
    iprop(owns c arg2 fullShare x ∗ owns c arg3 fullShare l
        ∗ owns c arg4 fullShare o2 ∗ owns c arg5 fullShare o3
        ∗ owns c arg6 fullShare s6 ∗ owns c arg7 fullShare s7
        ∗ (iprop(owns c arg2 fullShare x ∗ owns c arg3 fullShare l
            ∗ owns c arg4 fullShare (if Q then k0_pay1 (k0_pay6 x l (if P then k0_pay3 else s6)) else o2)
            ∗ owns c arg5 fullShare (if Q then k0_pay2 (k0_pay7 l (if P then k0_pay4 else s7)) else o3)
            ∗ owns c arg6 fullShare (k0_pay6 x l (if P then k0_pay3 else s6))
            ∗ owns c arg7 fullShare (k0_pay7 l (if P then k0_pay4 else s7))) -∗ K ⟨⟩))
      ⊢ wp frame (wpE (defs₀ (F := F)) Variants.none c none) E
          (cc0__update_kernel i arg2 harg2 arg3 harg3 arg4 harg4 arg5 harg5 arg6 harg6 arg7 harg7) K := by
  by_cases hp : P <;> by_cases hq : Q
  · exact absurd ⟨hp, hq⟩ hPQ
  all_goals (
    simp only [hp, hq, iff_true, iff_false, ↓reduceIte] at hP hQ ⊢
    simp only [cc0__update_kernel_eq_skeleton]; unfold cc0__update_kernel_skel owns
    iintro ⟨⟨%fx, %hfx, Hx⟩, ⟨%fl, %hfl, Hl⟩, ⟨%fo2, %hfo2, Ho2⟩, ⟨%fo3, %hfo3, Ho3⟩, ⟨%fs6, %hfs6, Hs6⟩, ⟨%fs7, %hfs7, Hs7⟩, Hk⟩
    sl_exec (disch := first | exact hP | exact hQ)
    sl_step
    iapply Hk
    isplitl [Hx]; iexists _; isplitr; swap; iexact Hx; rotate_left
    isplitl [Hl]; iexists _; isplitr; swap; iexact Hl; rotate_left
    isplitl [Ho2]; iexists _; isplitr; swap; iexact Ho2; rotate_left
    isplitl [Ho3]; iexists _; isplitr; swap; iexact Ho3; rotate_left
    isplitl [Hs6]; iexists _; isplitr; swap; iexact Hs6; rotate_left
    iexists _; isplitr; swap; iexact Hs7
    all_goals
      ipureintro; sl_unfold_run_names
      simp only [readStoredWhole, readCovWhole, View.readAt_eq_ld, ldWhole, hfx, hfl, hfo2, hfo3, hfs6, hfs7])

/-- How the running arrays move at point `t`, given what the point before left (nothing is asked of it at point 0). -/
theorem accStep0 (c : Dev nD) (t : Fin cfg0.N) (d6 : Vec F S128x256 .f32) (d7 : Vec F S128x128 .f32)
    (hd : t.val ≠ 0 → (acc0 V c (t.val - 1) (Nat.lt_of_le_of_lt (Nat.sub_le _ _) t.isLt)).1 = d6 ∧ (acc0 V c (t.val - 1) (Nat.lt_of_le_of_lt (Nat.sub_le _ _) t.isLt)).2 = d7) :
    acc0 V c t.val t.isLt = (k0_pay6 (xblk0 V c t) (lblk0 V c t) (if t.val % 4 = 0 then k0_pay3 else d6),
      k0_pay7 (lblk0 V c t) (if t.val % 4 = 0 then k0_pay4 else d7)) := by
  obtain ⟨n, hn⟩ := t
  cases n with
  | zero => rfl
  | succ n =>
    obtain ⟨rfl, rfl⟩ := hd (Nat.succ_ne_zero n)
    by_cases h : (n + 1) % 4 = 0
    · rw [if_pos h, if_pos h]; exact if_pos h
    · rw [if_neg h, if_neg h]; exact if_neg h

theorem PhiAeq0 (c : Dev nD) :
    (Pipeline.ΦA spec0 c : sProp 𝕄)
      = iprop(iprop(iprop(iprop((∃ d, owns c (Memref.whole cc0_scratch0) fullShare d) ∗ (∃ d, owns c (Memref.whole cc0_scratch1) fullShare d))
          ∗ Pipeline.scopedRestBut (Ix := Unit) (Name := ℕ) (U := UR sig nD τ) (Lvl := ℕ) (Val := Elt F) spec0 c [cc0_scratch0, cc0_scratch1]))
        ∗ (∃ r, prngReg c r)) := by
  unfold Pipeline.ΦA; rw [scopedRest0_split]; simp only [owns_whole]; try rfl

/-- The invariant holds the running arrays at some contents: after the first point, what the point before left. -/
theorem PhiSopen0 (c : Dev nD) (n : ℕ) (h : n ≤ cfg0.N) :
    PhiS0 V c n h ⊢ iprop(∃ d6 d7, ⌜∀ hn : n ≠ 0, (acc0 V c (n - 1) (by omega)).1 = d6 ∧ (acc0 V c (n - 1) (by omega)).2 = d7⌝
      ∗ owns c (Memref.whole cc0_scratch0) fullShare d6
      ∗ owns c (Memref.whole cc0_scratch1) fullShare d7
      ∗ Pipeline.scopedRestBut (Ix := Unit) (Name := ℕ) (U := UR sig nD τ) (Lvl := ℕ) (Val := Elt F) spec0 c [cc0_scratch0, cc0_scratch1]
      ∗ (∃ r, prngReg c r)) := by
  cases n with
  | zero =>
    rw [PhiS0, PhiAeq0]
    iintro ⟨⟨⟨⟨%d6, Hs6⟩, ⟨%d7, Hs7⟩⟩, Hrest⟩, Hg⟩
    iexists d6, d7
    isplitr; · ipureintro; exact fun hn => absurd rfl hn
    iframe
  | succ n =>
    rw [PhiS0]
    iintro ⟨Hs6, Hs7, Hrest, Hg⟩
    iexists (acc0 V c n h).1, (acc0 V c n h).2
    isplitr; · ipureintro; exact fun _ => ⟨rfl, rfl⟩
    iframe

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

theorem idleAt0_2 : ∀ t : Fin cfg0.N, ¬ t.val % 4 = 3 → cfg0.idle 2 (grid0.coords t) = true := by decide +kernel
theorem idleAt0_3 : ∀ t : Fin cfg0.N, ¬ t.val % 4 = 3 → cfg0.idle 3 (grid0.coords t) = true := by decide +kernel
theorem liveAt0_2 : ∀ t : Fin cfg0.N, t.val % 4 = 3 → cfg0.idle 2 (grid0.coords t) = false := by decide +kernel
theorem liveAt0_3 : ∀ t : Fin cfg0.N, t.val % 4 = 3 → cfg0.idle 3 (grid0.coords t) = false := by decide +kernel

theorem leaves0 (c : Dev nD) (w : Fin cfg0.W) (t : Fin cfg0.N) (h : cfg0.idle w (grid0.coords t) = false) :
    (dat0 V c).leavesExact w t = owns c ((cfg0.win w).stage (cfg0.slots t w)) fullShare ((dat0 V c).after w t) := by
  unfold Dat.leavesExact; rw [h]

/-- The invariant lends the running arrays, the run moves them by the tile, and the invariant takes them back. -/
theorem sound_body0 (c : Dev nD) (t : Fin cfg0.N) :
    iprop((dat0 V c).Φ t.castSucc ∗ (dat0 V c).owesAt () t.castSucc
      ∗ (∃ d, owns c (st0_0 t) fullShare ((dat0 V c).before 0 t d))
      ∗ (∃ d, owns c (st0_1 t) fullShare ((dat0 V c).before 1 t d))
      ∗ (∃ d, owns c (st0_2 t) fullShare ((dat0 V c).before 2 t d))
      ∗ (∃ d, owns c (st0_3 t) fullShare ((dat0 V c).before 3 t d)))
    ⊢ wp frame (wpE (defs₀ (F := F)) Variants.none c none) Set.univ (bodyAt0 t)
        (fun _ => iprop((dat0 V c).Φ t.succ ∗ (dat0 V c).owesAt () t.succ
          ∗ (dat0 V c).leavesExact 0 t ∗ (dat0 V c).leavesExact 1 t
          ∗ (dat0 V c).leavesExact 2 t ∗ (dat0 V c).leavesExact 3 t)) := by
  unfold bodyAt0
  simp only [before0_0, before0_1]
  rw [show (dat0 V c).owesAt () t.succ = (dat0 V c).owesAt () t.castSucc from rfl,
    show (dat0 V c).Φ t.succ = PhiS0 V c (t.val + 1) t.isLt from rfl, PhiS0,
    show (dat0 V c).Φ t.castSucc = PhiS0 V c t.val (Nat.le_of_lt t.isLt) from rfl,
    leaves0 V c 0 t rfl, leaves0 V c 1 t rfl, after0_0, after0_1]
  iintro ⟨Hinv, Ho, ⟨%ex, Hx⟩, ⟨%el, Hl⟩, ⟨%eo2, Ho2⟩, ⟨%eo3, Ho3⟩⟩
  icases (PhiSopen0 V c _ _) $$ Hinv with ⟨%d6, %d7, %hd, Hs6, Hs7, Hrest, Hg⟩
  rw [accStep0 V c t d6 d7 hd]
  iapply (kernel0 c Set.univ (grid0.coords t) _ _ _ _ _ _ _ _ _ _ _ _ (t.val % 4 = 0) (t.val % 4 = 3) (hfirst0 t) (hlast0 t) (by omega)
    (xblk0 V c t) (lblk0 V c t) ((dat0 V c).before 2 t eo2) ((dat0 V c).before 3 t eo3) d6 d7 _)
  iframe Hx Hl Ho2 Ho3 Hs6 Hs7
  iintro ⟨Hx, Hl, Ho2, Ho3, Hs6, Hs7⟩
  iframe Hs6 Hs7 Hrest Hg Ho Hx Hl
  by_cases hlast : t.val % 4 = 3
  · rw [leaves0 V c 2 t (liveAt0_2 t hlast), leaves0 V c 3 t (liveAt0_3 t hlast), after0_2, after0_3,
      accStep0 V c t d6 d7 hd, if_pos hlast, if_pos hlast]
    isplitl [Ho2]; · iexact Ho2
    iexact Ho3
  · rw [Dat.leavesExact_idle (dat0 V c) 2 t (idleAt0_2 t hlast) (eq_false_of_ne_true (mt (flush0_2 t).mp hlast)),
      Dat.leavesExact_idle (dat0 V c) 3 t (idleAt0_3 t hlast) (eq_false_of_ne_true (mt (flush0_3 t).mp hlast)),
      if_neg hlast, if_neg hlast]
    isplitl [Ho2]; · iexists _; iexact Ho2
    iexists _; iexact Ho3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 :=
  Entails.of_eq rfl

/-- After the last point the invariant gives back what the launch handed over, the running arrays' contents forgotten. -/
theorem hout0 (c : Dev nD) : (dat0 V c).Φ (Fin.last cfg0.N) ⊢ Pipeline.ΦA spec0 c := by
  rw [PhiAeq0, show (dat0 V c).Φ (Fin.last cfg0.N) = PhiS0 V c cfg0.N (Nat.le_refl _) from rfl]
  refine (PhiSopen0 V c _ _).trans ?_
  iintro ⟨%d6, %d7, -, Hs6, Hs7, Hrest, Hg⟩
  iframe Hrest Hg
  isplitl [Hs6]; · iexists _; iexact Hs6
  iexists _; iexact Hs7

end Cert.Kernel.Hand

end
-- ==== Proof.K.Upd1.lean ====
import proofs.«418718_j72808285602381_2_alg».proof.Proof.Gen.Kernel.Launch
import proofs.«418718_j72808285602381_2_alg».proof.Proof.Gen.Kernel.Skeleton
import proofs.«418718_j72808285602381_2_alg».proof.Proof.Gen.Kernel.Points
import proofs.«418718_j72808285602381_2_alg».proof.Proof.K.Upd0
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev xblk1 (c : Dev nD) (t : Fin cfg1.N) : Vec F S4096x256 .f32 := iblk1 V c 0 t
abbrev lblk1 (c : Dev nD) (t : Fin cfg1.N) : Vec F S4096x1 .i32 := iblk1 V c 1 t

def acc1 (c : Dev nD) : (n : ℕ) → n < cfg1.N → Vec F S512x256 .f32 × Vec F S512x128 .f32
  | 0, h => (k1_pay6 (xblk1 V c ⟨0, h⟩) (lblk1 V c ⟨0, h⟩) k1_pay3, k1_pay7 (lblk1 V c ⟨0, h⟩) k1_pay4)
  | n + 1, h =>
    if (n + 1) % 16 = 0 then
      (k1_pay6 (xblk1 V c ⟨n + 1, h⟩) (lblk1 V c ⟨n + 1, h⟩) k1_pay3, k1_pay7 (lblk1 V c ⟨n + 1, h⟩) k1_pay4)
    else
      (k1_pay6 (xblk1 V c ⟨n + 1, h⟩) (lblk1 V c ⟨n + 1, h⟩) (acc1 c n (Nat.lt_of_succ_lt h)).1,
       k1_pay7 (lblk1 V c ⟨n + 1, h⟩) (acc1 c n (Nat.lt_of_succ_lt h)).2)

def PhiS1 (c : Dev nD) : (n : ℕ) → n ≤ cfg1.N → sProp 𝕄
  | 0, _ => Pipeline.ΦA spec1 c
  | n + 1, hn => iprop(owns (c : Thread nD τ) (Memref.whole cc1_scratch0) fullShare (acc1 V c n hn).1
      ∗ owns (c : Thread nD τ) (Memref.whole cc1_scratch1) fullShare (acc1 V c n hn).2
      ∗ Pipeline.scopedRestBut (Ix := Unit) (Name := ℕ) (U := UR sig nD τ) (Lvl := ℕ) (Val := Elt F) spec1 c [cc1_scratch0, cc1_scratch1]
      ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (acc1 V c t.val t.isLt).1
    | ⟨3, _⟩ => k1_pay2 (acc1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := rfl
theorem after1_0 (c : Dev nD) (t : Fin cfg1.N) : (dat1 V c).after 0 t = iblk1 V c 0 t := rfl
theorem after1_1 (c : Dev nD) (t : Fin cfg1.N) : (dat1 V c).after 1 t = iblk1 V c 1 t := rfl
theorem after1_2 (c : Dev nD) (t : Fin cfg1.N) : (dat1 V c).after 2 t = k1_pay1 (acc1 V c t.val t.isLt).1 := rfl
theorem after1_3 (c : Dev nD) (t : Fin cfg1.N) : (dat1 V c).after 3 t = k1_pay2 (acc1 V c t.val t.isLt).2 := rfl

abbrev firstC1 (i : grid1.Coords) : Prop :=
  (Scalar.cmpi .ne (Scalar.extui (Scalar.cmpi .eq (BitVec.ofNat 32 (i 1).val) 0#32)) 0#32) = 1#1
theorem hfirst1 : ∀ t : Fin cfg1.N, firstC1 (grid1.coords t) ↔ t.val % 16 = 0 :=
  (by decide +kernel : ∀ t : Fin grid1.N, firstC1 (grid1.coords t) ↔ t.val % 16 = 0)

abbrev lastC1 (i : grid1.Coords) : Prop := k1_cond2 i = 1#1
theorem hlast1 : ∀ t : Fin cfg1.N, lastC1 (grid1.coords t) ↔ t.val % 16 = 15 :=
  (by decide +kernel : ∀ t : Fin grid1.N, lastC1 (grid1.coords t) ↔ t.val % 16 = 15)

/-- One run of the body: under `P` the running arrays restart from zero, under `Q` both are copied out. -/
theorem kernel1 (c : Dev nD) (E : Set ℕ) (i : grid1.Coords)
    (arg2 : Memref sig .tc .vmem S4096x256 .f32) (harg2 : arg2.IsWhole)
    (arg3 : Memref sig .tc .vmem S4096x1 .i32) (harg3 : arg3.IsWhole)
    (arg4 : Memref sig .tc .vmem S1x512x256 .f32) (harg4 : arg4.IsWhole)
    (arg5 : Memref sig .tc .vmem S1x512x128 .f32) (harg5 : arg5.IsWhole)
    (arg6 : Memref sig .tc .vmem S512x256 .f32) (harg6 : arg6.IsWhole)
    (arg7 : Memref sig .tc .vmem S512x128 .f32) (harg7 : arg7.IsWhole)
    (P Q : Prop) [Decidable P] [Decidable Q] (hP : firstC1 i ↔ P) (hQ : lastC1 i ↔ Q) (hPQ : ¬ (P ∧ Q))
    (x : Vec F S4096x256 .f32) (l : Vec F S4096x1 .i32) (o2 : Vec F S1x512x256 .f32) (o3 : Vec F S1x512x128 .f32)
    (s6 : Vec F S512x256 .f32) (s7 : Vec F S512x128 .f32) (K : PUnit → sProp 𝕄) :
    iprop(owns c arg2 fullShare x ∗ owns c arg3 fullShare l
        ∗ owns c arg4 fullShare o2 ∗ owns c arg5 fullShare o3
        ∗ owns c arg6 fullShare s6 ∗ owns c arg7 fullShare s7
        ∗ (iprop(owns c arg2 fullShare x ∗ owns c arg3 fullShare l
            ∗ owns c arg4 fullShare (if Q then k1_pay1 (k1_pay6 x l (if P then k1_pay3 else s6)) else o2)
            ∗ owns c arg5 fullShare (if Q then k1_pay2 (k1_pay7 l (if P then k1_pay4 else s7)) else o3)
            ∗ owns c arg6 fullShare (k1_pay6 x l (if P then k1_pay3 else s6))
            ∗ owns c arg7 fullShare (k1_pay7 l (if P then k1_pay4 else s7))) -∗ K ⟨⟩))
      ⊢ wp frame (wpE (defs₀ (F := F)) Variants.none c none) E
          (cc1__update_kernel i arg2 harg2 arg3 harg3 arg4 harg4 arg5 harg5 arg6 harg6 arg7 harg7) K := by
  by_cases hp : P <;> by_cases hq : Q
  · exact absurd ⟨hp, hq⟩ hPQ
  all_goals (
    simp only [hp, hq, iff_true, iff_false, ↓reduceIte] at hP hQ ⊢
    simp only [cc1__update_kernel_eq_skeleton]; unfold cc1__update_kernel_skel owns
    iintro ⟨⟨%fx, %hfx, Hx⟩, ⟨%fl, %hfl, Hl⟩, ⟨%fo2, %hfo2, Ho2⟩, ⟨%fo3, %hfo3, Ho3⟩, ⟨%fs6, %hfs6, Hs6⟩, ⟨%fs7, %hfs7, Hs7⟩, Hk⟩
    sl_exec (disch := first | exact hP | exact hQ)
    sl_step
    iapply Hk
    isplitl [Hx]; iexists _; isplitr; swap; iexact Hx; rotate_left
    isplitl [Hl]; iexists _; isplitr; swap; iexact Hl; rotate_left
    isplitl [Ho2]; iexists _; isplitr; swap; iexact Ho2; rotate_left
    isplitl [Ho3]; iexists _; isplitr; swap; iexact Ho3; rotate_left
    isplitl [Hs6]; iexists _; isplitr; swap; iexact Hs6; rotate_left
    iexists _; isplitr; swap; iexact Hs7
    all_goals
      ipureintro; sl_unfold_run_names
      simp only [readStoredWhole, readCovWhole, View.readAt_eq_ld, ldWhole, hfx, hfl, hfo2, hfo3, hfs6, hfs7])

/-- How the running arrays move at point `t`, given what the point before left (nothing is asked of it at point 0). -/
theorem accStep1 (c : Dev nD) (t : Fin cfg1.N) (d6 : Vec F S512x256 .f32) (d7 : Vec F S512x128 .f32)
    (hd : t.val ≠ 0 → (acc1 V c (t.val - 1) (Nat.lt_of_le_of_lt (Nat.sub_le _ _) t.isLt)).1 = d6 ∧ (acc1 V c (t.val - 1) (Nat.lt_of_le_of_lt (Nat.sub_le _ _) t.isLt)).2 = d7) :
    acc1 V c t.val t.isLt = (k1_pay6 (xblk1 V c t) (lblk1 V c t) (if t.val % 16 = 0 then k1_pay3 else d6),
      k1_pay7 (lblk1 V c t) (if t.val % 16 = 0 then k1_pay4 else d7)) := by
  obtain ⟨n, hn⟩ := t
  cases n with
  | zero => rfl
  | succ n =>
    obtain ⟨rfl, rfl⟩ := hd (Nat.succ_ne_zero n)
    by_cases h : (n + 1) % 16 = 0
    · rw [if_pos h, if_pos h]; exact if_pos h
    · rw [if_neg h, if_neg h]; exact if_neg h

theorem PhiAeq1 (c : Dev nD) :
    (Pipeline.ΦA spec1 c : sProp 𝕄)
      = iprop(iprop(iprop(iprop((∃ d, owns c (Memref.whole cc1_scratch0) fullShare d) ∗ (∃ d, owns c (Memref.whole cc1_scratch1) fullShare d))
          ∗ Pipeline.scopedRestBut (Ix := Unit) (Name := ℕ) (U := UR sig nD τ) (Lvl := ℕ) (Val := Elt F) spec1 c [cc1_scratch0, cc1_scratch1]))
        ∗ (∃ r, prngReg c r)) := by
  unfold Pipeline.ΦA; rw [scopedRest1_split]; simp only [owns_whole]; try rfl

/-- The invariant holds the running arrays at some contents: after the first point, what the point before left. -/
theorem PhiSopen1 (c : Dev nD) (n : ℕ) (h : n ≤ cfg1.N) :
    PhiS1 V c n h ⊢ iprop(∃ d6 d7, ⌜∀ hn : n ≠ 0, (acc1 V c (n - 1) (by omega)).1 = d6 ∧ (acc1 V c (n - 1) (by omega)).2 = d7⌝
      ∗ owns c (Memref.whole cc1_scratch0) fullShare d6
      ∗ owns c (Memref.whole cc1_scratch1) fullShare d7
      ∗ Pipeline.scopedRestBut (Ix := Unit) (Name := ℕ) (U := UR sig nD τ) (Lvl := ℕ) (Val := Elt F) spec1 c [cc1_scratch0, cc1_scratch1]
      ∗ (∃ r, prngReg c r)) := by
  cases n with
  | zero =>
    rw [PhiS1, PhiAeq1]
    iintro ⟨⟨⟨⟨%d6, Hs6⟩, ⟨%d7, Hs7⟩⟩, Hrest⟩, Hg⟩
    iexists d6, d7
    isplitr; · ipureintro; exact fun hn => absurd rfl hn
    iframe
  | succ n =>
    rw [PhiS1]
    iintro ⟨Hs6, Hs7, Hrest, Hg⟩
    iexists (acc1 V c n h).1, (acc1 V c n h).2
    isplitr; · ipureintro; exact fun _ => ⟨rfl, rfl⟩
    iframe

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl

theorem idleAt1_2 : ∀ t : Fin cfg1.N, ¬ t.val % 16 = 15 → cfg1.idle 2 (grid1.coords t) = true := by decide +kernel
theorem idleAt1_3 : ∀ t : Fin cfg1.N, ¬ t.val % 16 = 15 → cfg1.idle 3 (grid1.coords t) = true := by decide +kernel
theorem liveAt1_2 : ∀ t : Fin cfg1.N, t.val % 16 = 15 → cfg1.idle 2 (grid1.coords t) = false := by decide +kernel
theorem liveAt1_3 : ∀ t : Fin cfg1.N, t.val % 16 = 15 → cfg1.idle 3 (grid1.coords t) = false := by decide +kernel

theorem leaves1 (c : Dev nD) (w : Fin cfg1.W) (t : Fin cfg1.N) (h : cfg1.idle w (grid1.coords t) = false) :
    (dat1 V c).leavesExact w t = owns c ((cfg1.win w).stage (cfg1.slots t w)) fullShare ((dat1 V c).after w t) := by
  unfold Dat.leavesExact; rw [h]

/-- The invariant lends the running arrays, the run moves them by the tile, and the invariant takes them back. -/
theorem sound_body1 (c : Dev nD) (t : Fin cfg1.N) :
    iprop((dat1 V c).Φ t.castSucc ∗ (dat1 V c).owesAt () t.castSucc
      ∗ (∃ d, owns c (st1_0 t) fullShare ((dat1 V c).before 0 t d))
      ∗ (∃ d, owns c (st1_1 t) fullShare ((dat1 V c).before 1 t d))
      ∗ (∃ d, owns c (st1_2 t) fullShare ((dat1 V c).before 2 t d))
      ∗ (∃ d, owns c (st1_3 t) fullShare ((dat1 V c).before 3 t d)))
    ⊢ wp frame (wpE (defs₀ (F := F)) Variants.none c none) Set.univ (bodyAt1 t)
        (fun _ => iprop((dat1 V c).Φ t.succ ∗ (dat1 V c).owesAt () t.succ
          ∗ (dat1 V c).leavesExact 0 t ∗ (dat1 V c).leavesExact 1 t
          ∗ (dat1 V c).leavesExact 2 t ∗ (dat1 V c).leavesExact 3 t)) := by
  unfold bodyAt1
  simp only [before1_0, before1_1]
  rw [show (dat1 V c).owesAt () t.succ = (dat1 V c).owesAt () t.castSucc from rfl,
    show (dat1 V c).Φ t.succ = PhiS1 V c (t.val + 1) t.isLt from rfl, PhiS1,
    show (dat1 V c).Φ t.castSucc = PhiS1 V c t.val (Nat.le_of_lt t.isLt) from rfl,
    leaves1 V c 0 t rfl, leaves1 V c 1 t rfl, after1_0, after1_1]
  iintro ⟨Hinv, Ho, ⟨%ex, Hx⟩, ⟨%el, Hl⟩, ⟨%eo2, Ho2⟩, ⟨%eo3, Ho3⟩⟩
  icases (PhiSopen1 V c _ _) $$ Hinv with ⟨%d6, %d7, %hd, Hs6, Hs7, Hrest, Hg⟩
  rw [accStep1 V c t d6 d7 hd]
  iapply (kernel1 c Set.univ (grid1.coords t) _ _ _ _ _ _ _ _ _ _ _ _ (t.val % 16 = 0) (t.val % 16 = 15) (hfirst1 t) (hlast1 t) (by omega)
    (xblk1 V c t) (lblk1 V c t) ((dat1 V c).before 2 t eo2) ((dat1 V c).before 3 t eo3) d6 d7 _)
  iframe Hx Hl Ho2 Ho3 Hs6 Hs7
  iintro ⟨Hx, Hl, Ho2, Ho3, Hs6, Hs7⟩
  iframe Hs6 Hs7 Hrest Hg Ho Hx Hl
  by_cases hlast : t.val % 16 = 15
  · rw [leaves1 V c 2 t (liveAt1_2 t hlast), leaves1 V c 3 t (liveAt1_3 t hlast), after1_2, after1_3,
      accStep1 V c t d6 d7 hd, if_pos hlast, if_pos hlast]
    isplitl [Ho2]; · iexact Ho2
    iexact Ho3
  · rw [Dat.leavesExact_idle (dat1 V c) 2 t (idleAt1_2 t hlast) (eq_false_of_ne_true (mt (flush1_2 t).mp hlast)),
      Dat.leavesExact_idle (dat1 V c) 3 t (idleAt1_3 t hlast) (eq_false_of_ne_true (mt (flush1_3 t).mp hlast)),
      if_neg hlast, if_neg hlast]
    isplitl [Ho2]; · iexists _; iexact Ho2
    iexists _; iexact Ho3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 :=
  Entails.of_eq rfl

/-- After the last point the invariant gives back what the launch handed over, the running arrays' contents forgotten. -/
theorem hout1 (c : Dev nD) : (dat1 V c).Φ (Fin.last cfg1.N) ⊢ Pipeline.ΦA spec1 c := by
  rw [PhiAeq1, show (dat1 V c).Φ (Fin.last cfg1.N) = PhiS1 V c cfg1.N (Nat.le_refl _) from rfl]
  refine (PhiSopen1 V c _ _).trans ?_
  iintro ⟨%d6, %d7, -, Hs6, Hs7, Hrest, Hg⟩
  iframe Hrest Hg
  isplitl [Hs6]; · iexists _; iexact Hs6
  iexists _; iexact Hs7

end Cert.Kernel.Hand

end
-- ==== Proof.K.Loss2.lean ====
import proofs.«418718_j72808285602381_2_alg».proof.Proof.Gen.Kernel.Launch
import proofs.«418718_j72808285602381_2_alg».proof.Proof.Gen.Kernel.Skeleton
import proofs.«418718_j72808285602381_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev xblk2 (c : Dev nD) (t : Fin cfg2.N) : Vec F S8192x256 .f32 := iblk2 V c 0 t
abbrev lblk2 (c : Dev nD) (t : Fin cfg2.N) : Vec F S8192x1 .i32 := iblk2 V c 1 t
abbrev pblk2 (c : Dev nD) (t : Fin cfg2.N) : Vec F S128x256 .f32 := iblk2 V c 2 t

def out2_3 (x0 : Vec F S8192x256 .f32) (x1 : Vec F S8192x1 .i32) (x2 : Vec F S128x256 .f32) : Vec F S1x1x128 .f32 :=
  k2_pay1 (k2_pay3 x1) (k2_pay4 x0 x1 x2)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (xblk2 V c t) (lblk2 V c t) (pblk2 V c t)
  Φ _ := Pipeline.ΦA spec2 c
  q _ := fullShare
  owed _ := 0

theorem after2_3 (c : Dev nD) (t : Fin cfg2.N) :
    (dat2 V c).after 3 t = out2_3 (xblk2 V c t) (lblk2 V c t) (pblk2 V c t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl

theorem zeroPair2 : (![0, 0] : Fin 2 → Nat) = fun _ => 0 := funext (by decide)
theorem zeroTriple2 : (![0, 0, 0] : Fin 3 → Nat) = fun _ => 0 := funext (by decide)

/-- A load through the rectangle at offset zero with the buffer's own sizes reads the buffer's contents. -/
theorem loaded2 {S : Shape} {e : EltTy} (mx : Memref sig .tc .vmem S e) (fx : mx.view.ty.Contents (Elt F)) {off : Fin S.rank → Nat}
    (h : off = fun _ => 0) (inb : ∀ a, off a + S.size a ≤ S.size a) :
    mx.view.readAt (Elt F) (Rect.unit off S.size inb).toLoadRect fx = mx.view.read (Elt F) fx := by
  rw [View.readAt_eq_ld, View.ld_unit_zero h]

/-- One store through that rectangle covers the buffer, which then reads the stored contents whatever it held. -/
theorem stored2 {S : Shape} {e : EltTy} (mo : Memref sig .tc .vmem S e) (fo : mo.view.ty.Contents (Elt F)) (row : S.Idx → Elt F e)
    {off : Fin S.rank → Nat} (h : off = fun _ => 0) (inb : ∀ a, off a + S.size a ≤ S.size a) :
    mo.view.read (Elt F) (mo.view.writes (Elt F) fo [⟨Rect.unit off S.size inb, row⟩]) = row := by
  rw [View.read_writes_eq_canon _ _ _ fun y => ⟨_, List.mem_singleton_self _, View.mem_set_unit_zero h inb y⟩, View.canon_unit_zero h]

theorem sound_kernel2 (c : Dev nD) (E : Set ℕ) (i : grid2.Coords)
    (mx : Memref sig .tc .vmem S8192x256 .f32) (wx : mx.IsWhole) (ml : Memref sig .tc .vmem S8192x1 .i32) (wl : ml.IsWhole)
    (mp : Memref sig .tc .vmem S128x256 .f32) (wp' : mp.IsWhole) (mo : Memref sig .tc .vmem S1x1x128 .f32) (wo : mo.IsWhole)
    (x0 : Vec F S8192x256 .f32) (x1 : Vec F S8192x1 .i32) (x2 : Vec F S128x256 .f32) (K : PUnit → sProp 𝕄) :
    iprop(owns (c : Thread nD τ) mx fullShare x0 ∗ owns (c : Thread nD τ) ml fullShare x1 ∗ owns (c : Thread nD τ) mp fullShare x2
        ∗ (∃ d, owns (c : Thread nD τ) mo fullShare d)
        ∗ (iprop(owns (c : Thread nD τ) mx fullShare x0 ∗ owns (c : Thread nD τ) ml fullShare x1 ∗ owns (c : Thread nD τ) mp fullShare x2
            ∗ owns (c : Thread nD τ) mo fullShare (out2_3 x0 x1 x2)) -∗ K ⟨⟩))
      ⊢ wp frame (wpE (defs₀ (F := F)) Variants.none c none) E (cc2__loss_kernel i mx wx ml wl mp wp' mo wo) K := by
  simp only [cc2__loss_kernel_eq_skeleton]; unfold cc2__loss_kernel_skel
  simp only [k2_part1_eq_skeleton]; unfold k2_part1_skel
  unfold owns
  iintro ⟨⟨%fx, %hfx, Hx⟩, ⟨%fl, %hfl, Hl⟩, ⟨%fp, %hfp, Hp⟩, ⟨%dout, %fo, -, Ho⟩, Hk⟩
  subst hfx hfl hfp
  sl_exec
  sl_step
  iapply Hk
  isplitl [Hx]
  · iexists fx; isplitr
    · ipureintro; rfl
    · iexact Hx
  isplitl [Hl]
  · iexists fl; isplitr
    · ipureintro; rfl
    · iexact Hl
  isplitl [Hp]
  · iexists fp; isplitr
    · ipureintro; rfl
    · iexact Hp
  iexists _; isplitr
  swap; · iexact Ho
  ipureintro
  dsimp only
  rw [stored2 _ _ _ zeroTriple2, loaded2 _ _ zeroPair2, loaded2 _ _ zeroPair2, loaded2 _ _ zeroPair2]
  rfl

/-- At a point of the grid the inputs read the windows' blocks there, so the body's triple applies at those blocks. -/
theorem sound_body2 (c : Dev nD) (t : Fin cfg2.N) :
    iprop((dat2 V c).Φ t.castSucc ∗ (dat2 V c).owesAt () t.castSucc
        ∗ (∃ d, owns (c : Thread nD τ) (st2_0 t) fullShare ((dat2 V c).before 0 t d))
        ∗ (∃ d, owns (c : Thread nD τ) (st2_1 t) fullShare ((dat2 V c).before 1 t d))
        ∗ (∃ d, owns (c : Thread nD τ) (st2_2 t) fullShare ((dat2 V c).before 2 t d))
        ∗ (∃ d, owns (c : Thread nD τ) (st2_3 t) fullShare ((dat2 V c).before 3 t d)))
      ⊢ wp frame (wpE (defs₀ (F := F)) Variants.none c none) Set.univ (bodyAt2 t) (fun _ =>
          iprop((dat2 V c).Φ t.succ ∗ (dat2 V c).owesAt () t.succ
            ∗ owns (c : Thread nD τ) (st2_0 t) fullShare ((dat2 V c).after 0 t)
            ∗ owns (c : Thread nD τ) (st2_1 t) fullShare ((dat2 V c).after 1 t)
            ∗ owns (c : Thread nD τ) (st2_2 t) fullShare ((dat2 V c).after 2 t)
            ∗ owns (c : Thread nD τ) (st2_3 t) fullShare ((dat2 V c).after 3 t))) := by
  have sameInv : (dat2 V c).Φ t.succ = (dat2 V c).Φ t.castSucc := rfl
  have sameOwed : (dat2 V c).owesAt () t.succ = (dat2 V c).owesAt () t.castSucc := rfl
  simp only [before2_0, before2_1, before2_2]
  rw [sameInv, sameOwed, after2_3]
  unfold bodyAt2
  iintro ⟨Hinv, Howed, ⟨%dx, Hx⟩, ⟨%dl, Hl⟩, ⟨%dp, Hp⟩, ⟨%dq, Ho⟩⟩
  iapply (sound_kernel2 c Set.univ _ _ _ _ _ _ _ _ _ (xblk2 V c t) (lblk2 V c t) (pblk2 V c t) _)
  iframe Hx Hl Hp
  isplitl [Ho]; · iexists _; iexact Ho
  iintro ⟨Hx, Hl, Hp, Ho⟩
  iframe Hinv Howed Ho
  isplitl [Hx]; · iexact Hx
  isplitl [Hl]; · iexact Hl
  iexact Hp

theorem body_obligation2 (c : Dev nD) : BodyObligation (dat2 (F := F) V c) (defs₀ (F := F)) Variants.none () Set.univ := by
  intro t
  rw [bigSep_W2, bigSep_W2]
  exact sound_body2 V c t

end Cert.Kernel.Hand

end
-- ==== Proof.K.Loss3.lean ====
import proofs.«418718_j72808285602381_2_alg».proof.Proof.Gen.Kernel.Launch
import proofs.«418718_j72808285602381_2_alg».proof.Proof.Gen.Kernel.Skeleton
import proofs.«418718_j72808285602381_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
import proofs.«418718_j72808285602381_2_alg».proof.Proof.K.Loss2

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev xblk3 (c : Dev nD) (t : Fin cfg3.N) : Vec F S4096x256 .f32 := iblk3 V c 0 t
abbrev lblk3 (c : Dev nD) (t : Fin cfg3.N) : Vec F S4096x1 .i32 := iblk3 V c 1 t
abbrev pblk3 (c : Dev nD) (t : Fin cfg3.N) : Vec F S512x256 .f32 := iblk3 V c 2 t

def out3_3 (x0 : Vec F S4096x256 .f32) (x1 : Vec F S4096x1 .i32) (x3 : Vec F S512x256 .f32) : Vec F S1x1x128 .f32 :=
  k3_pay1 (k3_pay3 x1) (k3_pay4 x0 x1 x3)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (xblk3 V c t) (lblk3 V c t) (pblk3 V c t)
  Φ _ := Pipeline.ΦA spec3 c
  q _ := fullShare
  owed _ := 0

theorem after3_3 (c : Dev nD) (t : Fin cfg3.N) :
    (dat3 V c).after 3 t = out3_3 (xblk3 V c t) (lblk3 V c t) (pblk3 V c t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl

theorem sound_kernel3 (c : Dev nD) (E : Set ℕ) (i : grid3.Coords)
    (mx : Memref sig .tc .vmem S4096x256 .f32) (wx : mx.IsWhole) (ml : Memref sig .tc .vmem S4096x1 .i32) (wl : ml.IsWhole)
    (mp : Memref sig .tc .vmem S512x256 .f32) (wp' : mp.IsWhole) (mo : Memref sig .tc .vmem S1x1x128 .f32) (wo : mo.IsWhole)
    (x0 : Vec F S4096x256 .f32) (x1 : Vec F S4096x1 .i32) (x3 : Vec F S512x256 .f32) (K : PUnit → sProp 𝕄) :
    iprop(owns (c : Thread nD τ) mx fullShare x0 ∗ owns (c : Thread nD τ) ml fullShare x1 ∗ owns (c : Thread nD τ) mp fullShare x3
        ∗ (∃ d, owns (c : Thread nD τ) mo fullShare d)
        ∗ (iprop(owns (c : Thread nD τ) mx fullShare x0 ∗ owns (c : Thread nD τ) ml fullShare x1 ∗ owns (c : Thread nD τ) mp fullShare x3
            ∗ owns (c : Thread nD τ) mo fullShare (out3_3 x0 x1 x3)) -∗ K ⟨⟩))
      ⊢ wp frame (wpE (defs₀ (F := F)) Variants.none c none) E (cc3__loss_kernel i mx wx ml wl mp wp' mo wo) K := by
  simp only [cc3__loss_kernel_eq_skeleton]; unfold cc3__loss_kernel_skel
  simp only [k3_part1_eq_skeleton]; unfold k3_part1_skel
  unfold owns
  iintro ⟨⟨%fx, %hfx, Hx⟩, ⟨%fl, %hfl, Hl⟩, ⟨%fp, %hfp, Hp⟩, ⟨%dout, %fo, -, Ho⟩, Hk⟩
  subst hfx hfl hfp
  sl_exec
  sl_step
  iapply Hk
  isplitl [Hx]
  · iexists fx; isplitr
    · ipureintro; rfl
    · iexact Hx
  isplitl [Hl]
  · iexists fl; isplitr
    · ipureintro; rfl
    · iexact Hl
  isplitl [Hp]
  · iexists fp; isplitr
    · ipureintro; rfl
    · iexact Hp
  iexists _; isplitr
  swap; · iexact Ho
  ipureintro
  dsimp only
  rw [stored2 _ _ _ zeroTriple2, loaded2 _ _ zeroPair2, loaded2 _ _ zeroPair2, loaded2 _ _ zeroPair2]
  rfl

/-- At a point of the grid the inputs read the windows' blocks there, so the body's triple applies at those blocks. -/
theorem sound_body3 (c : Dev nD) (t : Fin cfg3.N) :
    iprop((dat3 V c).Φ t.castSucc ∗ (dat3 V c).owesAt () t.castSucc
        ∗ (∃ d, owns (c : Thread nD τ) (st3_0 t) fullShare ((dat3 V c).before 0 t d))
        ∗ (∃ d, owns (c : Thread nD τ) (st3_1 t) fullShare ((dat3 V c).before 1 t d))
        ∗ (∃ d, owns (c : Thread nD τ) (st3_2 t) fullShare ((dat3 V c).before 2 t d))
        ∗ (∃ d, owns (c : Thread nD τ) (st3_3 t) fullShare ((dat3 V c).before 3 t d)))
      ⊢ wp frame (wpE (defs₀ (F := F)) Variants.none c none) Set.univ (bodyAt3 t) (fun _ =>
          iprop((dat3 V c).Φ t.succ ∗ (dat3 V c).owesAt () t.succ
            ∗ owns (c : Thread nD τ) (st3_0 t) fullShare ((dat3 V c).after 0 t)
            ∗ owns (c : Thread nD τ) (st3_1 t) fullShare ((dat3 V c).after 1 t)
            ∗ owns (c : Thread nD τ) (st3_2 t) fullShare ((dat3 V c).after 2 t)
            ∗ owns (c : Thread nD τ) (st3_3 t) fullShare ((dat3 V c).after 3 t))) := by
  have sameInv : (dat3 V c).Φ t.succ = (dat3 V c).Φ t.castSucc := rfl
  have sameOwed : (dat3 V c).owesAt () t.succ = (dat3 V c).owesAt () t.castSucc := rfl
  simp only [before3_0, before3_1, before3_2]
  rw [sameInv, sameOwed, after3_3]
  unfold bodyAt3
  iintro ⟨Hinv, Howed, ⟨%dx, Hx⟩, ⟨%dl, Hl⟩, ⟨%dp, Hp⟩, ⟨%dq, Ho⟩⟩
  iapply (sound_kernel3 c Set.univ _ _ _ _ _ _ _ _ _ (xblk3 V c t) (lblk3 V c t) (pblk3 V c t) _)
  iframe Hx Hl Hp
  isplitl [Ho]; · iexists _; iexact Ho
  iintro ⟨Hx, Hl, Hp, Ho⟩
  iframe Hinv Howed Ho
  isplitl [Hx]; · iexact Hx
  isplitl [Hl]; · iexact Hl
  iexact Hp

theorem body_obligation3 (c : Dev nD) : BodyObligation (dat3 (F := F) V c) (defs₀ (F := F)) Variants.none () Set.univ := by
  intro t
  rw [bigSep_W3, bigSep_W3]
  exact sound_body3 V c t

end Cert.Kernel.Hand

end
-- ==== Proof.K.Run.lean ====
import proofs.«418718_j72808285602381_2_alg».proof.Proof.K.Upd0
import proofs.«418718_j72808285602381_2_alg».proof.Proof.K.Upd1
import proofs.«418718_j72808285602381_2_alg».proof.Proof.K.Loss2
import proofs.«418718_j72808285602381_2_alg».proof.Proof.K.Loss3
import proofs.«418718_j72808285602381_2_alg».proof.Proof.Gen.Kernel.Regions

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev X1 : (c : Dev nD) → (b : Ref sig .tc) → Buf (Elt F) ((c : Thread nD τ).loc b) := fun c b => V1 m c b

def o2 : Outs (F := F) := fun _ r c =>
  Pipeline.withArrays spec0 c (V1 m c) (fun w => (dat0 (X1 m) c).arrAt w cfg0.N) (Proc.devRef .tc r)
def o6 : Outs (F := F) := fun J r c =>
  match J with
  | 2 => o2 m 2 r c
  | _ => Pipeline.withArrays spec1 c (V5 m (o2 m) c) (fun w => (dat1 (fun c b => V5 m (o2 m) c b) c).arrAt w cfg1.N) (Proc.devRef .tc r)
def o10 : Outs (F := F) := fun J r c =>
  match J with
  | 2 => o2 m 2 r c
  | 6 => o6 m 6 r c
  | _ => Pipeline.withArrays spec2 c (V9 m (o6 m) c) (fun w => (dat2 (fun c b => V9 m (o6 m) c b) c).arrAt w cfg2.N) (Proc.devRef .tc r)
/-- What each launch leaves in its arrays; a launch is entered from contents that read earlier launches only, so the stages nest. -/
def outs : Outs (F := F) := fun J r c =>
  match J with
  | 2 => o2 m 2 r c
  | 6 => o6 m 6 r c
  | 10 => o10 m 10 r c
  | _ => Pipeline.withArrays spec3 c (V11 m (o10 m) c) (fun w => (dat3 (fun c b => V11 m (o10 m) c b) c).arrAt w cfg3.N) (Proc.devRef .tc r)

abbrev X5 : (c : Dev nD) → (b : Ref sig .tc) → Buf (Elt F) ((c : Thread nD τ).loc b) := fun c b => V5 m (outs m) c b
abbrev X9 : (c : Dev nD) → (b : Ref sig .tc) → Buf (Elt F) ((c : Thread nD τ).loc b) := fun c b => V9 m (outs m) c b
abbrev X11 : (c : Dev nD) → (b : Ref sig .tc) → Buf (Elt F) ((c : Thread nD τ).loc b) := fun c b => V11 m (outs m) c b

theorem outs_v1_0 (c : Dev nD) : outs m 2 main_v1_0 c = (dat0 (X1 m) c).arrAt 2 cfg0.N :=
  Pipeline.withArrays_arr spec0 launch0.win.arr_inj c (V1 m c) (fun w => (dat0 (X1 m) c).arrAt w cfg0.N) 2
theorem outs_v1_1 (c : Dev nD) : outs m 2 main_v1_1 c = (dat0 (X1 m) c).arrAt 3 cfg0.N :=
  Pipeline.withArrays_arr spec0 launch0.win.arr_inj c (V1 m c) (fun w => (dat0 (X1 m) c).arrAt w cfg0.N) 3
theorem outs_v37_0 (c : Dev nD) : outs m 6 main_v37_0 c = (dat1 (X5 m) c).arrAt 2 cfg1.N :=
  Pipeline.withArrays_arr spec1 launch1.win.arr_inj c (V5 m (outs m) c) (fun w => (dat1 (X5 m) c).arrAt w cfg1.N) 2
theorem outs_v37_1 (c : Dev nD) : outs m 6 main_v37_1 c = (dat1 (X5 m) c).arrAt 3 cfg1.N :=
  Pipeline.withArrays_arr spec1 launch1.win.arr_inj c (V5 m (outs m) c) (fun w => (dat1 (X5 m) c).arrAt w cfg1.N) 3
theorem outs_v73 (c : Dev nD) : outs m 10 main_v73 c = (dat2 (X9 m) c).arrAt 3 cfg2.N :=
  Pipeline.withArrays_arr spec2 launch2.win.arr_inj c (V9 m (outs m) c) (fun w => (dat2 (X9 m) c).arrAt w cfg2.N) 3
theorem outs_v84 (c : Dev nD) : outs m 12 main_v84 c = (dat3 (X11 m) c).arrAt 3 cfg3.N :=
  Pipeline.withArrays_arr spec3 launch3.win.arr_inj c (V11 m (outs m) c) (fun w => (dat3 (X11 m) c).arrAt w cfg3.N) 3

def pdats : (p : Fin 4) → (c : Dev nD) → Dat τ (Elt F) Unit ℕ (UR sig nD τ) ℕ (cfgs p) c
  | ⟨0, _⟩ => fun c => dat0 (X1 m) c
  | ⟨1, _⟩ => fun c => dat1 (X5 m) c
  | ⟨2, _⟩ => fun c => dat2 (X9 m) c
  | ⟨3, _⟩ => fun c => dat3 (X11 m) c

abbrev L0 : GSem nD τ sig → Finset Unit := fun _ => ∅
abbrev lv0 : GSem nD τ sig → Unit → ℕ := fun _ _ => 0
abbrev R (c : Dev nD) : sProp 𝕄 := iprop((∃ r, prngReg c r) ∗ ∃ W, owes (c : Thread nD τ) (0 : CellTallies nD τ sig Unit) W)

/-- A launch as a segment of the program: entered at contents `Vi`, left at `Vo`, which holds the arrays of the windows `l` at what the launch leaves and agrees with `Vi` elsewhere. -/
def regOf (pd : (p : Fin 4) → (c : Dev nD) → Dat τ (Elt F) Unit ℕ (UR sig nD τ) ℕ (cfgs p) c) (p : Fin 4)
    (lf : Pipeline.LaunchFacts (nD := nD) (τ := τ) cfgs p) (Vi Vo : Dev nD → Valuation τ sig (Elt F)) (l : List (Fin (cfgs p).W))
    (hbody : ∀ c, BodyObligation (pd p c) (defs₀ (F := F)) Variants.none () Set.univ)
    (hd : ∀ c, (∀ w, (pd p c).q w = fullShare) ∧ (∀ t, (pd p c).owed t = 0) ∧ (pd p c).recorded 0 = Set.univ
      ∧ ∀ w, (pd p c).A w = Vi c (Pipeline.arrRef (cfgs p).spec w))
    (hin : ∀ c, Pipeline.ΦA (cfgs p).spec c ⊢ (pd p c).Φ 0) (hout : ∀ c, (pd p c).Φ (Fin.last _) ⊢ Pipeline.ΦA (cfgs p).spec c)
    (hI : ∀ w, w ∉ l → ((cfgs p).win w).isOut = false)
    (hW : ∀ c (b : Ref sig .tc), b ∉ l.map (Pipeline.arrRef (cfgs p).spec) → Vo c b = Vi c b)
    (hO : ∀ c, ∀ w ∈ l, Vo c (Pipeline.arrRef (cfgs p).spec w) = (pd p c).arrAt w (cfgs p).N) :
    RegionSeg (pcfgs (F := F)) adm pd () defs₀ Variants.none L0 lv0 p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L0 lv0 p fun c => (hd c).2.1
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Vi c b
  hentry c := by
    rw [Pipeline.ownSems0_none]
    have hsplit := Pipeline.arrays_of_unscopedBufs (p := p) (pcfgs (F := F)) adm pd lf.win lf.arr_whole c
      ((pd p c).share_full (hd c).1) (fun b => Vi c b) (hd c).2.2.2
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin; rw [(hd c).2.1 0]
    icases HO with ⟨%W, HO⟩; iexists W; isplitr; · ipureintro; exact fun x _ => Or.inl ((hd c).2.2.1 ▸ Set.mem_univ x)
    iexact HO
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pd ((pd p c).share_full (hd c).1) (fun b => Vi c b) (fun b => Vo c b) ((pd p c).arrAt · (cfgs p).N)
      (fun w => if h : w ∈ l then (hO c w h).symm else ((pd p c).arrAt_in w (hI w h) _).trans (((hd c).2.2.2 w).trans
        (hW c _ fun h' => h ((List.mem_map_of_injective lf.win.arr_inj).mp h')).symm))
      fun b hb => hW c b fun h => hb (Finset.mem_image.mpr ((List.mem_map.mp h).imp fun _ hw => ⟨Finset.mem_univ _, hw.2⟩))
    rw [Pipeline.unscopedBufs_held] at hjoin
    iintro ⟨Ha, HO, HY, Hrest⟩
    imodintro
    isplitl [Ha Hrest]
    · iapply hjoin; iframe
    isplitl [HY]; · iexact HY
    unfold Pipeline.Dat.owesAt Pipeline.owesWithin; rw [(hd c).2.1 (Fin.last _)]
    icases HO with ⟨%W, -, HO⟩; iexists W; iexact HO

def reg0 : RegionSeg (pcfgs (F := F)) adm (pdats m) () defs₀ Variants.none L0 lv0 0 :=
  regOf (pdats m) 0 launch0 (V1 m) (V2 m (outs m)) [2, 3] (body_obligation0 (X1 m)) (fun _ => ⟨fun _ => rfl, fun _ => rfl, rfl, fun _ => rfl⟩)
    (hin0 (X1 m)) (hout0 (X1 m)) (by decide) (V2_of m (outs m)) fun c => List.forall_mem_cons.2
      ⟨((Function.update_of_ne (StableHlo.devRef_ne_of_ne (by decide)) _ _).trans (Function.update_self _ _ _)).trans (outs_v1_0 m c),
        List.forall_mem_singleton.2 ((Function.update_self _ _ _).trans (outs_v1_1 m c))⟩
def reg1 : RegionSeg (pcfgs (F := F)) adm (pdats m) () defs₀ Variants.none L0 lv0 1 :=
  regOf (pdats m) 1 launch1 (V5 m (outs m)) (V6 m (outs m)) [2, 3] (body_obligation1 (X5 m)) (fun _ => ⟨fun _ => rfl, fun _ => rfl, rfl, fun _ => rfl⟩)
    (hin1 (X5 m)) (hout1 (X5 m)) (by decide) (V6_of m (outs m)) fun c => List.forall_mem_cons.2
      ⟨((Function.update_of_ne (StableHlo.devRef_ne_of_ne (by decide)) _ _).trans (Function.update_self _ _ _)).trans (outs_v37_0 m c),
        List.forall_mem_singleton.2 ((Function.update_self _ _ _).trans (outs_v37_1 m c))⟩
def reg2 : RegionSeg (pcfgs (F := F)) adm (pdats m) () defs₀ Variants.none L0 lv0 2 :=
  regOf (pdats m) 2 launch2 (V9 m (outs m)) (V10 m (outs m)) [3] (body_obligation2 (X9 m)) (fun _ => ⟨fun _ => rfl, fun _ => rfl, rfl, fun _ => rfl⟩)
    (fun _ => .rfl) (fun _ => .rfl) (by decide) (V10_of m (outs m)) fun c => List.forall_mem_singleton.2
      ((Function.update_self _ _ _).trans (outs_v73 m c))
def reg3 : RegionSeg (pcfgs (F := F)) adm (pdats m) () defs₀ Variants.none L0 lv0 3 :=
  regOf (pdats m) 3 launch3 (V11 m (outs m)) (V12 m (outs m)) [3] (body_obligation3 (X11 m)) (fun _ => ⟨fun _ => rfl, fun _ => rfl, rfl, fun _ => rfl⟩)
    (fun _ => .rfl) (fun _ => .rfl) (by decide) (V12_of m (outs m)) fun c => List.forall_mem_singleton.2
      ((Function.update_self _ _ _).trans (outs_v84 m c))

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The program as its thirteen segments, chained from the launch memory: every final memory holds each unscoped buffer at the last contents, read here at the two results and the arguments. -/
theorem run_vals (ρ : Dev nD → PrngReg) :
    θ_run defs (onTc (τ := τ) (main (F := F))) ⟨m, fun _ => 0, ρ⟩ (fun r => ∀ c : Dev nD,
      r.2.mem ((c.tc : Thread nD τ).loc main_v82) = V13 m (outs m) c main_v82
      ∧ r.2.mem ((c.tc : Thread nD τ).loc main_v93) = V13 m (outs m) c main_v93
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm (pdats m) () cellOf_inj emb₁ defs₀ Variants.none L0 lv0 m ρ main
    (segs m (outs m) Variants.none L0 lv0 (fun _ => R (F := F)) () (pdats m) (reg0 m) (reg1 m) (reg2 m) (reg3 m))
    (fun c Q => by rw [main_chain c, Seg.run_eq_chain]; exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V13 m (outs m) c))
    (hch := fun c => ⟨.rfl, .rfl, .rfl, .rfl, .rfl, .rfl, .rfl, .rfl, .rfl, .rfl, .rfl, .rfl, .rfl, sep_mono .rfl (by iintro ⟨-, HO⟩; iexact HO)⟩)
    (hinit := by
      refine Pipeline.initEach L0 lv0 fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      iframe Hh
      isplitl [Hp]; · iexists _; iexact Hp
      iexists ∅; iexact HO)
    (QY := fun c s => ∀ b ∈ Pipeline.ucRefs τ sig, s.mem (((c : Thread nD τ)).1, b) = V13 m (outs m) c b)
    (hfin := fun c s' => by
      iintro ⟨Hh, HSI⟩
      unfold StableHlo.held
      imodintro
      iapply (pointsTo_read_all (Pipeline.ucRefs τ sig) (fun b => (((c : Thread nD τ)).1, b)) (V13 m (outs m) c) s')
      isplitl [Hh] <;> iassumption)
    (hQ := fun s h c =>
      have rd := fun (b : Ref sig .tc) hb => h c (Proc.devRef .tc b) (mem_uc b hb)
      ⟨rd main_v82 (by decide), rd main_v93 (by decide), (rd main_arg0 (by decide)).trans (V13_main_arg0 m (outs m) c),
        (rd main_arg1 (by decide)).trans (V13_main_arg1 m (outs m) c), (rd main_arg2 (by decide)).trans (V13_main_arg2 m (outs m) c),
        (rd main_arg3 (by decide)).trans (V13_main_arg3 m (outs m) c), (rd main_arg4 (by decide)).trans (V13_main_arg4 m (outs m) c),
        (rd main_arg5 (by decide)).trans (V13_main_arg5 m (outs m) c)⟩)

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  OrdCont.mono (θ_run defs (onTc (τ := τ) (main (F := F))) ⟨m, fun _ => 0, ρ⟩) (fun _ h c => (h c).2.2) (run_vals m ρ)

end Cert.Kernel.Hand

end
-- ==== Proof.KI.Upd0.lean ====
import proofs.«418718_j72808285602381_2_alg».proof.Proof.Gen.KernelIdeal.Launch
import proofs.«418718_j72808285602381_2_alg».proof.Proof.Gen.KernelIdeal.Skeleton
import proofs.«418718_j72808285602381_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev xblk0 (c : Dev nD) (t : Fin cfg0.N) : Vec F S8192x256 .f32 := iblk0 V c 0 t
abbrev lblk0 (c : Dev nD) (t : Fin cfg0.N) : Vec F S8192x1 .i32 := iblk0 V c 1 t

def acc0 (c : Dev nD) : (n : ℕ) → n < cfg0.N → Vec F S128x256 .f32 × Vec F S128x128 .f32
  | 0, h => (k0_pay6 (xblk0 V c ⟨0, h⟩) (lblk0 V c ⟨0, h⟩) k0_pay3, k0_pay7 (lblk0 V c ⟨0, h⟩) k0_pay4)
  | n + 1, h =>
    if (n + 1) % 4 = 0 then
      (k0_pay6 (xblk0 V c ⟨n + 1, h⟩) (lblk0 V c ⟨n + 1, h⟩) k0_pay3, k0_pay7 (lblk0 V c ⟨n + 1, h⟩) k0_pay4)
    else
      (k0_pay6 (xblk0 V c ⟨n + 1, h⟩) (lblk0 V c ⟨n + 1, h⟩) (acc0 c n (Nat.lt_of_succ_lt h)).1,
       k0_pay7 (lblk0 V c ⟨n + 1, h⟩) (acc0 c n (Nat.lt_of_succ_lt h)).2)

def PhiS0 (c : Dev nD) : (n : ℕ) → n ≤ cfg0.N → sProp 𝕄
  | 0, _ => Pipeline.ΦA spec0 c
  | n + 1, hn => iprop(owns (c : Thread nD τ) (Memref.whole cc0_scratch0) fullShare (acc0 V c n hn).1
      ∗ owns (c : Thread nD τ) (Memref.whole cc0_scratch1) fullShare (acc0 V c n hn).2
      ∗ Pipeline.scopedRestBut (Ix := Unit) (Name := ℕ) (U := UR sig nD τ) (Lvl := ℕ) (Val := Elt F) spec0 c [cc0_scratch0, cc0_scratch1]
      ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (acc0 V c t.val t.isLt).1
    | ⟨3, _⟩ => k0_pay2 (acc0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := rfl
theorem after0_0 (c : Dev nD) (t : Fin cfg0.N) : (dat0 V c).after 0 t = iblk0 V c 0 t := rfl
theorem after0_1 (c : Dev nD) (t : Fin cfg0.N) : (dat0 V c).after 1 t = iblk0 V c 1 t := rfl
theorem after0_2 (c : Dev nD) (t : Fin cfg0.N) : (dat0 V c).after 2 t = k0_pay1 (acc0 V c t.val t.isLt).1 := rfl
theorem after0_3 (c : Dev nD) (t : Fin cfg0.N) : (dat0 V c).after 3 t = k0_pay2 (acc0 V c t.val t.isLt).2 := rfl

abbrev firstC0 (i : grid0.Coords) : Prop :=
  (Scalar.cmpi .ne (Scalar.extui (Scalar.cmpi .eq (BitVec.ofNat 32 (i 1).val) 0#32)) 0#32) = 1#1
theorem hfirst0 : ∀ t : Fin cfg0.N, firstC0 (grid0.coords t) ↔ t.val % 4 = 0 :=
  (by decide +kernel : ∀ t : Fin grid0.N, firstC0 (grid0.coords t) ↔ t.val % 4 = 0)

abbrev lastC0 (i : grid0.Coords) : Prop := k0_cond2 i = 1#1
theorem hlast0 : ∀ t : Fin cfg0.N, lastC0 (grid0.coords t) ↔ t.val % 4 = 3 :=
  (by decide +kernel : ∀ t : Fin grid0.N, lastC0 (grid0.coords t) ↔ t.val % 4 = 3)

/-- A box as large as its shape can only start at the origin. -/
theorem offZero {n : ℕ} {off size : Fin n → ℕ} (inb : ∀ a, off a + size a ≤ size a) : off = fun _ => 0 :=
  funext fun a => by have := inb a; omega

section
variable {r : ℕ} {size : Fin r → ℕ} {e : EltTy} {off : Fin r → ℕ} (inb : ∀ a, off a + size a ≤ size a)
  (v : View sig .tc .vmem ⟨r, size⟩ e) (w : Shape.Idx ⟨r, size⟩ → Elt F e)

/-- The last store through such a box decides what the buffer reads as, whatever was stored before. -/
theorem readStoredWhole (f : v.ty.Contents (Elt F)) (L : List (View.Piece (Elt F) ⟨r, size⟩ e)) :
    v.read (Elt F) (v.writes (Elt F) f ((⟨Rect.unit off size inb, w⟩ : View.Piece (Elt F) ⟨r, size⟩ e) :: L)) = w :=
  (View.read_writes_eq_canon v f _ (fun y => ⟨_, List.mem_cons_self, View.mem_set_unit_zero (offZero inb) inb y⟩)).trans
    (View.canon_cons_unit_zero (offZero inb) inb w L)

theorem readCovWhole :
    v.readCov [(⟨Rect.unit off size inb, w⟩ : View.Piece (Elt F) ⟨r, size⟩ e)] (Rect.unit off size inb).toLoadRect = w :=
  View.readCov_unit_zero v (offZero inb) inb w

theorem ldWhole : View.ld w (Rect.unit off size inb) = w :=
  View.ld_unit_zero (offZero inb) inb w

end

/-- One run of the body: under `P` the running arrays restart from zero, under `Q` both are copied out. -/
theorem kernel0 (c : Dev nD) (E : Set ℕ) (i : grid0.Coords)
    (arg2 : Memref sig .tc .vmem S8192x256 .f32) (harg2 : arg2.IsWhole)
    (arg3 : Memref sig .tc .vmem S8192x1 .i32) (harg3 : arg3.IsWhole)
    (arg4 : Memref sig .tc .vmem S1x128x256 .f32) (harg4 : arg4.IsWhole)
    (arg5 : Memref sig .tc .vmem S1x128x128 .f32) (harg5 : arg5.IsWhole)
    (arg6 : Memref sig .tc .vmem S128x256 .f32) (harg6 : arg6.IsWhole)
    (arg7 : Memref sig .tc .vmem S128x128 .f32) (harg7 : arg7.IsWhole)
    (P Q : Prop) [Decidable P] [Decidable Q] (hP : firstC0 i ↔ P) (hQ : lastC0 i ↔ Q) (hPQ : ¬ (P ∧ Q))
    (x : Vec F S8192x256 .f32) (l : Vec F S8192x1 .i32) (o2 : Vec F S1x128x256 .f32) (o3 : Vec F S1x128x128 .f32)
    (s6 : Vec F S128x256 .f32) (s7 : Vec F S128x128 .f32) (K : PUnit → sProp 𝕄) :
    iprop(owns c arg2 fullShare x ∗ owns c arg3 fullShare l
        ∗ owns c arg4 fullShare o2 ∗ owns c arg5 fullShare o3
        ∗ owns c arg6 fullShare s6 ∗ owns c arg7 fullShare s7
        ∗ (iprop(owns c arg2 fullShare x ∗ owns c arg3 fullShare l
            ∗ owns c arg4 fullShare (if Q then k0_pay1 (k0_pay6 x l (if P then k0_pay3 else s6)) else o2)
            ∗ owns c arg5 fullShare (if Q then k0_pay2 (k0_pay7 l (if P then k0_pay4 else s7)) else o3)
            ∗ owns c arg6 fullShare (k0_pay6 x l (if P then k0_pay3 else s6))
            ∗ owns c arg7 fullShare (k0_pay7 l (if P then k0_pay4 else s7))) -∗ K ⟨⟩))
      ⊢ wp frame (wpE (defs₀ (F := F)) Variants.none c none) E
          (cc0__update_kernel i arg2 harg2 arg3 harg3 arg4 harg4 arg5 harg5 arg6 harg6 arg7 harg7) K := by
  by_cases hp : P <;> by_cases hq : Q
  · exact absurd ⟨hp, hq⟩ hPQ
  all_goals (
    simp only [hp, hq, iff_true, iff_false, ↓reduceIte] at hP hQ ⊢
    simp only [cc0__update_kernel_eq_skeleton]; unfold cc0__update_kernel_skel owns
    iintro ⟨⟨%fx, %hfx, Hx⟩, ⟨%fl, %hfl, Hl⟩, ⟨%fo2, %hfo2, Ho2⟩, ⟨%fo3, %hfo3, Ho3⟩, ⟨%fs6, %hfs6, Hs6⟩, ⟨%fs7, %hfs7, Hs7⟩, Hk⟩
    sl_exec (disch := first | exact hP | exact hQ)
    sl_step
    iapply Hk
    isplitl [Hx]; iexists _; isplitr; swap; iexact Hx; rotate_left
    isplitl [Hl]; iexists _; isplitr; swap; iexact Hl; rotate_left
    isplitl [Ho2]; iexists _; isplitr; swap; iexact Ho2; rotate_left
    isplitl [Ho3]; iexists _; isplitr; swap; iexact Ho3; rotate_left
    isplitl [Hs6]; iexists _; isplitr; swap; iexact Hs6; rotate_left
    iexists _; isplitr; swap; iexact Hs7
    all_goals
      ipureintro; sl_unfold_run_names
      simp only [readStoredWhole, readCovWhole, View.readAt_eq_ld, ldWhole, hfx, hfl, hfo2, hfo3, hfs6, hfs7])

/-- How the running arrays move at point `t`, given what the point before left (nothing is asked of it at point 0). -/
theorem accStep0 (c : Dev nD) (t : Fin cfg0.N) (d6 : Vec F S128x256 .f32) (d7 : Vec F S128x128 .f32)
    (hd : t.val ≠ 0 → (acc0 V c (t.val - 1) (Nat.lt_of_le_of_lt (Nat.sub_le _ _) t.isLt)).1 = d6 ∧ (acc0 V c (t.val - 1) (Nat.lt_of_le_of_lt (Nat.sub_le _ _) t.isLt)).2 = d7) :
    acc0 V c t.val t.isLt = (k0_pay6 (xblk0 V c t) (lblk0 V c t) (if t.val % 4 = 0 then k0_pay3 else d6),
      k0_pay7 (lblk0 V c t) (if t.val % 4 = 0 then k0_pay4 else d7)) := by
  obtain ⟨n, hn⟩ := t
  cases n with
  | zero => rfl
  | succ n =>
    obtain ⟨rfl, rfl⟩ := hd (Nat.succ_ne_zero n)
    by_cases h : (n + 1) % 4 = 0
    · rw [if_pos h, if_pos h]; exact if_pos h
    · rw [if_neg h, if_neg h]; exact if_neg h

theorem PhiAeq0 (c : Dev nD) :
    (Pipeline.ΦA spec0 c : sProp 𝕄)
      = iprop(iprop(iprop(iprop((∃ d, owns c (Memref.whole cc0_scratch0) fullShare d) ∗ (∃ d, owns c (Memref.whole cc0_scratch1) fullShare d))
          ∗ Pipeline.scopedRestBut (Ix := Unit) (Name := ℕ) (U := UR sig nD τ) (Lvl := ℕ) (Val := Elt F) spec0 c [cc0_scratch0, cc0_scratch1]))
        ∗ (∃ r, prngReg c r)) := by
  unfold Pipeline.ΦA; rw [scopedRest0_split]; simp only [owns_whole]; try rfl

/-- The invariant holds the running arrays at some contents: after the first point, what the point before left. -/
theorem PhiSopen0 (c : Dev nD) (n : ℕ) (h : n ≤ cfg0.N) :
    PhiS0 V c n h ⊢ iprop(∃ d6 d7, ⌜∀ hn : n ≠ 0, (acc0 V c (n - 1) (by omega)).1 = d6 ∧ (acc0 V c (n - 1) (by omega)).2 = d7⌝
      ∗ owns c (Memref.whole cc0_scratch0) fullShare d6
      ∗ owns c (Memref.whole cc0_scratch1) fullShare d7
      ∗ Pipeline.scopedRestBut (Ix := Unit) (Name := ℕ) (U := UR sig nD τ) (Lvl := ℕ) (Val := Elt F) spec0 c [cc0_scratch0, cc0_scratch1]
      ∗ (∃ r, prngReg c r)) := by
  cases n with
  | zero =>
    rw [PhiS0, PhiAeq0]
    iintro ⟨⟨⟨⟨%d6, Hs6⟩, ⟨%d7, Hs7⟩⟩, Hrest⟩, Hg⟩
    iexists d6, d7
    isplitr; · ipureintro; exact fun hn => absurd rfl hn
    iframe
  | succ n =>
    rw [PhiS0]
    iintro ⟨Hs6, Hs7, Hrest, Hg⟩
    iexists (acc0 V c n h).1, (acc0 V c n h).2
    isplitr; · ipureintro; exact fun _ => ⟨rfl, rfl⟩
    iframe

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

theorem idleAt0_2 : ∀ t : Fin cfg0.N, ¬ t.val % 4 = 3 → cfg0.idle 2 (grid0.coords t) = true := by decide +kernel
theorem idleAt0_3 : ∀ t : Fin cfg0.N, ¬ t.val % 4 = 3 → cfg0.idle 3 (grid0.coords t) = true := by decide +kernel
theorem liveAt0_2 : ∀ t : Fin cfg0.N, t.val % 4 = 3 → cfg0.idle 2 (grid0.coords t) = false := by decide +kernel
theorem liveAt0_3 : ∀ t : Fin cfg0.N, t.val % 4 = 3 → cfg0.idle 3 (grid0.coords t) = false := by decide +kernel

theorem leaves0 (c : Dev nD) (w : Fin cfg0.W) (t : Fin cfg0.N) (h : cfg0.idle w (grid0.coords t) = false) :
    (dat0 V c).leavesExact w t = owns c ((cfg0.win w).stage (cfg0.slots t w)) fullShare ((dat0 V c).after w t) := by
  unfold Dat.leavesExact; rw [h]

/-- The invariant lends the running arrays, the run moves them by the tile, and the invariant takes them back. -/
theorem sound_body0 (c : Dev nD) (t : Fin cfg0.N) :
    iprop((dat0 V c).Φ t.castSucc ∗ (dat0 V c).owesAt () t.castSucc
      ∗ (∃ d, owns c (st0_0 t) fullShare ((dat0 V c).before 0 t d))
      ∗ (∃ d, owns c (st0_1 t) fullShare ((dat0 V c).before 1 t d))
      ∗ (∃ d, owns c (st0_2 t) fullShare ((dat0 V c).before 2 t d))
      ∗ (∃ d, owns c (st0_3 t) fullShare ((dat0 V c).before 3 t d)))
    ⊢ wp frame (wpE (defs₀ (F := F)) Variants.none c none) Set.univ (bodyAt0 t)
        (fun _ => iprop((dat0 V c).Φ t.succ ∗ (dat0 V c).owesAt () t.succ
          ∗ (dat0 V c).leavesExact 0 t ∗ (dat0 V c).leavesExact 1 t
          ∗ (dat0 V c).leavesExact 2 t ∗ (dat0 V c).leavesExact 3 t)) := by
  unfold bodyAt0
  simp only [before0_0, before0_1]
  rw [show (dat0 V c).owesAt () t.succ = (dat0 V c).owesAt () t.castSucc from rfl,
    show (dat0 V c).Φ t.succ = PhiS0 V c (t.val + 1) t.isLt from rfl, PhiS0,
    show (dat0 V c).Φ t.castSucc = PhiS0 V c t.val (Nat.le_of_lt t.isLt) from rfl,
    leaves0 V c 0 t rfl, leaves0 V c 1 t rfl, after0_0, after0_1]
  iintro ⟨Hinv, Ho, ⟨%ex, Hx⟩, ⟨%el, Hl⟩, ⟨%eo2, Ho2⟩, ⟨%eo3, Ho3⟩⟩
  icases (PhiSopen0 V c _ _) $$ Hinv with ⟨%d6, %d7, %hd, Hs6, Hs7, Hrest, Hg⟩
  rw [accStep0 V c t d6 d7 hd]
  iapply (kernel0 c Set.univ (grid0.coords t) _ _ _ _ _ _ _ _ _ _ _ _ (t.val % 4 = 0) (t.val % 4 = 3) (hfirst0 t) (hlast0 t) (by omega)
    (xblk0 V c t) (lblk0 V c t) ((dat0 V c).before 2 t eo2) ((dat0 V c).before 3 t eo3) d6 d7 _)
  iframe Hx Hl Ho2 Ho3 Hs6 Hs7
  iintro ⟨Hx, Hl, Ho2, Ho3, Hs6, Hs7⟩
  iframe Hs6 Hs7 Hrest Hg Ho Hx Hl
  by_cases hlast : t.val % 4 = 3
  · rw [leaves0 V c 2 t (liveAt0_2 t hlast), leaves0 V c 3 t (liveAt0_3 t hlast), after0_2, after0_3,
      accStep0 V c t d6 d7 hd, if_pos hlast, if_pos hlast]
    isplitl [Ho2]; · iexact Ho2
    iexact Ho3
  · rw [Dat.leavesExact_idle (dat0 V c) 2 t (idleAt0_2 t hlast) (eq_false_of_ne_true (mt (flush0_2 t).mp hlast)),
      Dat.leavesExact_idle (dat0 V c) 3 t (idleAt0_3 t hlast) (eq_false_of_ne_true (mt (flush0_3 t).mp hlast)),
      if_neg hlast, if_neg hlast]
    isplitl [Ho2]; · iexists _; iexact Ho2
    iexists _; iexact Ho3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 :=
  Entails.of_eq rfl

/-- After the last point the invariant gives back what the launch handed over, the running arrays' contents forgotten. -/
theorem hout0 (c : Dev nD) : (dat0 V c).Φ (Fin.last cfg0.N) ⊢ Pipeline.ΦA spec0 c := by
  rw [PhiAeq0, show (dat0 V c).Φ (Fin.last cfg0.N) = PhiS0 V c cfg0.N (Nat.le_refl _) from rfl]
  refine (PhiSopen0 V c _ _).trans ?_
  iintro ⟨%d6, %d7, -, Hs6, Hs7, Hrest, Hg⟩
  iframe Hrest Hg
  isplitl [Hs6]; · iexists _; iexact Hs6
  iexists _; iexact Hs7

end Cert.KernelIdeal.Hand

end
-- ==== Proof.KI.Upd1.lean ====
import proofs.«418718_j72808285602381_2_alg».proof.Proof.Gen.KernelIdeal.Launch
import proofs.«418718_j72808285602381_2_alg».proof.Proof.Gen.KernelIdeal.Skeleton
import proofs.«418718_j72808285602381_2_alg».proof.Proof.Gen.KernelIdeal.Points
import proofs.«418718_j72808285602381_2_alg».proof.Proof.KI.Upd0
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev xblk1 (c : Dev nD) (t : Fin cfg1.N) : Vec F S4096x256 .f32 := iblk1 V c 0 t
abbrev lblk1 (c : Dev nD) (t : Fin cfg1.N) : Vec F S4096x1 .i32 := iblk1 V c 1 t

def acc1 (c : Dev nD) : (n : ℕ) → n < cfg1.N → Vec F S512x256 .f32 × Vec F S512x128 .f32
  | 0, h => (k1_pay6 (xblk1 V c ⟨0, h⟩) (lblk1 V c ⟨0, h⟩) k1_pay3, k1_pay7 (lblk1 V c ⟨0, h⟩) k1_pay4)
  | n + 1, h =>
    if (n + 1) % 16 = 0 then
      (k1_pay6 (xblk1 V c ⟨n + 1, h⟩) (lblk1 V c ⟨n + 1, h⟩) k1_pay3, k1_pay7 (lblk1 V c ⟨n + 1, h⟩) k1_pay4)
    else
      (k1_pay6 (xblk1 V c ⟨n + 1, h⟩) (lblk1 V c ⟨n + 1, h⟩) (acc1 c n (Nat.lt_of_succ_lt h)).1,
       k1_pay7 (lblk1 V c ⟨n + 1, h⟩) (acc1 c n (Nat.lt_of_succ_lt h)).2)

def PhiS1 (c : Dev nD) : (n : ℕ) → n ≤ cfg1.N → sProp 𝕄
  | 0, _ => Pipeline.ΦA spec1 c
  | n + 1, hn => iprop(owns (c : Thread nD τ) (Memref.whole cc1_scratch0) fullShare (acc1 V c n hn).1
      ∗ owns (c : Thread nD τ) (Memref.whole cc1_scratch1) fullShare (acc1 V c n hn).2
      ∗ Pipeline.scopedRestBut (Ix := Unit) (Name := ℕ) (U := UR sig nD τ) (Lvl := ℕ) (Val := Elt F) spec1 c [cc1_scratch0, cc1_scratch1]
      ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (acc1 V c t.val t.isLt).1
    | ⟨3, _⟩ => k1_pay2 (acc1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := rfl
theorem after1_0 (c : Dev nD) (t : Fin cfg1.N) : (dat1 V c).after 0 t = iblk1 V c 0 t := rfl
theorem after1_1 (c : Dev nD) (t : Fin cfg1.N) : (dat1 V c).after 1 t = iblk1 V c 1 t := rfl
theorem after1_2 (c : Dev nD) (t : Fin cfg1.N) : (dat1 V c).after 2 t = k1_pay1 (acc1 V c t.val t.isLt).1 := rfl
theorem after1_3 (c : Dev nD) (t : Fin cfg1.N) : (dat1 V c).after 3 t = k1_pay2 (acc1 V c t.val t.isLt).2 := rfl

abbrev firstC1 (i : grid1.Coords) : Prop :=
  (Scalar.cmpi .ne (Scalar.extui (Scalar.cmpi .eq (BitVec.ofNat 32 (i 1).val) 0#32)) 0#32) = 1#1
theorem hfirst1 : ∀ t : Fin cfg1.N, firstC1 (grid1.coords t) ↔ t.val % 16 = 0 :=
  (by decide +kernel : ∀ t : Fin grid1.N, firstC1 (grid1.coords t) ↔ t.val % 16 = 0)

abbrev lastC1 (i : grid1.Coords) : Prop := k1_cond2 i = 1#1
theorem hlast1 : ∀ t : Fin cfg1.N, lastC1 (grid1.coords t) ↔ t.val % 16 = 15 :=
  (by decide +kernel : ∀ t : Fin grid1.N, lastC1 (grid1.coords t) ↔ t.val % 16 = 15)

/-- One run of the body: under `P` the running arrays restart from zero, under `Q` both are copied out. -/
theorem kernel1 (c : Dev nD) (E : Set ℕ) (i : grid1.Coords)
    (arg2 : Memref sig .tc .vmem S4096x256 .f32) (harg2 : arg2.IsWhole)
    (arg3 : Memref sig .tc .vmem S4096x1 .i32) (harg3 : arg3.IsWhole)
    (arg4 : Memref sig .tc .vmem S1x512x256 .f32) (harg4 : arg4.IsWhole)
    (arg5 : Memref sig .tc .vmem S1x512x128 .f32) (harg5 : arg5.IsWhole)
    (arg6 : Memref sig .tc .vmem S512x256 .f32) (harg6 : arg6.IsWhole)
    (arg7 : Memref sig .tc .vmem S512x128 .f32) (harg7 : arg7.IsWhole)
    (P Q : Prop) [Decidable P] [Decidable Q] (hP : firstC1 i ↔ P) (hQ : lastC1 i ↔ Q) (hPQ : ¬ (P ∧ Q))
    (x : Vec F S4096x256 .f32) (l : Vec F S4096x1 .i32) (o2 : Vec F S1x512x256 .f32) (o3 : Vec F S1x512x128 .f32)
    (s6 : Vec F S512x256 .f32) (s7 : Vec F S512x128 .f32) (K : PUnit → sProp 𝕄) :
    iprop(owns c arg2 fullShare x ∗ owns c arg3 fullShare l
        ∗ owns c arg4 fullShare o2 ∗ owns c arg5 fullShare o3
        ∗ owns c arg6 fullShare s6 ∗ owns c arg7 fullShare s7
        ∗ (iprop(owns c arg2 fullShare x ∗ owns c arg3 fullShare l
            ∗ owns c arg4 fullShare (if Q then k1_pay1 (k1_pay6 x l (if P then k1_pay3 else s6)) else o2)
            ∗ owns c arg5 fullShare (if Q then k1_pay2 (k1_pay7 l (if P then k1_pay4 else s7)) else o3)
            ∗ owns c arg6 fullShare (k1_pay6 x l (if P then k1_pay3 else s6))
            ∗ owns c arg7 fullShare (k1_pay7 l (if P then k1_pay4 else s7))) -∗ K ⟨⟩))
      ⊢ wp frame (wpE (defs₀ (F := F)) Variants.none c none) E
          (cc1__update_kernel i arg2 harg2 arg3 harg3 arg4 harg4 arg5 harg5 arg6 harg6 arg7 harg7) K := by
  by_cases hp : P <;> by_cases hq : Q
  · exact absurd ⟨hp, hq⟩ hPQ
  all_goals (
    simp only [hp, hq, iff_true, iff_false, ↓reduceIte] at hP hQ ⊢
    simp only [cc1__update_kernel_eq_skeleton]; unfold cc1__update_kernel_skel owns
    iintro ⟨⟨%fx, %hfx, Hx⟩, ⟨%fl, %hfl, Hl⟩, ⟨%fo2, %hfo2, Ho2⟩, ⟨%fo3, %hfo3, Ho3⟩, ⟨%fs6, %hfs6, Hs6⟩, ⟨%fs7, %hfs7, Hs7⟩, Hk⟩
    sl_exec (disch := first | exact hP | exact hQ)
    sl_step
    iapply Hk
    isplitl [Hx]; iexists _; isplitr; swap; iexact Hx; rotate_left
    isplitl [Hl]; iexists _; isplitr; swap; iexact Hl; rotate_left
    isplitl [Ho2]; iexists _; isplitr; swap; iexact Ho2; rotate_left
    isplitl [Ho3]; iexists _; isplitr; swap; iexact Ho3; rotate_left
    isplitl [Hs6]; iexists _; isplitr; swap; iexact Hs6; rotate_left
    iexists _; isplitr; swap; iexact Hs7
    all_goals
      ipureintro; sl_unfold_run_names
      simp only [readStoredWhole, readCovWhole, View.readAt_eq_ld, ldWhole, hfx, hfl, hfo2, hfo3, hfs6, hfs7])

/-- How the running arrays move at point `t`, given what the point before left (nothing is asked of it at point 0). -/
theorem accStep1 (c : Dev nD) (t : Fin cfg1.N) (d6 : Vec F S512x256 .f32) (d7 : Vec F S512x128 .f32)
    (hd : t.val ≠ 0 → (acc1 V c (t.val - 1) (Nat.lt_of_le_of_lt (Nat.sub_le _ _) t.isLt)).1 = d6 ∧ (acc1 V c (t.val - 1) (Nat.lt_of_le_of_lt (Nat.sub_le _ _) t.isLt)).2 = d7) :
    acc1 V c t.val t.isLt = (k1_pay6 (xblk1 V c t) (lblk1 V c t) (if t.val % 16 = 0 then k1_pay3 else d6),
      k1_pay7 (lblk1 V c t) (if t.val % 16 = 0 then k1_pay4 else d7)) := by
  obtain ⟨n, hn⟩ := t
  cases n with
  | zero => rfl
  | succ n =>
    obtain ⟨rfl, rfl⟩ := hd (Nat.succ_ne_zero n)
    by_cases h : (n + 1) % 16 = 0
    · rw [if_pos h, if_pos h]; exact if_pos h
    · rw [if_neg h, if_neg h]; exact if_neg h

theorem PhiAeq1 (c : Dev nD) :
    (Pipeline.ΦA spec1 c : sProp 𝕄)
      = iprop(iprop(iprop(iprop((∃ d, owns c (Memref.whole cc1_scratch0) fullShare d) ∗ (∃ d, owns c (Memref.whole cc1_scratch1) fullShare d))
          ∗ Pipeline.scopedRestBut (Ix := Unit) (Name := ℕ) (U := UR sig nD τ) (Lvl := ℕ) (Val := Elt F) spec1 c [cc1_scratch0, cc1_scratch1]))
        ∗ (∃ r, prngReg c r)) := by
  unfold Pipeline.ΦA; rw [scopedRest1_split]; simp only [owns_whole]; try rfl

/-- The invariant holds the running arrays at some contents: after the first point, what the point before left. -/
theorem PhiSopen1 (c : Dev nD) (n : ℕ) (h : n ≤ cfg1.N) :
    PhiS1 V c n h ⊢ iprop(∃ d6 d7, ⌜∀ hn : n ≠ 0, (acc1 V c (n - 1) (by omega)).1 = d6 ∧ (acc1 V c (n - 1) (by omega)).2 = d7⌝
      ∗ owns c (Memref.whole cc1_scratch0) fullShare d6
      ∗ owns c (Memref.whole cc1_scratch1) fullShare d7
      ∗ Pipeline.scopedRestBut (Ix := Unit) (Name := ℕ) (U := UR sig nD τ) (Lvl := ℕ) (Val := Elt F) spec1 c [cc1_scratch0, cc1_scratch1]
      ∗ (∃ r, prngReg c r)) := by
  cases n with
  | zero =>
    rw [PhiS1, PhiAeq1]
    iintro ⟨⟨⟨⟨%d6, Hs6⟩, ⟨%d7, Hs7⟩⟩, Hrest⟩, Hg⟩
    iexists d6, d7
    isplitr; · ipureintro; exact fun hn => absurd rfl hn
    iframe
  | succ n =>
    rw [PhiS1]
    iintro ⟨Hs6, Hs7, Hrest, Hg⟩
    iexists (acc1 V c n h).1, (acc1 V c n h).2
    isplitr; · ipureintro; exact fun _ => ⟨rfl, rfl⟩
    iframe

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl

theorem idleAt1_2 : ∀ t : Fin cfg1.N, ¬ t.val % 16 = 15 → cfg1.idle 2 (grid1.coords t) = true := by decide +kernel
theorem idleAt1_3 : ∀ t : Fin cfg1.N, ¬ t.val % 16 = 15 → cfg1.idle 3 (grid1.coords t) = true := by decide +kernel
theorem liveAt1_2 : ∀ t : Fin cfg1.N, t.val % 16 = 15 → cfg1.idle 2 (grid1.coords t) = false := by decide +kernel
theorem liveAt1_3 : ∀ t : Fin cfg1.N, t.val % 16 = 15 → cfg1.idle 3 (grid1.coords t) = false := by decide +kernel

theorem leaves1 (c : Dev nD) (w : Fin cfg1.W) (t : Fin cfg1.N) (h : cfg1.idle w (grid1.coords t) = false) :
    (dat1 V c).leavesExact w t = owns c ((cfg1.win w).stage (cfg1.slots t w)) fullShare ((dat1 V c).after w t) := by
  unfold Dat.leavesExact; rw [h]

/-- The invariant lends the running arrays, the run moves them by the tile, and the invariant takes them back. -/
theorem sound_body1 (c : Dev nD) (t : Fin cfg1.N) :
    iprop((dat1 V c).Φ t.castSucc ∗ (dat1 V c).owesAt () t.castSucc
      ∗ (∃ d, owns c (st1_0 t) fullShare ((dat1 V c).before 0 t d))
      ∗ (∃ d, owns c (st1_1 t) fullShare ((dat1 V c).before 1 t d))
      ∗ (∃ d, owns c (st1_2 t) fullShare ((dat1 V c).before 2 t d))
      ∗ (∃ d, owns c (st1_3 t) fullShare ((dat1 V c).before 3 t d)))
    ⊢ wp frame (wpE (defs₀ (F := F)) Variants.none c none) Set.univ (bodyAt1 t)
        (fun _ => iprop((dat1 V c).Φ t.succ ∗ (dat1 V c).owesAt () t.succ
          ∗ (dat1 V c).leavesExact 0 t ∗ (dat1 V c).leavesExact 1 t
          ∗ (dat1 V c).leavesExact 2 t ∗ (dat1 V c).leavesExact 3 t)) := by
  unfold bodyAt1
  simp only [before1_0, before1_1]
  rw [show (dat1 V c).owesAt () t.succ = (dat1 V c).owesAt () t.castSucc from rfl,
    show (dat1 V c).Φ t.succ = PhiS1 V c (t.val + 1) t.isLt from rfl, PhiS1,
    show (dat1 V c).Φ t.castSucc = PhiS1 V c t.val (Nat.le_of_lt t.isLt) from rfl,
    leaves1 V c 0 t rfl, leaves1 V c 1 t rfl, after1_0, after1_1]
  iintro ⟨Hinv, Ho, ⟨%ex, Hx⟩, ⟨%el, Hl⟩, ⟨%eo2, Ho2⟩, ⟨%eo3, Ho3⟩⟩
  icases (PhiSopen1 V c _ _) $$ Hinv with ⟨%d6, %d7, %hd, Hs6, Hs7, Hrest, Hg⟩
  rw [accStep1 V c t d6 d7 hd]
  iapply (kernel1 c Set.univ (grid1.coords t) _ _ _ _ _ _ _ _ _ _ _ _ (t.val % 16 = 0) (t.val % 16 = 15) (hfirst1 t) (hlast1 t) (by omega)
    (xblk1 V c t) (lblk1 V c t) ((dat1 V c).before 2 t eo2) ((dat1 V c).before 3 t eo3) d6 d7 _)
  iframe Hx Hl Ho2 Ho3 Hs6 Hs7
  iintro ⟨Hx, Hl, Ho2, Ho3, Hs6, Hs7⟩
  iframe Hs6 Hs7 Hrest Hg Ho Hx Hl
  by_cases hlast : t.val % 16 = 15
  · rw [leaves1 V c 2 t (liveAt1_2 t hlast), leaves1 V c 3 t (liveAt1_3 t hlast), after1_2, after1_3,
      accStep1 V c t d6 d7 hd, if_pos hlast, if_pos hlast]
    isplitl [Ho2]; · iexact Ho2
    iexact Ho3
  · rw [Dat.leavesExact_idle (dat1 V c) 2 t (idleAt1_2 t hlast) (eq_false_of_ne_true (mt (flush1_2 t).mp hlast)),
      Dat.leavesExact_idle (dat1 V c) 3 t (idleAt1_3 t hlast) (eq_false_of_ne_true (mt (flush1_3 t).mp hlast)),
      if_neg hlast, if_neg hlast]
    isplitl [Ho2]; · iexists _; iexact Ho2
    iexists _; iexact Ho3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 :=
  Entails.of_eq rfl

/-- After the last point the invariant gives back what the launch handed over, the running arrays' contents forgotten. -/
theorem hout1 (c : Dev nD) : (dat1 V c).Φ (Fin.last cfg1.N) ⊢ Pipeline.ΦA spec1 c := by
  rw [PhiAeq1, show (dat1 V c).Φ (Fin.last cfg1.N) = PhiS1 V c cfg1.N (Nat.le_refl _) from rfl]
  refine (PhiSopen1 V c _ _).trans ?_
  iintro ⟨%d6, %d7, -, Hs6, Hs7, Hrest, Hg⟩
  iframe Hrest Hg
  isplitl [Hs6]; · iexists _; iexact Hs6
  iexists _; iexact Hs7

end Cert.KernelIdeal.Hand

end
-- ==== Proof.KI.Loss2.lean ====
import proofs.«418718_j72808285602381_2_alg».proof.Proof.Gen.KernelIdeal.Launch
import proofs.«418718_j72808285602381_2_alg».proof.Proof.Gen.KernelIdeal.Skeleton
import proofs.«418718_j72808285602381_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev xblk2 (c : Dev nD) (t : Fin cfg2.N) : Vec F S8192x256 .f32 := iblk2 V c 0 t
abbrev lblk2 (c : Dev nD) (t : Fin cfg2.N) : Vec F S8192x1 .i32 := iblk2 V c 1 t
abbrev pblk2 (c : Dev nD) (t : Fin cfg2.N) : Vec F S128x256 .f32 := iblk2 V c 2 t

def out2_3 (x0 : Vec F S8192x256 .f32) (x1 : Vec F S8192x1 .i32) (x2 : Vec F S128x256 .f32) : Vec F S1x1x128 .f32 :=
  k2_pay1 (k2_pay3 x1) (k2_pay4 x0 x1 x2)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (xblk2 V c t) (lblk2 V c t) (pblk2 V c t)
  Φ _ := Pipeline.ΦA spec2 c
  q _ := fullShare
  owed _ := 0

theorem after2_3 (c : Dev nD) (t : Fin cfg2.N) :
    (dat2 V c).after 3 t = out2_3 (xblk2 V c t) (lblk2 V c t) (pblk2 V c t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl

theorem zeroPair2 : (![0, 0] : Fin 2 → Nat) = fun _ => 0 := funext (by decide)
theorem zeroTriple2 : (![0, 0, 0] : Fin 3 → Nat) = fun _ => 0 := funext (by decide)

/-- A load through the rectangle at offset zero with the buffer's own sizes reads the buffer's contents. -/
theorem loaded2 {S : Shape} {e : EltTy} (mx : Memref sig .tc .vmem S e) (fx : mx.view.ty.Contents (Elt F)) {off : Fin S.rank → Nat}
    (h : off = fun _ => 0) (inb : ∀ a, off a + S.size a ≤ S.size a) :
    mx.view.readAt (Elt F) (Rect.unit off S.size inb).toLoadRect fx = mx.view.read (Elt F) fx := by
  rw [View.readAt_eq_ld, View.ld_unit_zero h]

/-- One store through that rectangle covers the buffer, which then reads the stored contents whatever it held. -/
theorem stored2 {S : Shape} {e : EltTy} (mo : Memref sig .tc .vmem S e) (fo : mo.view.ty.Contents (Elt F)) (row : S.Idx → Elt F e)
    {off : Fin S.rank → Nat} (h : off = fun _ => 0) (inb : ∀ a, off a + S.size a ≤ S.size a) :
    mo.view.read (Elt F) (mo.view.writes (Elt F) fo [⟨Rect.unit off S.size inb, row⟩]) = row := by
  rw [View.read_writes_eq_canon _ _ _ fun y => ⟨_, List.mem_singleton_self _, View.mem_set_unit_zero h inb y⟩, View.canon_unit_zero h]

theorem sound_kernel2 (c : Dev nD) (E : Set ℕ) (i : grid2.Coords)
    (mx : Memref sig .tc .vmem S8192x256 .f32) (wx : mx.IsWhole) (ml : Memref sig .tc .vmem S8192x1 .i32) (wl : ml.IsWhole)
    (mp : Memref sig .tc .vmem S128x256 .f32) (wp' : mp.IsWhole) (mo : Memref sig .tc .vmem S1x1x128 .f32) (wo : mo.IsWhole)
    (x0 : Vec F S8192x256 .f32) (x1 : Vec F S8192x1 .i32) (x2 : Vec F S128x256 .f32) (K : PUnit → sProp 𝕄) :
    iprop(owns (c : Thread nD τ) mx fullShare x0 ∗ owns (c : Thread nD τ) ml fullShare x1 ∗ owns (c : Thread nD τ) mp fullShare x2
        ∗ (∃ d, owns (c : Thread nD τ) mo fullShare d)
        ∗ (iprop(owns (c : Thread nD τ) mx fullShare x0 ∗ owns (c : Thread nD τ) ml fullShare x1 ∗ owns (c : Thread nD τ) mp fullShare x2
            ∗ owns (c : Thread nD τ) mo fullShare (out2_3 x0 x1 x2)) -∗ K ⟨⟩))
      ⊢ wp frame (wpE (defs₀ (F := F)) Variants.none c none) E (cc2__loss_kernel i mx wx ml wl mp wp' mo wo) K := by
  simp only [cc2__loss_kernel_eq_skeleton]; unfold cc2__loss_kernel_skel
  simp only [k2_part1_eq_skeleton]; unfold k2_part1_skel
  unfold owns
  iintro ⟨⟨%fx, %hfx, Hx⟩, ⟨%fl, %hfl, Hl⟩, ⟨%fp, %hfp, Hp⟩, ⟨%dout, %fo, -, Ho⟩, Hk⟩
  subst hfx hfl hfp
  sl_exec
  sl_step
  iapply Hk
  isplitl [Hx]
  · iexists fx; isplitr
    · ipureintro; rfl
    · iexact Hx
  isplitl [Hl]
  · iexists fl; isplitr
    · ipureintro; rfl
    · iexact Hl
  isplitl [Hp]
  · iexists fp; isplitr
    · ipureintro; rfl
    · iexact Hp
  iexists _; isplitr
  swap; · iexact Ho
  ipureintro
  dsimp only
  rw [stored2 _ _ _ zeroTriple2, loaded2 _ _ zeroPair2, loaded2 _ _ zeroPair2, loaded2 _ _ zeroPair2]
  rfl

/-- At a point of the grid the inputs read the windows' blocks there, so the body's triple applies at those blocks. -/
theorem sound_body2 (c : Dev nD) (t : Fin cfg2.N) :
    iprop((dat2 V c).Φ t.castSucc ∗ (dat2 V c).owesAt () t.castSucc
        ∗ (∃ d, owns (c : Thread nD τ) (st2_0 t) fullShare ((dat2 V c).before 0 t d))
        ∗ (∃ d, owns (c : Thread nD τ) (st2_1 t) fullShare ((dat2 V c).before 1 t d))
        ∗ (∃ d, owns (c : Thread nD τ) (st2_2 t) fullShare ((dat2 V c).before 2 t d))
        ∗ (∃ d, owns (c : Thread nD τ) (st2_3 t) fullShare ((dat2 V c).before 3 t d)))
      ⊢ wp frame (wpE (defs₀ (F := F)) Variants.none c none) Set.univ (bodyAt2 t) (fun _ =>
          iprop((dat2 V c).Φ t.succ ∗ (dat2 V c).owesAt () t.succ
            ∗ owns (c : Thread nD τ) (st2_0 t) fullShare ((dat2 V c).after 0 t)
            ∗ owns (c : Thread nD τ) (st2_1 t) fullShare ((dat2 V c).after 1 t)
            ∗ owns (c : Thread nD τ) (st2_2 t) fullShare ((dat2 V c).after 2 t)
            ∗ owns (c : Thread nD τ) (st2_3 t) fullShare ((dat2 V c).after 3 t))) := by
  have sameInv : (dat2 V c).Φ t.succ = (dat2 V c).Φ t.castSucc := rfl
  have sameOwed : (dat2 V c).owesAt () t.succ = (dat2 V c).owesAt () t.castSucc := rfl
  simp only [before2_0, before2_1, before2_2]
  rw [sameInv, sameOwed, after2_3]
  unfold bodyAt2
  iintro ⟨Hinv, Howed, ⟨%dx, Hx⟩, ⟨%dl, Hl⟩, ⟨%dp, Hp⟩, ⟨%dq, Ho⟩⟩
  iapply (sound_kernel2 c Set.univ _ _ _ _ _ _ _ _ _ (xblk2 V c t) (lblk2 V c t) (pblk2 V c t) _)
  iframe Hx Hl Hp
  isplitl [Ho]; · iexists _; iexact Ho
  iintro ⟨Hx, Hl, Hp, Ho⟩
  iframe Hinv Howed Ho
  isplitl [Hx]; · iexact Hx
  isplitl [Hl]; · iexact Hl
  iexact Hp

theorem body_obligation2 (c : Dev nD) : BodyObligation (dat2 (F := F) V c) (defs₀ (F := F)) Variants.none () Set.univ := by
  intro t
  rw [bigSep_W2, bigSep_W2]
  exact sound_body2 V c t

end Cert.KernelIdeal.Hand

end
-- ==== Proof.KI.Loss3.lean ====
import proofs.«418718_j72808285602381_2_alg».proof.Proof.Gen.KernelIdeal.Launch
import proofs.«418718_j72808285602381_2_alg».proof.Proof.Gen.KernelIdeal.Skeleton
import proofs.«418718_j72808285602381_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
import proofs.«418718_j72808285602381_2_alg».proof.Proof.KI.Loss2

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev xblk3 (c : Dev nD) (t : Fin cfg3.N) : Vec F S4096x256 .f32 := iblk3 V c 0 t
abbrev lblk3 (c : Dev nD) (t : Fin cfg3.N) : Vec F S4096x1 .i32 := iblk3 V c 1 t
abbrev pblk3 (c : Dev nD) (t : Fin cfg3.N) : Vec F S512x256 .f32 := iblk3 V c 2 t

def out3_3 (x0 : Vec F S4096x256 .f32) (x1 : Vec F S4096x1 .i32) (x3 : Vec F S512x256 .f32) : Vec F S1x1x128 .f32 :=
  k3_pay1 (k3_pay3 x1) (k3_pay4 x0 x1 x3)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (xblk3 V c t) (lblk3 V c t) (pblk3 V c t)
  Φ _ := Pipeline.ΦA spec3 c
  q _ := fullShare
  owed _ := 0

theorem after3_3 (c : Dev nD) (t : Fin cfg3.N) :
    (dat3 V c).after 3 t = out3_3 (xblk3 V c t) (lblk3 V c t) (pblk3 V c t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl

theorem sound_kernel3 (c : Dev nD) (E : Set ℕ) (i : grid3.Coords)
    (mx : Memref sig .tc .vmem S4096x256 .f32) (wx : mx.IsWhole) (ml : Memref sig .tc .vmem S4096x1 .i32) (wl : ml.IsWhole)
    (mp : Memref sig .tc .vmem S512x256 .f32) (wp' : mp.IsWhole) (mo : Memref sig .tc .vmem S1x1x128 .f32) (wo : mo.IsWhole)
    (x0 : Vec F S4096x256 .f32) (x1 : Vec F S4096x1 .i32) (x3 : Vec F S512x256 .f32) (K : PUnit → sProp 𝕄) :
    iprop(owns (c : Thread nD τ) mx fullShare x0 ∗ owns (c : Thread nD τ) ml fullShare x1 ∗ owns (c : Thread nD τ) mp fullShare x3
        ∗ (∃ d, owns (c : Thread nD τ) mo fullShare d)
        ∗ (iprop(owns (c : Thread nD τ) mx fullShare x0 ∗ owns (c : Thread nD τ) ml fullShare x1 ∗ owns (c : Thread nD τ) mp fullShare x3
            ∗ owns (c : Thread nD τ) mo fullShare (out3_3 x0 x1 x3)) -∗ K ⟨⟩))
      ⊢ wp frame (wpE (defs₀ (F := F)) Variants.none c none) E (cc3__loss_kernel i mx wx ml wl mp wp' mo wo) K := by
  simp only [cc3__loss_kernel_eq_skeleton]; unfold cc3__loss_kernel_skel
  simp only [k3_part1_eq_skeleton]; unfold k3_part1_skel
  unfold owns
  iintro ⟨⟨%fx, %hfx, Hx⟩, ⟨%fl, %hfl, Hl⟩, ⟨%fp, %hfp, Hp⟩, ⟨%dout, %fo, -, Ho⟩, Hk⟩
  subst hfx hfl hfp
  sl_exec
  sl_step
  iapply Hk
  isplitl [Hx]
  · iexists fx; isplitr
    · ipureintro; rfl
    · iexact Hx
  isplitl [Hl]
  · iexists fl; isplitr
    · ipureintro; rfl
    · iexact Hl
  isplitl [Hp]
  · iexists fp; isplitr
    · ipureintro; rfl
    · iexact Hp
  iexists _; isplitr
  swap; · iexact Ho
  ipureintro
  dsimp only
  rw [stored2 _ _ _ zeroTriple2, loaded2 _ _ zeroPair2, loaded2 _ _ zeroPair2, loaded2 _ _ zeroPair2]
  rfl

/-- At a point of the grid the inputs read the windows' blocks there, so the body's triple applies at those blocks. -/
theorem sound_body3 (c : Dev nD) (t : Fin cfg3.N) :
    iprop((dat3 V c).Φ t.castSucc ∗ (dat3 V c).owesAt () t.castSucc
        ∗ (∃ d, owns (c : Thread nD τ) (st3_0 t) fullShare ((dat3 V c).before 0 t d))
        ∗ (∃ d, owns (c : Thread nD τ) (st3_1 t) fullShare ((dat3 V c).before 1 t d))
        ∗ (∃ d, owns (c : Thread nD τ) (st3_2 t) fullShare ((dat3 V c).before 2 t d))
        ∗ (∃ d, owns (c : Thread nD τ) (st3_3 t) fullShare ((dat3 V c).before 3 t d)))
      ⊢ wp frame (wpE (defs₀ (F := F)) Variants.none c none) Set.univ (bodyAt3 t) (fun _ =>
          iprop((dat3 V c).Φ t.succ ∗ (dat3 V c).owesAt () t.succ
            ∗ owns (c : Thread nD τ) (st3_0 t) fullShare ((dat3 V c).after 0 t)
            ∗ owns (c : Thread nD τ) (st3_1 t) fullShare ((dat3 V c).after 1 t)
            ∗ owns (c : Thread nD τ) (st3_2 t) fullShare ((dat3 V c).after 2 t)
            ∗ owns (c : Thread nD τ) (st3_3 t) fullShare ((dat3 V c).after 3 t))) := by
  have sameInv : (dat3 V c).Φ t.succ = (dat3 V c).Φ t.castSucc := rfl
  have sameOwed : (dat3 V c).owesAt () t.succ = (dat3 V c).owesAt () t.castSucc := rfl
  simp only [before3_0, before3_1, before3_2]
  rw [sameInv, sameOwed, after3_3]
  unfold bodyAt3
  iintro ⟨Hinv, Howed, ⟨%dx, Hx⟩, ⟨%dl, Hl⟩, ⟨%dp, Hp⟩, ⟨%dq, Ho⟩⟩
  iapply (sound_kernel3 c Set.univ _ _ _ _ _ _ _ _ _ (xblk3 V c t) (lblk3 V c t) (pblk3 V c t) _)
  iframe Hx Hl Hp
  isplitl [Ho]; · iexists _; iexact Ho
  iintro ⟨Hx, Hl, Hp, Ho⟩
  iframe Hinv Howed Ho
  isplitl [Hx]; · iexact Hx
  isplitl [Hl]; · iexact Hl
  iexact Hp

theorem body_obligation3 (c : Dev nD) : BodyObligation (dat3 (F := F) V c) (defs₀ (F := F)) Variants.none () Set.univ := by
  intro t
  rw [bigSep_W3, bigSep_W3]
  exact sound_body3 V c t

end Cert.KernelIdeal.Hand

end
-- ==== Proof.KI.Run.lean ====
import proofs.«418718_j72808285602381_2_alg».proof.Proof.KI.Upd0
import proofs.«418718_j72808285602381_2_alg».proof.Proof.KI.Upd1
import proofs.«418718_j72808285602381_2_alg».proof.Proof.KI.Loss2
import proofs.«418718_j72808285602381_2_alg».proof.Proof.KI.Loss3
import proofs.«418718_j72808285602381_2_alg».proof.Proof.Gen.KernelIdeal.Regions

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev X1 : (c : Dev nD) → (b : Ref sig .tc) → Buf (Elt F) ((c : Thread nD τ).loc b) := fun c b => V1 m c b

def o2 : Outs (F := F) := fun _ r c =>
  Pipeline.withArrays spec0 c (V1 m c) (fun w => (dat0 (X1 m) c).arrAt w cfg0.N) (Proc.devRef .tc r)
def o6 : Outs (F := F) := fun J r c =>
  match J with
  | 2 => o2 m 2 r c
  | _ => Pipeline.withArrays spec1 c (V5 m (o2 m) c) (fun w => (dat1 (fun c b => V5 m (o2 m) c b) c).arrAt w cfg1.N) (Proc.devRef .tc r)
def o10 : Outs (F := F) := fun J r c =>
  match J with
  | 2 => o2 m 2 r c
  | 6 => o6 m 6 r c
  | _ => Pipeline.withArrays spec2 c (V9 m (o6 m) c) (fun w => (dat2 (fun c b => V9 m (o6 m) c b) c).arrAt w cfg2.N) (Proc.devRef .tc r)
/-- What each launch leaves in its arrays; a launch is entered from contents that read earlier launches only, so the stages nest. -/
def outs : Outs (F := F) := fun J r c =>
  match J with
  | 2 => o2 m 2 r c
  | 6 => o6 m 6 r c
  | 10 => o10 m 10 r c
  | _ => Pipeline.withArrays spec3 c (V11 m (o10 m) c) (fun w => (dat3 (fun c b => V11 m (o10 m) c b) c).arrAt w cfg3.N) (Proc.devRef .tc r)

abbrev X5 : (c : Dev nD) → (b : Ref sig .tc) → Buf (Elt F) ((c : Thread nD τ).loc b) := fun c b => V5 m (outs m) c b
abbrev X9 : (c : Dev nD) → (b : Ref sig .tc) → Buf (Elt F) ((c : Thread nD τ).loc b) := fun c b => V9 m (outs m) c b
abbrev X11 : (c : Dev nD) → (b : Ref sig .tc) → Buf (Elt F) ((c : Thread nD τ).loc b) := fun c b => V11 m (outs m) c b

theorem outs_v1_0 (c : Dev nD) : outs m 2 main_v1_0 c = (dat0 (X1 m) c).arrAt 2 cfg0.N :=
  Pipeline.withArrays_arr spec0 launch0.win.arr_inj c (V1 m c) (fun w => (dat0 (X1 m) c).arrAt w cfg0.N) 2
theorem outs_v1_1 (c : Dev nD) : outs m 2 main_v1_1 c = (dat0 (X1 m) c).arrAt 3 cfg0.N :=
  Pipeline.withArrays_arr spec0 launch0.win.arr_inj c (V1 m c) (fun w => (dat0 (X1 m) c).arrAt w cfg0.N) 3
theorem outs_v37_0 (c : Dev nD) : outs m 6 main_v37_0 c = (dat1 (X5 m) c).arrAt 2 cfg1.N :=
  Pipeline.withArrays_arr spec1 launch1.win.arr_inj c (V5 m (outs m) c) (fun w => (dat1 (X5 m) c).arrAt w cfg1.N) 2
theorem outs_v37_1 (c : Dev nD) : outs m 6 main_v37_1 c = (dat1 (X5 m) c).arrAt 3 cfg1.N :=
  Pipeline.withArrays_arr spec1 launch1.win.arr_inj c (V5 m (outs m) c) (fun w => (dat1 (X5 m) c).arrAt w cfg1.N) 3
theorem outs_v73 (c : Dev nD) : outs m 10 main_v73 c = (dat2 (X9 m) c).arrAt 3 cfg2.N :=
  Pipeline.withArrays_arr spec2 launch2.win.arr_inj c (V9 m (outs m) c) (fun w => (dat2 (X9 m) c).arrAt w cfg2.N) 3
theorem outs_v84 (c : Dev nD) : outs m 12 main_v84 c = (dat3 (X11 m) c).arrAt 3 cfg3.N :=
  Pipeline.withArrays_arr spec3 launch3.win.arr_inj c (V11 m (outs m) c) (fun w => (dat3 (X11 m) c).arrAt w cfg3.N) 3

def pdats : (p : Fin 4) → (c : Dev nD) → Dat τ (Elt F) Unit ℕ (UR sig nD τ) ℕ (cfgs p) c
  | ⟨0, _⟩ => fun c => dat0 (X1 m) c
  | ⟨1, _⟩ => fun c => dat1 (X5 m) c
  | ⟨2, _⟩ => fun c => dat2 (X9 m) c
  | ⟨3, _⟩ => fun c => dat3 (X11 m) c

abbrev L0 : GSem nD τ sig → Finset Unit := fun _ => ∅
abbrev lv0 : GSem nD τ sig → Unit → ℕ := fun _ _ => 0
abbrev R (c : Dev nD) : sProp 𝕄 := iprop((∃ r, prngReg c r) ∗ ∃ W, owes (c : Thread nD τ) (0 : CellTallies nD τ sig Unit) W)

/-- A launch as a segment of the program: entered at contents `Vi`, left at `Vo`, which holds the arrays of the windows `l` at what the launch leaves and agrees with `Vi` elsewhere. -/
def regOf (pd : (p : Fin 4) → (c : Dev nD) → Dat τ (Elt F) Unit ℕ (UR sig nD τ) ℕ (cfgs p) c) (p : Fin 4)
    (lf : Pipeline.LaunchFacts (nD := nD) (τ := τ) cfgs p) (Vi Vo : Dev nD → Valuation τ sig (Elt F)) (l : List (Fin (cfgs p).W))
    (hbody : ∀ c, BodyObligation (pd p c) (defs₀ (F := F)) Variants.none () Set.univ)
    (hd : ∀ c, (∀ w, (pd p c).q w = fullShare) ∧ (∀ t, (pd p c).owed t = 0) ∧ (pd p c).recorded 0 = Set.univ
      ∧ ∀ w, (pd p c).A w = Vi c (Pipeline.arrRef (cfgs p).spec w))
    (hin : ∀ c, Pipeline.ΦA (cfgs p).spec c ⊢ (pd p c).Φ 0) (hout : ∀ c, (pd p c).Φ (Fin.last _) ⊢ Pipeline.ΦA (cfgs p).spec c)
    (hI : ∀ w, w ∉ l → ((cfgs p).win w).isOut = false)
    (hW : ∀ c (b : Ref sig .tc), b ∉ l.map (Pipeline.arrRef (cfgs p).spec) → Vo c b = Vi c b)
    (hO : ∀ c, ∀ w ∈ l, Vo c (Pipeline.arrRef (cfgs p).spec w) = (pd p c).arrAt w (cfgs p).N) :
    RegionSeg (pcfgs (F := F)) adm pd () defs₀ Variants.none L0 lv0 p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L0 lv0 p fun c => (hd c).2.1
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Vi c b
  hentry c := by
    rw [Pipeline.ownSems0_none]
    have hsplit := Pipeline.arrays_of_unscopedBufs (p := p) (pcfgs (F := F)) adm pd lf.win lf.arr_whole c
      ((pd p c).share_full (hd c).1) (fun b => Vi c b) (hd c).2.2.2
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin; rw [(hd c).2.1 0]
    icases HO with ⟨%W, HO⟩; iexists W; isplitr; · ipureintro; exact fun x _ => Or.inl ((hd c).2.2.1 ▸ Set.mem_univ x)
    iexact HO
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pd ((pd p c).share_full (hd c).1) (fun b => Vi c b) (fun b => Vo c b) ((pd p c).arrAt · (cfgs p).N)
      (fun w => if h : w ∈ l then (hO c w h).symm else ((pd p c).arrAt_in w (hI w h) _).trans (((hd c).2.2.2 w).trans
        (hW c _ fun h' => h ((List.mem_map_of_injective lf.win.arr_inj).mp h')).symm))
      fun b hb => hW c b fun h => hb (Finset.mem_image.mpr ((List.mem_map.mp h).imp fun _ hw => ⟨Finset.mem_univ _, hw.2⟩))
    rw [Pipeline.unscopedBufs_held] at hjoin
    iintro ⟨Ha, HO, HY, Hrest⟩
    imodintro
    isplitl [Ha Hrest]
    · iapply hjoin; iframe
    isplitl [HY]; · iexact HY
    unfold Pipeline.Dat.owesAt Pipeline.owesWithin; rw [(hd c).2.1 (Fin.last _)]
    icases HO with ⟨%W, -, HO⟩; iexists W; iexact HO

def reg0 : RegionSeg (pcfgs (F := F)) adm (pdats m) () defs₀ Variants.none L0 lv0 0 :=
  regOf (pdats m) 0 launch0 (V1 m) (V2 m (outs m)) [2, 3] (body_obligation0 (X1 m)) (fun _ => ⟨fun _ => rfl, fun _ => rfl, rfl, fun _ => rfl⟩)
    (hin0 (X1 m)) (hout0 (X1 m)) (by decide) (V2_of m (outs m)) fun c => List.forall_mem_cons.2
      ⟨((Function.update_of_ne (StableHlo.devRef_ne_of_ne (by decide)) _ _).trans (Function.update_self _ _ _)).trans (outs_v1_0 m c),
        List.forall_mem_singleton.2 ((Function.update_self _ _ _).trans (outs_v1_1 m c))⟩
def reg1 : RegionSeg (pcfgs (F := F)) adm (pdats m) () defs₀ Variants.none L0 lv0 1 :=
  regOf (pdats m) 1 launch1 (V5 m (outs m)) (V6 m (outs m)) [2, 3] (body_obligation1 (X5 m)) (fun _ => ⟨fun _ => rfl, fun _ => rfl, rfl, fun _ => rfl⟩)
    (hin1 (X5 m)) (hout1 (X5 m)) (by decide) (V6_of m (outs m)) fun c => List.forall_mem_cons.2
      ⟨((Function.update_of_ne (StableHlo.devRef_ne_of_ne (by decide)) _ _).trans (Function.update_self _ _ _)).trans (outs_v37_0 m c),
        List.forall_mem_singleton.2 ((Function.update_self _ _ _).trans (outs_v37_1 m c))⟩
def reg2 : RegionSeg (pcfgs (F := F)) adm (pdats m) () defs₀ Variants.none L0 lv0 2 :=
  regOf (pdats m) 2 launch2 (V9 m (outs m)) (V10 m (outs m)) [3] (body_obligation2 (X9 m)) (fun _ => ⟨fun _ => rfl, fun _ => rfl, rfl, fun _ => rfl⟩)
    (fun _ => .rfl) (fun _ => .rfl) (by decide) (V10_of m (outs m)) fun c => List.forall_mem_singleton.2
      ((Function.update_self _ _ _).trans (outs_v73 m c))
def reg3 : RegionSeg (pcfgs (F := F)) adm (pdats m) () defs₀ Variants.none L0 lv0 3 :=
  regOf (pdats m) 3 launch3 (V11 m (outs m)) (V12 m (outs m)) [3] (body_obligation3 (X11 m)) (fun _ => ⟨fun _ => rfl, fun _ => rfl, rfl, fun _ => rfl⟩)
    (fun _ => .rfl) (fun _ => .rfl) (by decide) (V12_of m (outs m)) fun c => List.forall_mem_singleton.2
      ((Function.update_self _ _ _).trans (outs_v84 m c))

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The program as its thirteen segments, chained from the launch memory: every final memory holds each unscoped buffer at the last contents, read here at the two results and the arguments. -/
theorem run_vals (ρ : Dev nD → PrngReg) :
    θ_run defs (onTc (τ := τ) (main (F := F))) ⟨m, fun _ => 0, ρ⟩ (fun r => ∀ c : Dev nD,
      r.2.mem ((c.tc : Thread nD τ).loc main_v82) = V13 m (outs m) c main_v82
      ∧ r.2.mem ((c.tc : Thread nD τ).loc main_v93) = V13 m (outs m) c main_v93
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm (pdats m) () cellOf_inj emb₁ defs₀ Variants.none L0 lv0 m ρ main
    (segs m (outs m) Variants.none L0 lv0 (fun _ => R (F := F)) () (pdats m) (reg0 m) (reg1 m) (reg2 m) (reg3 m))
    (fun c Q => by rw [main_chain c, Seg.run_eq_chain]; exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V13 m (outs m) c))
    (hch := fun c => ⟨.rfl, .rfl, .rfl, .rfl, .rfl, .rfl, .rfl, .rfl, .rfl, .rfl, .rfl, .rfl, .rfl, sep_mono .rfl (by iintro ⟨-, HO⟩; iexact HO)⟩)
    (hinit := by
      refine Pipeline.initEach L0 lv0 fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      iframe Hh
      isplitl [Hp]; · iexists _; iexact Hp
      iexists ∅; iexact HO)
    (QY := fun c s => ∀ b ∈ Pipeline.ucRefs τ sig, s.mem (((c : Thread nD τ)).1, b) = V13 m (outs m) c b)
    (hfin := fun c s' => by
      iintro ⟨Hh, HSI⟩
      unfold StableHlo.held
      imodintro
      iapply (pointsTo_read_all (Pipeline.ucRefs τ sig) (fun b => (((c : Thread nD τ)).1, b)) (V13 m (outs m) c) s')
      isplitl [Hh] <;> iassumption)
    (hQ := fun s h c =>
      have rd := fun (b : Ref sig .tc) hb => h c (Proc.devRef .tc b) (mem_uc b hb)
      ⟨rd main_v82 (by decide), rd main_v93 (by decide), (rd main_arg0 (by decide)).trans (V13_main_arg0 m (outs m) c),
        (rd main_arg1 (by decide)).trans (V13_main_arg1 m (outs m) c), (rd main_arg2 (by decide)).trans (V13_main_arg2 m (outs m) c),
        (rd main_arg3 (by decide)).trans (V13_main_arg3 m (outs m) c), (rd main_arg4 (by decide)).trans (V13_main_arg4 m (outs m) c),
        (rd main_arg5 (by decide)).trans (V13_main_arg5 m (outs m) c)⟩)

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  OrdCont.mono (θ_run defs (onTc (τ := τ) (main (F := F))) ⟨m, fun _ => 0, ρ⟩) (fun _ h c => (h c).2.2) (run_vals m ρ)

end Cert.KernelIdeal.Hand

end
-- ==== Proof.Spec.lean ====
import Idealize.ShloMosaic.PureOps.Ideal
import Idealize.ShloMosaic.PureOps.Ideal.Laws

noncomputable section

namespace Cert.Spec

open Idealize.ShloMosaic

def eps : EReal := Ideal.ofBits .f32 0x2B8CBCCC#32
def temp : EReal := Ideal.ofBits .f32 0x3E99999A#32
def half : EReal := Ideal.ofBits .f32 0x3F000000#32
def one : EReal := Ideal.ofBits .f32 0x3F800000#32
def ninf : EReal := Ideal.ofBits .f32 0xFF800000#32

variable {B C D : ℕ}

-- A row divided by the larger of its Euclidean norm and `eps`.
def nrm (x : Fin B → Fin D → EReal) (r : Fin B) (d : Fin D) : EReal :=
  Ideal.div (x r d) (max (Ideal.sqrt (∑ k : Fin D, x r k * x r k)) eps)

def oh (l : BitVec 32) (c : Fin C) : EReal := if l = BitVec.ofNat 32 c.val then 1 else 0

def valid (l : BitVec 32) : EReal := if 0 ≤ l.toInt then 1 else 0

def sums (x : Fin B → Fin D → EReal) (lbl : Fin B → BitVec 32) (c : Fin C) (d : Fin D) : EReal :=
  ∑ r : Fin B, oh (lbl r) c * nrm x r d
def counts (lbl : Fin B → BitVec 32) (c : Fin C) : EReal := ∑ r : Fin B, oh (C := C) (lbl r) c

-- A class that received a row moves to the unit vector of the mean of its old prototype and its rows' unit mean.
def protoUpd (s : Fin C → Fin D → EReal) (n : Fin C → EReal) (p : Fin C → Fin D → EReal) (c : Fin C) (d : Fin D) : EReal :=
  if 0 < n c then
    nrm (fun c d => half * p c d + half * nrm (fun c d => Ideal.div (s c d) (max (n c) one)) c d) c d
  else p c d

def logits (x : Fin B → Fin D → EReal) (P : Fin C → Fin D → EReal) (r : Fin B) (c : Fin C) : EReal :=
  Ideal.div (∑ d : Fin D, nrm x r d * P c d) temp
def rowMax (l : Fin C → EReal) : EReal := (Finset.univ : Finset (Fin C)).fold max ninf l
def logp (l : Fin C → EReal) (c : Fin C) : EReal :=
  (l c - rowMax l) - Ideal.log (∑ c' : Fin C, Ideal.exp (l c' - rowMax l))

def nll (x : Fin B → Fin D → EReal) (lbl : Fin B → BitVec 32) (P : Fin C → Fin D → EReal) (r : Fin B) : EReal :=
  (0 - ∑ c : Fin C, oh (lbl r) c * logp (logits x P r) c) * valid (lbl r)
-- The mean over the rows with a non-negative label of minus the log-softmax taken at the label.
def loss (x : Fin B → Fin D → EReal) (lbl : Fin B → BitVec 32) (P : Fin C → Fin D → EReal) : EReal :=
  Ideal.div (∑ r : Fin B, nll x lbl P r) (max (∑ r : Fin B, valid (lbl r)) one)

end Cert.Spec

end
-- ==== Proof.SpecLaws.lean ====
import proofs.«418718_j72808285602381_2_alg».proof.Proof.Spec
import Mathlib.Logic.Equiv.Fin.Basic
import Mathlib.Algebra.BigOperators.Group.Finset.Basic
import Mathlib.Algebra.BigOperators.Fin
import Mathlib.Data.EReal.Basic

namespace Cert.Spec

theorem tile_lt {T R : ℕ} (t : Fin T) (k : Fin R) : t.val * R + k.val < T * R :=
  calc t.val * R + k.val < t.val * R + R := Nat.add_lt_add_left k.isLt _
    _ = (t.val + 1) * R := (Nat.succ_mul _ _).symm
    _ ≤ T * R := Nat.mul_le_mul_right R t.isLt

theorem group_lt {G J R : ℕ} (g : Fin G) (j : Fin J) (k : Fin R) :
    (g.val * J + j.val) * R + k.val < G * J * R :=
  tile_lt (T := G * J) ⟨g.val * J + j.val, tile_lt g j⟩ k

theorem sum_tiles (T R : ℕ) (f : Fin (T * R) → EReal) :
    ∑ r : Fin (T * R), f r = ∑ t : Fin T, ∑ k : Fin R, f ⟨t.val * R + k.val, tile_lt t k⟩ := by
  rw [← (finProdFinEquiv (m := T) (n := R)).sum_comp f, Fintype.sum_prod_type]
  refine Finset.sum_congr rfl (fun t _ => Finset.sum_congr rfl (fun k _ => ?_))
  congr 1
  apply Fin.ext
  simp only [finProdFinEquiv_apply_val]
  rw [Nat.add_comm, Nat.mul_comm]

theorem sum_groups (G J R : ℕ) (f : Fin (G * J * R) → EReal) :
    ∑ r : Fin (G * J * R), f r
      = ∑ g : Fin G, ∑ j : Fin J, ∑ k : Fin R, f ⟨(g.val * J + j.val) * R + k.val, group_lt g j k⟩ := by
  rw [sum_tiles (G * J) R f,
    sum_tiles G J (fun t : Fin (G * J) => ∑ k : Fin R, f ⟨t.val * R + k.val, tile_lt t k⟩)]

variable {B C D : ℕ}

theorem sum_oh_mul (l : Fin B → BitVec 32) (c : Fin C) (f : Fin B → EReal) :
    ∑ r : Fin B, oh (l r) c * f r
      = ∑ r ∈ Finset.univ.filter (fun r => l r = BitVec.ofNat 32 c.val), f r := by
  rw [Finset.sum_filter]
  exact Finset.sum_congr rfl fun r _ => by rw [oh, ite_mul, one_mul, zero_mul]

theorem sum_oh (l : Fin B → BitVec 32) (c : Fin C) :
    ∑ r : Fin B, oh (C := C) (l r) c
      = ∑ r ∈ Finset.univ.filter (fun r => l r = BitVec.ofNat 32 c.val), (1 : EReal) := by
  rw [Finset.sum_filter]
  rfl

theorem toNat_lt_of_valid (l : BitVec 32) (h0 : 0 ≤ l.toInt) (hC' : l.toInt < (C : ℤ)) : l.toNat < C := by
  have h2 : 2 * l.toNat < 2 ^ 32 := BitVec.toInt_pos_iff.mp h0
  have h3 : l.toInt = (l.toNat : ℤ) := BitVec.toInt_eq_toNat_of_lt h2
  omega

-- Against the indicator of a label in range, a sum over the classes keeps the label's term only.
theorem pick_label (hC : C < 2 ^ 31) (l : BitVec 32) (h0 : 0 ≤ l.toInt) (hC' : l.toInt < (C : ℤ))
    (g : Fin C → EReal) :
    ∑ c : Fin C, oh l c * g c = g ⟨l.toNat, toNat_lt_of_valid l h0 hC'⟩ := by
  rw [Finset.sum_eq_single_of_mem (⟨l.toNat, toNat_lt_of_valid l h0 hC'⟩ : Fin C) (Finset.mem_univ _), oh, if_pos (BitVec.eq_of_toNat_eq
    ((BitVec.toNat_ofNat ..).trans (Nat.mod_eq_of_lt l.isLt)).symm), one_mul]
  intro c _ hc
  rw [oh, if_neg, zero_mul]
  rintro rfl
  exact hc (Fin.ext ((BitVec.toNat_ofNat ..).trans (Nat.mod_eq_of_lt (c.isLt.trans (by omega)))).symm)

theorem valid_of_nonneg (l : BitVec 32) (h : 0 ≤ l.toInt) : valid l = 1 := if_pos h
theorem valid_of_neg (l : BitVec 32) (h : l.toInt < 0) : valid l = 0 := if_neg (not_le.mpr h)

theorem nll_of_valid (hC : C < 2 ^ 31) (x : Fin B → Fin D → EReal) (lbl : Fin B → BitVec 32)
    (P : Fin C → Fin D → EReal) (r : Fin B) (h0 : 0 ≤ (lbl r).toInt) (hC' : (lbl r).toInt < (C : ℤ)) :
    nll x lbl P r
      = (-(logp (logits x P r) ⟨(lbl r).toNat, toNat_lt_of_valid (lbl r) h0 hC'⟩)) * 1 := by
  unfold nll
  rw [pick_label hC (lbl r) h0 hC', valid_of_nonneg (lbl r) h0, zero_sub]

theorem nll_of_invalid (x : Fin B → Fin D → EReal) (lbl : Fin B → BitVec 32)
    (P : Fin C → Fin D → EReal) (r : Fin B) (h : (lbl r).toInt < 0) :
    nll x lbl P r = 0 := by
  unfold nll
  rw [valid_of_neg _ h, mul_zero]

end Cert.Spec
-- ==== Proof.KBridgeParts.lean ====
import proofs.«418718_j72808285602381_2_alg».proof.Proof.Gen.KernelIdeal.Regions
import proofs.«418718_j72808285602381_2_alg».proof.Proof.Spec
import proofs.«418718_j72808285602381_2_alg».proof.Proof.SpecLaws
import Idealize.ShloMosaic.Lib.ValueIdx

noncomputable section

namespace Cert.KernelIdeal.Val

open Idealize.ShloMosaic Idealize.ShloMosaic.TcCoe Idealize.ShloMosaic.ValueIdx
open Cert.KernelIdeal.Gen

section Carried

variable {F : FTy → Type} [FloatOps F]
variable (m : (ℓ : Loc nD τ sig) → Buf (Elt F) ℓ) (outs : Outs (F := F)) (c : Dev nD)

-- An item leaves every array it does not write as it was, so an array no item writes is as launched wherever it is read.
theorem carried (r : Ref sig .tc)
    (h : r ∉ hostOps0_W ∧ r ∉ ([main_v1_0, main_v1_1] : List (Ref sig .tc)) ∧ r ∉ hostOps1_W ∧ r ∉ hostOps1_1_W
      ∧ r ∉ hostOps1_2_W ∧ r ∉ ([main_v37_0, main_v37_1] : List (Ref sig .tc)) ∧ r ∉ hostOps2_W ∧ r ∉ hostOps2_1_W
      ∧ r ∉ hostOps2_2_W ∧ r ∉ ([main_v73] : List (Ref sig .tc)) ∧ r ∉ hostOps3_W) :
    V1 m c r = V0 m c r ∧ V2 m outs c r = V0 m c r ∧ V4 m outs c r = V0 m c r ∧ V5 m outs c r = V0 m c r
      ∧ V6 m outs c r = V0 m c r ∧ V8 m outs c r = V0 m c r ∧ V9 m outs c r = V0 m c r ∧ V10 m outs c r = V0 m c r
      ∧ V11 m outs c r = V0 m c r := by
  obtain ⟨h1, h2, h3, h4, h5, h6, h7, h8, h9, h10, h11⟩ := h
  have e1 := V1_of m c r h1
  have e2 := (V2_of m outs c r h2).trans e1
  have e4 := (V4_of m outs c r h4).trans ((V3_of m outs c r h3).trans e2)
  have e5 := (V5_of m outs c r h5).trans e4
  have e6 := (V6_of m outs c r h6).trans e5
  have e8 := (V8_of m outs c r h8).trans ((V7_of m outs c r h7).trans e6)
  have e9 := (V9_of m outs c r h9).trans e8
  have e10 := (V10_of m outs c r h10).trans e9
  exact ⟨e1, e2, e4, e5, e6, e8, e9, e10, (V11_of m outs c r h11).trans e10⟩

theorem V13_main_v82 : V13 m outs c main_v82 = V11 m outs c main_v82 :=
  (V13_of m outs c main_v82 (by decide)).trans (V12_of m outs c main_v82 (by decide))

theorem V10_main_v73 : V10 m outs c main_v73 = outs 10 main_v73 c := by
  simp only [V10, Function.update_self]

theorem V9_main_v35 : V9 m outs c main_v35 = V4 m outs c main_v35 :=
  (V9_of m outs c main_v35 (by decide)).trans <| (V8_of m outs c main_v35 (by decide)).trans <|
  (V7_of m outs c main_v35 (by decide)).trans <| (V6_of m outs c main_v35 (by decide)).trans <|
  V5_of m outs c main_v35 (by decide)

theorem V2_main_v1_0 : V2 m outs c main_v1_0 = outs 2 main_v1_0 c := by
  simp only [V2, Function.update_of_ne (StableHlo.devRef_ne_of_ne (by decide : main_v1_0 ≠ main_v1_1) :
    (Proc.devRef .tc main_v1_0 : DevRef τ sig) ≠ Proc.devRef .tc main_v1_1), Function.update_self]
theorem V2_main_v1_1 : V2 m outs c main_v1_1 = outs 2 main_v1_1 c := by
  simp only [V2, Function.update_self]

theorem V12_main_v84 : V12 m outs c main_v84 = outs 12 main_v84 c := by
  simp only [V12, Function.update_self]

theorem V11_main_v71 : V11 m outs c main_v71 = V8 m outs c main_v71 :=
  (V11_of m outs c main_v71 (by decide)).trans <| (V10_of m outs c main_v71 (by decide)).trans <|
  V9_of m outs c main_v71 (by decide)

theorem V6_main_v37_0 : V6 m outs c main_v37_0 = outs 6 main_v37_0 c := by
  simp only [V6, Function.update_of_ne (StableHlo.devRef_ne_of_ne (by decide : main_v37_0 ≠ main_v37_1) :
    (Proc.devRef .tc main_v37_0 : DevRef τ sig) ≠ Proc.devRef .tc main_v37_1), Function.update_self]
theorem V6_main_v37_1 : V6 m outs c main_v37_1 = outs 6 main_v37_1 c := by
  simp only [V6, Function.update_self]

end Carried

theorem sum_tiles_of_eq {B : ℕ} (T R : ℕ) (hB : T * R = B) (f : Fin B → EReal) :
    ∑ r : Fin B, f r
      = ∑ t : Fin T, ∑ k : Fin R, f ⟨t.val * R + k.val, lt_of_lt_of_eq (Spec.tile_lt t k) hB⟩ := by
  subst hB; exact Spec.sum_tiles T R f

-- The loss assembled from per-group class sums and counts and per-tile loss sums and valid counts of the same rows and labels.
theorem loss_of_parts {B C D : ℕ} (G J R T R2 : ℕ) (hG : G * J * R = B) (hT : T * R2 = B)
    (X X1 X9 : Fin B → Fin D → EReal) (L L1 L9 : Fin B → BitVec 32) (P0 : Fin C → Fin D → EReal)
    (S : Fin G → Fin C → Fin D → EReal) (N : Fin G → Fin C → EReal)
    (Pn : Fin C → Fin D → EReal) (A Vd : Fin T → EReal) (out : EReal)
    (hX1 : X1 = X) (hL1 : L1 = L) (hX9 : X9 = X) (hL9 : L9 = L)
    (hS : ∀ i k d, S i k d = ∑ j : Fin J, ∑ r : Fin R,
        Spec.oh (L1 ⟨(i.val * J + j.val) * R + r.val, lt_of_lt_of_eq (Spec.group_lt i j r) hG⟩) k
          * Spec.nrm X1 ⟨(i.val * J + j.val) * R + r.val, lt_of_lt_of_eq (Spec.group_lt i j r) hG⟩ d)
    (hN : ∀ i k, N i k = ∑ j : Fin J, ∑ r : Fin R,
        Spec.oh (C := C) (L1 ⟨(i.val * J + j.val) * R + r.val, lt_of_lt_of_eq (Spec.group_lt i j r) hG⟩) k)
    (hP : ∀ k d, Pn k d
        = Spec.protoUpd (fun k d => ∑ i : Fin G, S i k d) (fun k => ∑ i : Fin G, N i k) P0 k d)
    (hA : ∀ t, A t
        = ∑ r : Fin R2, Spec.nll X9 L9 Pn ⟨t.val * R2 + r.val, lt_of_lt_of_eq (Spec.tile_lt t r) hT⟩)
    (hV : ∀ t, Vd t
        = ∑ r : Fin R2, Spec.valid (L9 ⟨t.val * R2 + r.val, lt_of_lt_of_eq (Spec.tile_lt t r) hT⟩))
    (hout : out = Ideal.div (∑ t : Fin T, A t) (max (∑ t : Fin T, Vd t) Spec.one)) :
    out = Spec.loss X L (Spec.protoUpd (Spec.sums X L) (Spec.counts L) P0) := by
  subst hG X1 L1 X9 L9
  have hs : (fun k d => ∑ i : Fin G, S i k d) = Spec.sums X L := by
    funext k d
    exact (Finset.sum_congr rfl fun i _ => hS i k d).trans
      (Spec.sum_groups G J R (fun r => Spec.oh (L r) k * Spec.nrm X r d)).symm
  have hn : (fun k => ∑ i : Fin G, N i k) = Spec.counts L := by
    funext k
    exact (Finset.sum_congr rfl fun i _ => hN i k).trans
      (Spec.sum_groups G J R (fun r => Spec.oh (C := C) (L r) k)).symm
  have hPn : Pn = Spec.protoUpd (Spec.sums X L) (Spec.counts L) P0 := by
    funext k d; rw [hP, hs, hn]
  subst hPn
  rw [hout, Finset.sum_congr rfl fun t _ => hA t, Finset.sum_congr rfl fun t _ => hV t,
    ← sum_tiles_of_eq T R2 hT fun r => Spec.nll X L _ r, ← sum_tiles_of_eq T R2 hT fun r => Spec.valid (L r)]
  rfl

variable (m : (ℓ : Loc nD τ sig) → Buf (Elt Ideal) ℓ) (c : Dev nD)

abbrev Xf (r : Fin 65536) (d : Fin 256) : EReal := V0 m c (Proc.devRef .tc main_arg0) (ix2 r d)
abbrev Lf (r : Fin 65536) : BitVec 32 := V0 m c (Proc.devRef .tc main_arg2) (ix1 r)
abbrev Pf (k : Fin 128) (d : Fin 256) : EReal := V0 m c (Proc.devRef .tc main_arg4) (ix2 k d)

abbrev Xr (r : Fin 131072) (d : Fin 256) : EReal := V0 m c (Proc.devRef .tc main_arg1) (ix2 r d)
abbrev Lr (r : Fin 131072) : BitVec 32 := V0 m c (Proc.devRef .tc main_arg3) (ix1 r)
abbrev Pr (k : Fin 512) (d : Fin 256) : EReal := V0 m c (Proc.devRef .tc main_arg5) (ix2 k d)

end Cert.KernelIdeal.Val

end
-- ==== Proof.Val.Host.lean ====
import proofs.«418718_j72808285602381_2_alg».proof.Proof.Gen.KernelIdeal.Launch
import proofs.«418718_j72808285602381_2_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

noncomputable section

namespace Cert.KernelIdeal.Val

open Idealize.ShloMosaic Idealize.ShloMosaic.ValueIdx
open Cert.KernelIdeal Cert.KernelIdeal.Gen

namespace HostFti

variable {α : Type} {G C D T : ℕ}

-- An index below `C` is `0` when `C = 1`.
theorem val_eq_ite (k : Fin C) : k.val = if C = 1 then 0 else k.val :=
  (ite_eq_right_iff.2 fun h => (Nat.lt_one_iff.1 (Nat.lt_of_lt_of_eq k.isLt h)).symm).symm

-- A per-class vector laid out as a column reads the class's value.
theorem bcast_col_apply (x : (⟨1, ![C]⟩ : Shape).Idx → α) (h : (⟨1, ![C]⟩ : Shape).BroadcastsInDim ⟨2, ![C, 1]⟩ ![0])
    (k : Fin C) (z : Fin 1) : broadcastInDim ⟨2, ![C, 1]⟩ (no_index ![0]) h x (ix2 k z) = x (ix1 k) :=
  broadcastInDim_apply _ h x _ _ fun a => match a with
    | ⟨0, _⟩ => val_eq_ite k

-- A column copied along every row reads the column's entry of that row.
theorem bcast_row_apply (x : (⟨2, ![C, 1]⟩ : Shape).Idx → α) (h : (⟨2, ![C, 1]⟩ : Shape).BroadcastsInDim ⟨2, ![C, D]⟩ ![0, 1])
    (k : Fin C) (d : Fin D) : broadcastInDim ⟨2, ![C, D]⟩ (no_index ![0, 1]) h x (ix2 k d) = x (ix2 k 0) :=
  broadcastInDim_apply _ h x _ _ fun a => match a with
    | ⟨0, _⟩ => val_eq_ite k
    | ⟨1, _⟩ => (if_pos rfl).symm

-- A sum along one axis from a zero initial value is the sum over that axis's coordinate, the other coordinates kept.
theorem sum_apply {s t : Shape} {a : Fin s.rank} (x : FVec Ideal s .f32) (h : s.ReducesTo [a] t) (ht : 0 < t.rank)
    (hu : 0 < S_.numel) (j : t.Idx) (f : Fin (s.size a) → s.Idx)
    (hf : ∀ k c, (Shape.Reduces.lift ⟨h.1, ht, h.2⟩ j k c).val = (f k c).val) :
    Host.reduceAdd x (constant (F := Ideal) S_ .f32 0x00000000#32) h hu j = ∑ k, x (f k) := by
  rw [hostReduceAdd_apply, Ideal.hostReduceAdd_single h ⟨h.1, ht, h.2⟩]
  show Ideal.ofBits .f32 0x00000000#32 + _ = _
  rw [Ideal.ofBits_zero_f32, zero_add]
  exact Finset.sum_congr rfl fun k _ => congrArg x (funext fun c => Fin.ext (hf k c))

theorem sum_row_apply (x : FVec Ideal ⟨2, ![C, D]⟩ .f32) (h : (⟨2, ![C, D]⟩ : Shape).ReducesTo [1] ⟨1, ![C]⟩)
    (hu : 0 < S_.numel) (k : Fin C) :
    Host.reduceAdd x (constant (F := Ideal) S_ .f32 0x00000000#32) h hu (ix1 k) = ∑ d : Fin D, x (ix2 k d) :=
  sum_apply x h Nat.one_pos hu _ _ fun _ c => match c with
    | ⟨0, _⟩ | ⟨1, _⟩ => rfl

theorem sum_grp3_apply (x : FVec Ideal ⟨3, ![G, C, D]⟩ .f32) (h : (⟨3, ![G, C, D]⟩ : Shape).ReducesTo [0] ⟨2, ![C, D]⟩)
    (hu : 0 < S_.numel) (k : Fin C) (d : Fin D) :
    Host.reduceAdd x (constant (F := Ideal) S_ .f32 0x00000000#32) h hu (ix2 k d) = ∑ i : Fin G, x (ix3 i k d) :=
  sum_apply x h Nat.two_pos hu _ _ fun _ c => match c with
    | ⟨0, _⟩ | ⟨1, _⟩ | ⟨2, _⟩ => rfl

theorem sum_grp2_apply (x : FVec Ideal ⟨2, ![G, C]⟩ .f32) (h : (⟨2, ![G, C]⟩ : Shape).ReducesTo [0] ⟨1, ![C]⟩)
    (hu : 0 < S_.numel) (k : Fin C) :
    Host.reduceAdd x (constant (F := Ideal) S_ .f32 0x00000000#32) h hu (ix1 k) = ∑ i : Fin G, x (ix2 i k) :=
  sum_apply x h Nat.one_pos hu _ _ fun _ c => match c with
    | ⟨0, _⟩ | ⟨1, _⟩ => rfl

-- A sum of a vector from a zero initial value is the sum of its entries.
theorem sum_tile_apply (x : FVec Ideal ⟨1, ![T]⟩ .f32) (h : (⟨1, ![T]⟩ : Shape).ReducesTo [0] S_) (hu : 0 < S_.numel) :
    Host.reduceAdd x (constant (F := Ideal) S_ .f32 0x00000000#32) h hu ix0 = ∑ t : Fin T, x (ix1 t) := by
  rw [hostReduceAdd_apply, Ideal.hostReduceAdd_total h (fun b => b.elim0)]
  show Ideal.ofBits .f32 0x00000000#32 + ∑ i : (⟨1, ![T]⟩ : Shape).Idx, x i = _
  rw [Ideal.ofBits_zero_f32, zero_add]
  exact Fintype.sum_equiv ⟨fun i => i 0, ix1, fun i => (eq_ix1 i).symm, fun _ => rfl⟩ _ _
    fun i => congrArg x (eq_ix1 i)

-- Column 0 of each class's row, as a group-by-class array.
theorem lane0_apply (x : (⟨3, ![G, C, 128]⟩ : Shape).Idx → α) (hs : (⟨3, ![G, C, 128]⟩ : Shape).Slices ![0, 0, 0] ⟨3, ![G, C, 1]⟩)
    (hc : (⟨3, ![G, C, 1]⟩ : Shape).ShapeCasts ⟨2, ![G, C]⟩) (i : Fin G) (k : Fin C) :
    shapeCast (no_index ⟨2, ![G, C]⟩) (extractStridedSlice ⟨3, ![G, C, 1]⟩ ![0, 0, 0] x hs) hc (ix2 i k) = x (ix3 i k 0) := by
  refine (shapeCast_apply _ hc (ix2 i k) (ix3 i k 0) ?_).trans ?_
  · rw [Shape.rowMajor_val_three, Shape.rowMajor_val_two]
    exact Nat.mul_one (i.val * C + k.val)
  · exact extractStridedSlice_apply _ x hs (ix3 i k 0) (ix3 i k 0) fun a => match a with
      | ⟨0, _⟩ | ⟨1, _⟩ | ⟨2, _⟩ => (Nat.zero_add _).symm

-- A vector reshaped to a column keeps its entries.
theorem reshape_col_apply (x : (⟨1, ![C]⟩ : Shape).Idx → α) (h : (⟨1, ![C]⟩ : Shape).ShapeCasts ⟨2, ![C, 1]⟩) (r : Fin C) :
    shapeCast ⟨2, ![C, 1]⟩ x h (ix2 r 0) = x (ix1 r) := by
  refine shapeCast_apply _ h (ix2 r 0) (ix1 r) ?_
  rw [Shape.rowMajor_val_one, Shape.rowMajor_val_two]
  exact (Nat.mul_one r.val).symm

-- Column `o` of the tiles' one-row results, as a vector over the tiles.
theorem lane_apply (x : (⟨3, ![T, 1, 128]⟩ : Shape).Idx → α) (o : ℕ) (ho : o < 128)
    (h1 : (⟨3, ![T, 1, 128]⟩ : Shape).ShapeCasts ⟨2, ![T, 128]⟩) (h2 : (⟨2, ![T, 128]⟩ : Shape).Slices ![0, o] ⟨2, ![T, 1]⟩)
    (h3 : (⟨2, ![T, 1]⟩ : Shape).ShapeCasts ⟨1, ![T]⟩) (t : Fin T) :
    shapeCast ⟨1, ![T]⟩ (extractStridedSlice ⟨2, ![T, 1]⟩ ![0, o] (shapeCast ⟨2, ![T, 128]⟩ x h1) h2) h3 (ix1 t)
      = x (ix3 t 0 ⟨o, ho⟩) := by
  refine (shapeCast_apply _ h3 (ix1 t) (ix2 t 0) ?_).trans ((slice2_axis1_apply o _ h2 t 0 ⟨o, ho⟩ rfl).trans
    (shapeCast_apply _ h1 _ (ix3 t 0 ⟨o, ho⟩) ?_))
  · rw [Shape.rowMajor_val_two, Shape.rowMajor_val_one]
    exact Nat.mul_one t.val
  · rw [Shape.rowMajor_val_three, Shape.rowMajor_val_two]
    exact congrArg (· * 128 + o) (Nat.mul_one t.val)

theorem hostSqrt_apply {s : Shape} {φ : FTy} (a : FVec Ideal s φ) (i : s.Idx) : Host.sqrt a i = Ideal.sqrt (a i) := rfl

-- A select on "the value is above zero" is the `if` on that comparison.
theorem select_ogt_zero (a : EReal) (A B : α) : Scalar.select (Ideal.cmp .ogt a 0) A B = if 0 < a then A else B := by
  show (if BitVec.ofBool (decide (0 < a)) = 1 then A else B) = _
  by_cases h : 0 < a <;> simp [h]

theorem bcast_scalar_apply {t : Shape} (h : (⟨0, ![]⟩ : Shape).BroadcastsInDim t ![]) (x : (⟨0, ![]⟩ : Shape).Idx → α) (j : t.Idx) :
    broadcastInDim t (no_index ![]) h x j = x ix0 :=
  broadcastInDim_scalar_apply h x j

end HostFti

open HostFti

theorem host0_labels (W : Valuation τ sig (Elt Ideal)) (r : Fin 65536) :
    StableHlo.after (hostOps0 (F := Ideal)) W (Proc.devRef .tc main_v0) (ix2 r 0)
      = W (Proc.devRef .tc main_arg2) (ix1 r) := by
  dsimp only [hostOps0]
  after_results
  exact reshape_col_apply _ _ r

theorem host2_2_labels (W : Valuation τ sig (Elt Ideal)) (r : Fin 65536) :
    StableHlo.after (hostOps2_2 (F := Ideal)) W (Proc.devRef .tc main_v72) (ix2 r 0)
      = W (Proc.devRef .tc main_arg2) (ix1 r) := by
  dsimp only [hostOps2_2]
  after_results
  exact reshape_col_apply _ _ r

-- The class update is `Spec.protoUpd` of the summed sums, the summed counts and the old prototypes.
theorem host1_protos (W : Valuation τ sig (Elt Ideal)) (k : Fin 128) (d : Fin 256) :
    StableHlo.after (hostOps1_1 (F := Ideal)) (StableHlo.after (hostOps1 (F := Ideal)) W) (Proc.devRef .tc main_v35) (ix2 k d)
      = Spec.protoUpd (fun k d => ∑ i : Fin 2, W (Proc.devRef .tc main_v1_0) (ix3 i k d))
          (fun k => ∑ i : Fin 2, W (Proc.devRef .tc main_v1_1) (ix3 i k 0))
          (fun k d => W (Proc.devRef .tc main_arg4) (ix2 k d)) k d := by
  dsimp only [hostOps1, hostOps1_1]
  after_results_simp
  simp only [cast_eq, Spec.protoUpd, Spec.nrm, select_apply, cmpf_apply, hostDivf_apply, addf_apply, mulf_apply, maximumf_apply,
    hostSqrt_apply, constant_apply, bcast_scalar_apply, bcast_row_apply, bcast_col_apply, sum_row_apply, sum_grp3_apply,
    sum_grp2_apply, Ideal.cmpf_def, Ideal.ofBits_zero_f32, select_ogt_zero,
    ← lane0_apply (W (Proc.devRef .tc main_v1_1)) (by decide) (by decide)]
  rfl

-- The final quotient: the tiles' loss terms summed, over the larger of their summed valid counts and one.
theorem host3_loss (W : Valuation τ sig (Elt Ideal)) :
    StableHlo.after (hostOps3 (F := Ideal)) W (Proc.devRef .tc main_v82) ix0
      = Ideal.div (∑ t : Fin 8, W (Proc.devRef .tc main_v73) (ix3 t 0 0))
          (max (∑ t : Fin 8, W (Proc.devRef .tc main_v73) (ix3 t 0 1)) Spec.one) := by
  dsimp only [hostOps3]
  after_results
  rw [hostDivf_apply, maximumf_apply, sum_tile_apply, sum_tile_apply, constant_apply]
  exact congrArg₂ Ideal.div
    (Finset.sum_congr rfl fun t _ => lane_apply _ 0 (by decide) _ _ _ t)
    (congrArg (max · Spec.one) (Finset.sum_congr rfl fun t _ => lane_apply _ 1 (by decide) _ _ _ t))

end Cert.KernelIdeal.Val

end
-- ==== Proof.Val.HostRcl.lean ====
import proofs.«418718_j72808285602381_2_alg».proof.Proof.Val.Host

noncomputable section

namespace Cert.KernelIdeal.Val

open Idealize.ShloMosaic Idealize.ShloMosaic.ValueIdx
open Cert.KernelIdeal Cert.KernelIdeal.Gen
open HostFti

theorem host1_2_labels (W : Valuation τ sig (Elt Ideal)) (r : Fin 131072) :
    StableHlo.after (hostOps1_2 (F := Ideal)) W (Proc.devRef .tc main_v36) (ix2 r 0)
      = W (Proc.devRef .tc main_arg3) (ix1 r) := by
  dsimp only [hostOps1_2]
  after_results
  exact reshape_col_apply _ _ r

theorem host3_labels (W : Valuation τ sig (Elt Ideal)) (r : Fin 131072) :
    StableHlo.after (hostOps3 (F := Ideal)) W (Proc.devRef .tc main_v83) (ix2 r 0)
      = W (Proc.devRef .tc main_arg3) (ix1 r) := by
  dsimp only [hostOps3]
  after_results
  exact reshape_col_apply _ _ r

-- The class update is `Spec.protoUpd` of the summed sums, the summed counts and the old prototypes.
theorem host2_protos (W : Valuation τ sig (Elt Ideal)) (k : Fin 512) (d : Fin 256) :
    StableHlo.after (hostOps2_1 (F := Ideal)) (StableHlo.after (hostOps2 (F := Ideal)) W) (Proc.devRef .tc main_v71) (ix2 k d)
      = Spec.protoUpd (fun k d => ∑ i : Fin 2, W (Proc.devRef .tc main_v37_0) (ix3 i k d))
          (fun k => ∑ i : Fin 2, W (Proc.devRef .tc main_v37_1) (ix3 i k 0))
          (fun k d => W (Proc.devRef .tc main_arg5) (ix2 k d)) k d := by
  dsimp only [hostOps2, hostOps2_1]
  after_results_simp
  simp only [cast_eq, Spec.protoUpd, Spec.nrm, select_apply, cmpf_apply, hostDivf_apply, addf_apply, mulf_apply, maximumf_apply,
    hostSqrt_apply, constant_apply, bcast_scalar_apply, bcast_row_apply, bcast_col_apply, sum_row_apply, sum_grp3_apply,
    sum_grp2_apply, Ideal.cmpf_def, Ideal.ofBits_zero_f32, select_ogt_zero,
    ← lane0_apply (W (Proc.devRef .tc main_v37_1)) (by decide) (by decide)]
  rfl

-- The final quotient: the tiles' loss terms summed, over the larger of their summed valid counts and one.
theorem host4_loss (W : Valuation τ sig (Elt Ideal)) :
    StableHlo.after (hostOps4 (F := Ideal)) W (Proc.devRef .tc main_v93) ix0
      = Ideal.div (∑ t : Fin 32, W (Proc.devRef .tc main_v84) (ix3 t 0 0))
          (max (∑ t : Fin 32, W (Proc.devRef .tc main_v84) (ix3 t 0 1)) Spec.one) := by
  dsimp only [hostOps4]
  after_results
  rw [hostDivf_apply, maximumf_apply, sum_tile_apply, sum_tile_apply, constant_apply]
  exact congrArg₂ Ideal.div
    (Finset.sum_congr rfl fun t _ => lane_apply _ 0 (by decide) _ _ _ t)
    (congrArg (max · Spec.one) (Finset.sum_congr rfl fun t _ => lane_apply _ 1 (by decide) _ _ _ t))

end Cert.KernelIdeal.Val

end
-- ==== Proof.Val.UpdF.lean ====
import proofs.«418718_j72808285602381_2_alg».proof.Proof.KI.Upd0
import proofs.«418718_j72808285602381_2_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b)) (c : Dev nD)

namespace Cert.KernelIdeal.Val.UpdG

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    rw [Shape.rowMajor_val_one, Shape.rowMajor_val_two]
    show i.val = i.val * 1 + u.val
    omega)

theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

theorem ind_scalar (a b : BitVec 32) :
    (FloatOps.sitofp (F := Ideal) .f32 ((IntOp.cmpi .eq a b).setWidth 32) : EReal) = if a = b then 1 else 0 := by
  show (((((BitVec.ofBool (a == b)).setWidth 32).toInt : ℤ) : ℝ) : EReal) = _
  by_cases h : a = b
  · rw [if_pos h, beq_iff_eq.mpr h]; simp
  · rw [if_neg h, beq_eq_false_iff_ne.mpr h]; simp

theorem emb_zero {q s v : ℕ} (hq : q = 0) : q * s + 1 * v = v := by subst hq; omega

theorem in_blk_zero {q s v : ℕ} (hq : q = 0) (hv : v < s) : q * s ≤ v ∧ v < q * s + s := by subst hq; omega

theorem nrm_congr {B B' D : ℕ} (x : Fin B → Fin D → EReal) (x' : Fin B' → Fin D → EReal) (r : Fin B) (r' : Fin B')
    (h : ∀ q, x r q = x' r' q) (d : Fin D) : Spec.nrm x r d = Spec.nrm x' r' d := by
  simp only [Spec.nrm, h]

end Cert.KernelIdeal.Val.UpdG

namespace Cert.KernelIdeal.Val.UpdF

open UpdG

theorem laneSum_apply (y : FVec Ideal S8192x256 .f32) (r : Fin 8192) :
    multiReduction (F := Ideal) .add [1] S8192 y 0x00000000#32 reduces_S8192x256_S8192 (.inl rfl) rfl (ix1 r)
      = ∑ q : Fin 256, y (ix2 r q) :=
  (Ideal.multiReduction_add_single y 0x00000000#32 reduces_S8192x256_S8192 (.inl rfl) rfl (ix1 r)).trans
    (Finset.sum_congr rfl fun q _ => congrArg y (funext fun a => match a with
      | ⟨0, _⟩ => Fin.ext rfl
      | ⟨1, _⟩ => Fin.ext rfl))

theorem rowSum_apply (y : FVec Ideal S8192x128 .f32) (k : Fin 128) :
    multiReduction (F := Ideal) .add [0] S128 y 0x00000000#32 reduces_S8192x128_S128 (.inl rfl) rfl (ix1 k)
      = ∑ r : Fin 8192, y (ix2 r k) :=
  (Ideal.multiReduction_add_single y 0x00000000#32 reduces_S8192x128_S128 (.inl rfl) rfl (ix1 k)).trans
    (Finset.sum_congr rfl fun r _ => congrArg y (funext fun a => match a with
      | ⟨0, _⟩ => Fin.ext rfl
      | ⟨1, _⟩ => Fin.ext rfl))

theorem rowsProduct_apply (A : FVec Ideal S8192x128 .f32) (B : FVec Ideal S8192x256 .f32) (k : Fin 128) (d : Fin 256) :
    matmul dot_S8192x128_S8192x256_S128x256_0_0_1_1_n_n (some .fp32) A B (constant (F := Ideal) S128x256 .f32 0x00000000#32) (ix2 k d)
      = ∑ r : Fin 8192, A (ix2 r k) * B (ix2 r d) := by
  simp only [matmul]
  rw [Ideal.matmul_constant_zero_apply, ← Equiv.sum_comp (contrEquiv1 dot_S8192x128_S8192x256_S128x256_0_0_1_1_n_n 8192 rfl rfl).symm]
  refine Finset.sum_congr rfl fun r _ => ?_
  have hr := contrEquiv1_symm_val dot_S8192x128_S8192x256_S128x256_0_0_1_1_n_n 8192 rfl rfl r
  exact congrArg₂ (· * ·) (congrArg A (funext fun a => Fin.ext (match a with | ⟨0, _⟩ => hr | ⟨1, _⟩ => rfl)))
    (congrArg B (funext fun a => Fin.ext (match a with | ⟨0, _⟩ => hr | ⟨1, _⟩ => rfl)))

theorem indicator_apply (l : IVec S8192x1 32) (r : Fin 8192) (k : Fin 128) :
    k0_pay5 (F := Ideal) l (ix2 r k) = Spec.oh (C := 128) (l (ix2 r 0)) k := by
  unfold k0_pay5
  dsimp only
  show FloatOps.sitofp (F := Ideal) .f32 ((IntOp.cmpi .eq (broadcastTo S8192x128 (shapeCast S8192x1 l shapeCasts_S8192x1_S8192x1) broadcasts_S8192x1_S8192x128 (ix2 r k)) (iota .tc S8192x128 32 [1] iota_S8192x128_d1_w32 (ix2 r k))).setWidth 32) = _
  rw [broadcastTo_a1_ab_apply, shapeCast_self, iota_single_apply, ind_scalar]
  rfl

theorem zeroSums_apply (k : Fin 128) (d : Fin 256) : k0_pay3 (F := Ideal) (ix2 k d) = 0 := by
  unfold k0_pay3
  rw [shapeCast_self]
  exact Ideal.ofBits_zero_f32
theorem zeroCounts_apply (k : Fin 128) (j : Fin 0x80) : k0_pay4 (F := Ideal) (ix2 k j) = 0 := by
  unfold k0_pay4
  rw [shapeCast_self]
  exact Ideal.ofBits_zero_f32

theorem tileSums_apply (x : FVec Ideal S8192x256 .f32) (l : IVec S8192x1 32) (s : FVec Ideal S128x256 .f32) (k : Fin 128) (d : Fin 256) :
    k0_pay6 (F := Ideal) x l s (ix2 k d)
      = s (ix2 k d) + ∑ r : Fin 8192, Spec.oh (C := 128) (l (ix2 r 0)) k * Spec.nrm (fun r d => x (ix2 r d)) r d := by
  unfold k0_pay6
  dsimp only
  rw [shapeCast_self]
  refine (congrArg (_ + ·) (rowsProduct_apply _ _ k d)).trans ?_
  refine congrArg (_ + ·) (Finset.sum_congr rfl fun r _ => ?_)
  rw [indicator_apply]
  refine congrArg (Spec.oh (C := 128) (l (ix2 r 0)) k * ·) ?_
  refine (congrArg (Ideal.div (x (ix2 r d))) (broadcastTo_a1_ab_apply _ _ r d)).trans ?_
  refine congrArg (fun z => Ideal.div (x (ix2 r d)) (max (Ideal.sqrt z) Spec.eps)) ?_
  refine (shapeCast_a_a1_apply _ _ r (0 : Fin 1)).trans ?_
  exact laneSum_apply _ r

theorem tileCounts_apply (l : IVec S8192x1 32) (n : FVec Ideal S128x128 .f32) (k : Fin 128) (j : Fin 0x80) :
    k0_pay7 (F := Ideal) l n (ix2 k j) = n (ix2 k j) + ∑ r : Fin 8192, Spec.oh (C := 128) (l (ix2 r 0)) k := by
  unfold k0_pay7
  dsimp only
  rw [shapeCast_self]
  refine congrArg (_ + ·) ?_
  refine (broadcastTo_a1_ab_apply _ _ k j).trans ?_
  rw [shapeCast_self]
  refine (shapeCast_a_a1_apply _ _ k (0 : Fin 1)).trans ?_
  refine (rowSum_apply _ k).trans ?_
  exact Finset.sum_congr rfl fun r _ => indicator_apply l r k

theorem outSums_apply (v : FVec Ideal S128x256 .f32) (u : Fin 1) (k : Fin 128) (d : Fin 256) :
    k0_pay1 (F := Ideal) v (ix3 u k d) = v (ix2 k d) := by
  unfold k0_pay1
  exact shapeCast_ab_1ab_apply v _ u k d
theorem outCounts_apply (v : FVec Ideal S128x128 .f32) (u : Fin 1) (k : Fin 128) (j : Fin 0x80) :
    k0_pay2 (F := Ideal) v (ix3 u k j) = v (ix2 k j) := by
  unfold k0_pay2
  exact shapeCast_ab_1ab_apply v _ u k j

abbrev rowsF : Fin 65536 → Fin 256 → EReal := fun r d => (V c main_arg0 : S65536x256.Idx → EReal) (ix2 r d)
abbrev lblF : Fin 65536 → BitVec 32 := fun r => (V c main_v0 : S65536x1.Idx → BitVec 32) (ix2 r 0)

abbrev rowF (i : Fin 2) (j : Fin 4) (k : Fin 8192) : Fin 65536 :=
  ⟨(i.val * 4 + j.val) * 8192 + k.val, by omega⟩

theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = 0 ∧ win0_3.index t (2 : Fin 3) = 0 :=
  (by decide +kernel : ∀ t : Fin grid0.N, _)

theorem xblk_apply (t : Fin cfg0.N) (r : Fin 8192) (d : Fin 256) (g : Fin 65536)
    (hg : g.val = t.val * 8192 + r.val) : Hand.xblk0 V c t (ix2 r d) = rowsF V c g d := by
  obtain ⟨e0, e1, -⟩ := idx_facts0 t
  show V c main_arg0 _ = V c main_arg0 _
  congr 1
  funext a
  apply Fin.ext
  match a with
  | ⟨0, _⟩ => show win0_0.index t 0 * 8192 + 1 * r.val = g.val; rw [e0, hg]; omega
  | ⟨1, _⟩ => exact emb_zero e1

theorem lblk_apply (t : Fin cfg0.N) (r : Fin 8192) (g : Fin 65536)
    (hg : g.val = t.val * 8192 + r.val) : Hand.lblk0 V c t (ix2 r 0) = lblF V c g := by
  obtain ⟨-, -, e0, e1, -⟩ := idx_facts0 t
  show V c main_v0 _ = V c main_v0 _
  congr 1
  funext a
  apply Fin.ext
  match a with
  | ⟨0, _⟩ => show win0_1.index t 0 * 8192 + 1 * r.val = g.val; rw [e0, hg]; omega
  | ⟨1, _⟩ => exact emb_zero e1

def tileSum (k : Fin 128) (d : Fin 256) (m : ℕ) : EReal :=
  if h : m < cfg0.N then
    ∑ r : Fin 8192, Spec.oh (C := 128) (Hand.lblk0 V c ⟨m, h⟩ (ix2 r 0)) k * Spec.nrm (fun r d => Hand.xblk0 V c ⟨m, h⟩ (ix2 r d)) r d
  else 0
def tileCount (k : Fin 128) (m : ℕ) : EReal :=
  if h : m < cfg0.N then ∑ r : Fin 8192, Spec.oh (C := 128) (Hand.lblk0 V c ⟨m, h⟩ (ix2 r 0)) k else 0

theorem acc_first (n : ℕ) (h : n < cfg0.N) (e : n % 4 = 0) :
    Hand.acc0 V c n h = (k0_pay6 (Hand.xblk0 V c ⟨n, h⟩) (Hand.lblk0 V c ⟨n, h⟩) (k0_pay3 (F := Ideal)), k0_pay7 (Hand.lblk0 V c ⟨n, h⟩) (k0_pay4 (F := Ideal))) := by
  cases n with
  | zero => rfl
  | succ n => exact if_pos e

-- A running total that restarts where a run begins and otherwise adds the point's term is the sum of its run's terms so far.
theorem run_total {N : ℕ} (a : (n : ℕ) → n < N → EReal) (M : ℕ → EReal)
    (h0 : ∀ n h, n % 4 = 0 → a n h = M n)
    (hs : ∀ n h, ¬(n + 1) % 4 = 0 → a (n + 1) h = a n (Nat.lt_of_succ_lt h) + M (n + 1)) :
    ∀ n h, a n h = ∑ j ∈ Finset.range (n % 4 + 1), M (n / 4 * 4 + j)
  | 0, h => (h0 0 h rfl).trans (Finset.sum_range_one _).symm
  | n + 1, h => by
    by_cases e : (n + 1) % 4 = 0
    · rw [h0 _ h e, e, Finset.sum_range_one, show (n + 1) / 4 * 4 + 0 = n + 1 by omega]
    · rw [hs n h e, run_total a M h0 hs n _, show (n + 1) % 4 = n % 4 + 1 by omega, show (n + 1) / 4 = n / 4 by omega,
        Finset.sum_range_succ _ (n % 4 + 1), show n / 4 * 4 + (n % 4 + 1) = n + 1 by omega]

theorem acc_sums (k : Fin 128) (d : Fin 256) (n : ℕ) (h : n < cfg0.N) :
    (Hand.acc0 V c n h).1 (ix2 k d) = ∑ j ∈ Finset.range (n % 4 + 1), tileSum V c k d (n / 4 * 4 + j) :=
  run_total (fun n h => (Hand.acc0 V c n h).1 (ix2 k d)) (tileSum V c k d)
    (fun n h e => by
      rw [acc_first V c n h e]
      dsimp only
      rw [tileSums_apply, zeroSums_apply, zero_add, tileSum, dif_pos h])
    (fun n h e => by
      rw [Hand.acc0, if_neg e]
      dsimp only
      rw [tileSums_apply, tileSum, dif_pos h]) n h

theorem acc_counts (k : Fin 128) (l : Fin 0x80) (n : ℕ) (h : n < cfg0.N) :
    (Hand.acc0 V c n h).2 (ix2 k l) = ∑ j ∈ Finset.range (n % 4 + 1), tileCount V c k (n / 4 * 4 + j) :=
  run_total (fun n h => (Hand.acc0 V c n h).2 (ix2 k l)) (tileCount V c k)
    (fun n h e => by
      rw [acc_first V c n h e]
      dsimp only
      rw [tileCounts_apply, zeroCounts_apply, zero_add, tileCount, dif_pos h])
    (fun n h e => by
      rw [Hand.acc0, if_neg e]
      dsimp only
      rw [tileCounts_apply, tileCount, dif_pos h]) n h

def groupSums (i : Fin 2) (k : Fin 128) (d : Fin 256) : EReal :=
  ∑ j : Fin 4, ∑ r : Fin 8192, Spec.oh (C := 128) (lblF V c (rowF i j r)) k * Spec.nrm (rowsF V c) (rowF i j r) d
def groupCounts (i : Fin 2) (k : Fin 128) : EReal :=
  ∑ j : Fin 4, ∑ r : Fin 8192, Spec.oh (C := 128) (lblF V c (rowF i j r)) k

abbrev sumsArr : S2x128x256.Idx → EReal := fun z =>
  groupSums V c ⟨(z 0).val, (z 0).isLt⟩ ⟨(z 1).val, (z 1).isLt⟩ ⟨(z 2).val, (z 2).isLt⟩
abbrev countsArr : S2x128x128.Idx → EReal := fun z =>
  groupCounts V c ⟨(z 0).val, (z 0).isLt⟩ ⟨(z 1).val, (z 1).isLt⟩

theorem tile_lt (i : Fin 2) (j : Fin 4) : i.val * 4 + j.val < cfg0.N := by rw [show cfg0.N = 8 from N_0]; omega

theorem acc_sums_last (k : Fin 128) (d : Fin 256) (t : Fin cfg0.N) (h3 : t.val % 4 = 3) (i : Fin 2)
    (hi : i.val = t.val / 4) : (Hand.acc0 V c t.val t.isLt).1 (ix2 k d) = groupSums V c i k d := by
  rw [acc_sums V c k d t.val t.isLt, h3, ← hi, Finset.sum_range]
  refine Finset.sum_congr rfl fun j _ => ?_
  rw [tileSum, dif_pos (tile_lt i j)]
  refine Finset.sum_congr rfl fun r _ => ?_
  rw [lblk_apply V c ⟨_, tile_lt i j⟩ r (rowF i j r) rfl]
  exact congrArg (_ * ·) (nrm_congr _ _ r (rowF i j r) (fun q => xblk_apply V c ⟨_, tile_lt i j⟩ r q (rowF i j r) rfl) d)

theorem acc_counts_last (k : Fin 128) (l : Fin 0x80) (t : Fin cfg0.N) (h3 : t.val % 4 = 3) (i : Fin 2)
    (hi : i.val = t.val / 4) : (Hand.acc0 V c t.val t.isLt).2 (ix2 k l) = groupCounts V c i k := by
  rw [acc_counts V c k l t.val t.isLt, h3, ← hi, Finset.sum_range]
  refine Finset.sum_congr rfl fun j _ => ?_
  rw [tileCount, dif_pos (tile_lt i j)]
  exact Finset.sum_congr rfl fun r _ => by rw [lblk_apply V c ⟨_, tile_lt i j⟩ r (rowF i j r) rfl]

theorem out_sums_entry (t : Fin cfg0.N) (h3 : t.val % 4 = 3) (y : S1x128x256.Idx) (z : S2x128x256.Idx)
    (hz0 : (z 0).val = t.val / 4) (hz1 : (z 1).val = (y 1).val) (hz2 : (z 2).val = (y 2).val) :
    k0_pay1 (Hand.acc0 V c t.val t.isLt).1 y = sumsArr V c z := by
  obtain ⟨u, k, d, rfl⟩ : ∃ (u : Fin 1) (k : Fin 128) (d : Fin 256), y = ix3 u k d := ⟨y 0, y 1, y 2, eq_ix3 y⟩
  rw [outSums_apply, acc_sums_last V c k d t h3 ⟨(z 0).val, (z 0).isLt⟩ hz0]
  show groupSums V c _ k d = groupSums V c _ _ _
  rw [show k = ⟨(z 1).val, (z 1).isLt⟩ from Fin.ext hz1.symm, show d = ⟨(z 2).val, (z 2).isLt⟩ from Fin.ext hz2.symm]

theorem out_counts_entry (t : Fin cfg0.N) (h3 : t.val % 4 = 3) (y : S1x128x128.Idx) (z : S2x128x128.Idx)
    (hz0 : (z 0).val = t.val / 4) (hz1 : (z 1).val = (y 1).val) :
    k0_pay2 (Hand.acc0 V c t.val t.isLt).2 y = countsArr V c z := by
  obtain ⟨u, k, l, rfl⟩ : ∃ (u : Fin 1) (k : Fin 128) (l : Fin 0x80), y = ix3 u k l := ⟨y 0, y 1, y 2, eq_ix3 y⟩
  rw [outCounts_apply, acc_counts_last V c k l t h3 ⟨(z 0).val, (z 0).isLt⟩ hz0]
  show groupCounts V c _ k = groupCounts V c _ _
  rw [show k = ⟨(z 1).val, (z 1).isLt⟩ from Fin.ext hz1.symm]

theorem flushed_sums (t : Fin cfg0.N) (hf : (cfg0.win 2).flush t = true) :
    (Hand.dat0 V c).flushed 2 t = ((cfg0.win 2).blk t).view.read (Elt Ideal) (sumsArr V c) := by
  obtain ⟨-, -, -, -, e0, e1, e2, -⟩ := idx_facts0 t
  show (cfg0.win 2).cut (grid0.coords t) ((Hand.dat0 V c).after 2 t) = _
  rw [Hand.after0_2]
  funext y
  rw [View.read_apply]
  have : (y 0).val < 1 := (y 0).isLt
  refine out_sums_entry V c t ((flush0_2 t).mp hf) y _ ?_ ?_ ?_
  · show win0_2.index t 0 * 1 + 1 * (y 0).val = t.val / 4
    rw [e0]; omega
  · exact emb_zero e1
  · exact emb_zero e2
theorem flushed_counts (t : Fin cfg0.N) (hf : (cfg0.win 3).flush t = true) :
    (Hand.dat0 V c).flushed 3 t = ((cfg0.win 3).blk t).view.read (Elt Ideal) (countsArr V c) := by
  obtain ⟨-, -, -, -, -, -, -, e0, e1, -⟩ := idx_facts0 t
  show (cfg0.win 3).cut (grid0.coords t) ((Hand.dat0 V c).after 3 t) = _
  rw [Hand.after0_3]
  funext y
  rw [View.read_apply]
  have : (y 0).val < 1 := (y 0).isLt
  refine out_counts_entry V c t ((flush0_3 t).mp hf) y _ ?_ ?_
  · show win0_3.index t 0 * 1 + 1 * (y 0).val = t.val / 4
    rw [e0]; omega
  · exact emb_zero e1

theorem cover_sums (z : S2x128x256.Idx) :
    ∃ t : Fin cfg0.N, (cfg0.win 2).flush t = true ∧ z ∈ ((cfg0.win 2).blk t).view.set := by
  have h0 : (z 0).val < 2 := (z 0).isLt
  have h1 : (z 1).val < 128 := (z 1).isLt
  have h2 : (z 2).val < 256 := (z 2).isLt
  have ht : (z 0).val * 4 + 3 < cfg0.N := by rw [show cfg0.N = 8 from N_0]; omega
  obtain ⟨-, -, -, -, e0, e1, e2, -⟩ := idx_facts0 ⟨_, ht⟩
  refine ⟨⟨_, ht⟩, (flush0_2 _).mpr (by show ((z 0).val * 4 + 3) % 4 = 3; omega), ?_⟩
  show z ∈ ((View.whole main_v1_0).slice (win0_2.rect ⟨_, ht⟩)).set
  rw [View.set_slice_whole, Rect.mem_set_unit]
  intro a
  match a with
  | ⟨0, _⟩ =>
    show win0_2.index _ 0 * 1 ≤ (z 0).val ∧ (z 0).val < win0_2.index _ 0 * 1 + 1
    rw [e0]; dsimp only; omega
  | ⟨1, _⟩ => exact in_blk_zero e1 h1
  | ⟨2, _⟩ => exact in_blk_zero e2 h2
theorem cover_counts (z : S2x128x128.Idx) :
    ∃ t : Fin cfg0.N, (cfg0.win 3).flush t = true ∧ z ∈ ((cfg0.win 3).blk t).view.set := by
  have h0 : (z 0).val < 2 := (z 0).isLt
  have h1 : (z 1).val < 128 := (z 1).isLt
  have h2 : (z 2).val < 0x80 := (z 2).isLt
  have ht : (z 0).val * 4 + 3 < cfg0.N := by rw [show cfg0.N = 8 from N_0]; omega
  obtain ⟨-, -, -, -, -, -, -, e0, e1, e2⟩ := idx_facts0 ⟨_, ht⟩
  refine ⟨⟨_, ht⟩, (flush0_3 _).mpr (by show ((z 0).val * 4 + 3) % 4 = 3; omega), ?_⟩
  show z ∈ ((View.whole main_v1_1).slice (win0_3.rect ⟨_, ht⟩)).set
  rw [View.set_slice_whole, Rect.mem_set_unit]
  intro a
  match a with
  | ⟨0, _⟩ =>
    show win0_3.index _ 0 * 1 ≤ (z 0).val ∧ (z 0).val < win0_3.index _ 0 * 1 + 1
    rw [e0]; dsimp only; omega
  | ⟨1, _⟩ => exact in_blk_zero e1 h1
  | ⟨2, _⟩ => exact in_blk_zero e2 h2

end Cert.KernelIdeal.Val.UpdF

namespace Cert.KernelIdeal.Val

open UpdF

theorem upd0_sums (i : Fin 2) (k : Fin 128) (d : Fin 256) :
    (Hand.dat0 V c).arrAt 2 cfg0.N (ix3 i k d)
      = ∑ j : Fin 4, ∑ r : Fin 8192, Spec.oh (C := 128) (lblF V c (rowF i j r)) k * Spec.nrm (rowsF V c) (rowF i j r) d :=
  congrFun ((Hand.dat0 V c).arrAt_eq_of_cover 2 (sumsArr V c) (flushed_sums V c) cover_sums) _

theorem upd0_counts (i : Fin 2) (k : Fin 128) (l : Fin 0x80) :
    (Hand.dat0 V c).arrAt 3 cfg0.N (ix3 i k l)
      = ∑ j : Fin 4, ∑ r : Fin 8192, Spec.oh (C := 128) (lblF V c (rowF i j r)) k :=
  congrFun ((Hand.dat0 V c).arrAt_eq_of_cover 3 (countsArr V c) (flushed_counts V c) cover_counts) _

end Cert.KernelIdeal.Val

end
-- ==== Proof.Val.UpdR.lean ====
import proofs.«418718_j72808285602381_2_alg».proof.Proof.KI.Upd1
import proofs.«418718_j72808285602381_2_alg».proof.Proof.Val.UpdF
import proofs.«418718_j72808285602381_2_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b)) (c : Dev nD)

namespace Cert.KernelIdeal.Val.UpdR

open UpdG

theorem laneSum_apply (y : FVec Ideal S4096x256 .f32) (r : Fin 4096) :
    multiReduction (F := Ideal) .add [1] S4096 y 0x00000000#32 reduces_S4096x256_S4096 (.inl rfl) rfl (ix1 r)
      = ∑ q : Fin 256, y (ix2 r q) :=
  (Ideal.multiReduction_add_single y 0x00000000#32 reduces_S4096x256_S4096 (.inl rfl) rfl (ix1 r)).trans
    (Finset.sum_congr rfl fun q _ => congrArg y (funext fun a => match a with
      | ⟨0, _⟩ => Fin.ext rfl
      | ⟨1, _⟩ => Fin.ext rfl))

theorem rowSum_apply (y : FVec Ideal S4096x512 .f32) (k : Fin 512) :
    multiReduction (F := Ideal) .add [0] S512 y 0x00000000#32 reduces_S4096x512_S512 (.inl rfl) rfl (ix1 k)
      = ∑ r : Fin 4096, y (ix2 r k) :=
  (Ideal.multiReduction_add_single y 0x00000000#32 reduces_S4096x512_S512 (.inl rfl) rfl (ix1 k)).trans
    (Finset.sum_congr rfl fun r _ => congrArg y (funext fun a => match a with
      | ⟨0, _⟩ => Fin.ext rfl
      | ⟨1, _⟩ => Fin.ext rfl))

theorem rowsProduct_apply (A : FVec Ideal S4096x512 .f32) (B : FVec Ideal S4096x256 .f32) (k : Fin 512) (d : Fin 256) :
    matmul dot_S4096x512_S4096x256_S512x256_0_0_1_1_n_n (some .fp32) A B (constant (F := Ideal) S512x256 .f32 0x00000000#32) (ix2 k d)
      = ∑ r : Fin 4096, A (ix2 r k) * B (ix2 r d) := by
  simp only [matmul]
  rw [Ideal.matmul_constant_zero_apply, ← Equiv.sum_comp (contrEquiv1 dot_S4096x512_S4096x256_S512x256_0_0_1_1_n_n 4096 rfl rfl).symm]
  refine Finset.sum_congr rfl fun r _ => ?_
  have hr := contrEquiv1_symm_val dot_S4096x512_S4096x256_S512x256_0_0_1_1_n_n 4096 rfl rfl r
  exact congrArg₂ (· * ·) (congrArg A (funext fun a => Fin.ext (match a with | ⟨0, _⟩ => hr | ⟨1, _⟩ => rfl)))
    (congrArg B (funext fun a => Fin.ext (match a with | ⟨0, _⟩ => hr | ⟨1, _⟩ => rfl)))

theorem indicator_apply (l : IVec S4096x1 32) (r : Fin 4096) (k : Fin 512) :
    k1_pay5 (F := Ideal) l (ix2 r k) = Spec.oh (C := 512) (l (ix2 r 0)) k := by
  unfold k1_pay5
  dsimp only
  show FloatOps.sitofp (F := Ideal) .f32 ((IntOp.cmpi .eq (broadcastTo S4096x512 (shapeCast S4096x1 l shapeCasts_S4096x1_S4096x1) broadcasts_S4096x1_S4096x512 (ix2 r k)) (iota .tc S4096x512 32 [1] iota_S4096x512_d1_w32 (ix2 r k))).setWidth 32) = _
  rw [broadcastTo_a1_ab_apply, shapeCast_self, iota_single_apply, ind_scalar]
  rfl

theorem zeroSums_apply (k : Fin 512) (d : Fin 256) : k1_pay3 (F := Ideal) (ix2 k d) = 0 := by
  unfold k1_pay3
  rw [shapeCast_self]
  exact Ideal.ofBits_zero_f32
theorem zeroCounts_apply (k : Fin 512) (j : Fin 0x80) : k1_pay4 (F := Ideal) (ix2 k j) = 0 := by
  unfold k1_pay4
  rw [shapeCast_self]
  exact Ideal.ofBits_zero_f32

theorem tileSums_apply (x : FVec Ideal S4096x256 .f32) (l : IVec S4096x1 32) (s : FVec Ideal S512x256 .f32) (k : Fin 512) (d : Fin 256) :
    k1_pay6 (F := Ideal) x l s (ix2 k d)
      = s (ix2 k d) + ∑ r : Fin 4096, Spec.oh (C := 512) (l (ix2 r 0)) k * Spec.nrm (fun r d => x (ix2 r d)) r d := by
  unfold k1_pay6
  dsimp only
  rw [shapeCast_self]
  refine (congrArg (_ + ·) (rowsProduct_apply _ _ k d)).trans ?_
  refine congrArg (_ + ·) (Finset.sum_congr rfl fun r _ => ?_)
  rw [indicator_apply]
  refine congrArg (Spec.oh (C := 512) (l (ix2 r 0)) k * ·) ?_
  refine (congrArg (Ideal.div (x (ix2 r d))) (broadcastTo_a1_ab_apply _ _ r d)).trans ?_
  refine congrArg (fun z => Ideal.div (x (ix2 r d)) (max (Ideal.sqrt z) Spec.eps)) ?_
  refine (shapeCast_a_a1_apply _ _ r (0 : Fin 1)).trans ?_
  exact laneSum_apply _ r

theorem tileCounts_apply (l : IVec S4096x1 32) (n : FVec Ideal S512x128 .f32) (k : Fin 512) (j : Fin 0x80) :
    k1_pay7 (F := Ideal) l n (ix2 k j) = n (ix2 k j) + ∑ r : Fin 4096, Spec.oh (C := 512) (l (ix2 r 0)) k := by
  unfold k1_pay7
  dsimp only
  rw [shapeCast_self]
  refine congrArg (_ + ·) ?_
  refine (broadcastTo_a1_ab_apply _ _ k j).trans ?_
  rw [shapeCast_self]
  refine (shapeCast_a_a1_apply _ _ k (0 : Fin 1)).trans ?_
  refine (rowSum_apply _ k).trans ?_
  exact Finset.sum_congr rfl fun r _ => indicator_apply l r k

theorem outSums_apply (v : FVec Ideal S512x256 .f32) (u : Fin 1) (k : Fin 512) (d : Fin 256) :
    k1_pay1 (F := Ideal) v (ix3 u k d) = v (ix2 k d) := by
  unfold k1_pay1
  exact shapeCast_ab_1ab_apply v _ u k d
theorem outCounts_apply (v : FVec Ideal S512x128 .f32) (u : Fin 1) (k : Fin 512) (j : Fin 0x80) :
    k1_pay2 (F := Ideal) v (ix3 u k j) = v (ix2 k j) := by
  unfold k1_pay2
  exact shapeCast_ab_1ab_apply v _ u k j

abbrev rowsF : Fin 131072 → Fin 256 → EReal := fun r d => (V c main_arg1 : S131072x256.Idx → EReal) (ix2 r d)
abbrev lblF : Fin 131072 → BitVec 32 := fun r => (V c main_v36 : S131072x1.Idx → BitVec 32) (ix2 r 0)

abbrev rowF (i : Fin 2) (j : Fin 16) (k : Fin 4096) : Fin 131072 :=
  ⟨(i.val * 16 + j.val) * 4096 + k.val, by omega⟩

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 3) = t.val / 16 ∧ win1_2.index t (1 : Fin 3) = 0 ∧ win1_2.index t (2 : Fin 3) = 0
    ∧ win1_3.index t (0 : Fin 3) = t.val / 16 ∧ win1_3.index t (1 : Fin 3) = 0 ∧ win1_3.index t (2 : Fin 3) = 0 :=
  (by decide +kernel : ∀ t : Fin grid1.N, _)

theorem xblk_apply (t : Fin cfg1.N) (r : Fin 4096) (d : Fin 256) (g : Fin 131072)
    (hg : g.val = t.val * 4096 + r.val) : Hand.xblk1 V c t (ix2 r d) = rowsF V c g d := by
  obtain ⟨e0, e1, -⟩ := idx_facts1 t
  show V c main_arg1 _ = V c main_arg1 _
  congr 1
  funext a
  apply Fin.ext
  match a with
  | ⟨0, _⟩ => show win1_0.index t 0 * 4096 + 1 * r.val = g.val; rw [e0, hg]; omega
  | ⟨1, _⟩ => exact emb_zero e1

theorem lblk_apply (t : Fin cfg1.N) (r : Fin 4096) (g : Fin 131072)
    (hg : g.val = t.val * 4096 + r.val) : Hand.lblk1 V c t (ix2 r 0) = lblF V c g := by
  obtain ⟨-, -, e0, e1, -⟩ := idx_facts1 t
  show V c main_v36 _ = V c main_v36 _
  congr 1
  funext a
  apply Fin.ext
  match a with
  | ⟨0, _⟩ => show win1_1.index t 0 * 4096 + 1 * r.val = g.val; rw [e0, hg]; omega
  | ⟨1, _⟩ => exact emb_zero e1

def tileSum (k : Fin 512) (d : Fin 256) (m : ℕ) : EReal :=
  if h : m < cfg1.N then
    ∑ r : Fin 4096, Spec.oh (C := 512) (Hand.lblk1 V c ⟨m, h⟩ (ix2 r 0)) k * Spec.nrm (fun r d => Hand.xblk1 V c ⟨m, h⟩ (ix2 r d)) r d
  else 0
def tileCount (k : Fin 512) (m : ℕ) : EReal :=
  if h : m < cfg1.N then ∑ r : Fin 4096, Spec.oh (C := 512) (Hand.lblk1 V c ⟨m, h⟩ (ix2 r 0)) k else 0

theorem acc_first (n : ℕ) (h : n < cfg1.N) (e : n % 16 = 0) :
    Hand.acc1 V c n h = (k1_pay6 (Hand.xblk1 V c ⟨n, h⟩) (Hand.lblk1 V c ⟨n, h⟩) (k1_pay3 (F := Ideal)), k1_pay7 (Hand.lblk1 V c ⟨n, h⟩) (k1_pay4 (F := Ideal))) := by
  cases n with
  | zero => rfl
  | succ n => exact if_pos e

-- A running total that restarts where a run begins and otherwise adds the point's term is the sum of its run's terms so far.
theorem run_total {N : ℕ} (a : (n : ℕ) → n < N → EReal) (M : ℕ → EReal)
    (h0 : ∀ n h, n % 16 = 0 → a n h = M n)
    (hs : ∀ n h, ¬(n + 1) % 16 = 0 → a (n + 1) h = a n (Nat.lt_of_succ_lt h) + M (n + 1)) :
    ∀ n h, a n h = ∑ j ∈ Finset.range (n % 16 + 1), M (n / 16 * 16 + j)
  | 0, h => (h0 0 h rfl).trans (Finset.sum_range_one _).symm
  | n + 1, h => by
    by_cases e : (n + 1) % 16 = 0
    · rw [h0 _ h e, e, Finset.sum_range_one, show (n + 1) / 16 * 16 + 0 = n + 1 by omega]
    · rw [hs n h e, run_total a M h0 hs n _, show (n + 1) % 16 = n % 16 + 1 by omega, show (n + 1) / 16 = n / 16 by omega,
        Finset.sum_range_succ _ (n % 16 + 1), show n / 16 * 16 + (n % 16 + 1) = n + 1 by omega]

theorem acc_sums (k : Fin 512) (d : Fin 256) (n : ℕ) (h : n < cfg1.N) :
    (Hand.acc1 V c n h).1 (ix2 k d) = ∑ j ∈ Finset.range (n % 16 + 1), tileSum V c k d (n / 16 * 16 + j) :=
  run_total (fun n h => (Hand.acc1 V c n h).1 (ix2 k d)) (tileSum V c k d)
    (fun n h e => by
      rw [acc_first V c n h e]
      dsimp only
      rw [tileSums_apply, zeroSums_apply, zero_add, tileSum, dif_pos h])
    (fun n h e => by
      rw [Hand.acc1, if_neg e]
      dsimp only
      rw [tileSums_apply, tileSum, dif_pos h]) n h

theorem acc_counts (k : Fin 512) (l : Fin 0x80) (n : ℕ) (h : n < cfg1.N) :
    (Hand.acc1 V c n h).2 (ix2 k l) = ∑ j ∈ Finset.range (n % 16 + 1), tileCount V c k (n / 16 * 16 + j) :=
  run_total (fun n h => (Hand.acc1 V c n h).2 (ix2 k l)) (tileCount V c k)
    (fun n h e => by
      rw [acc_first V c n h e]
      dsimp only
      rw [tileCounts_apply, zeroCounts_apply, zero_add, tileCount, dif_pos h])
    (fun n h e => by
      rw [Hand.acc1, if_neg e]
      dsimp only
      rw [tileCounts_apply, tileCount, dif_pos h]) n h

def groupSums (i : Fin 2) (k : Fin 512) (d : Fin 256) : EReal :=
  ∑ j : Fin 16, ∑ r : Fin 4096, Spec.oh (C := 512) (lblF V c (rowF i j r)) k * Spec.nrm (rowsF V c) (rowF i j r) d
def groupCounts (i : Fin 2) (k : Fin 512) : EReal :=
  ∑ j : Fin 16, ∑ r : Fin 4096, Spec.oh (C := 512) (lblF V c (rowF i j r)) k

abbrev sumsArr : S2x512x256.Idx → EReal := fun z =>
  groupSums V c ⟨(z 0).val, (z 0).isLt⟩ ⟨(z 1).val, (z 1).isLt⟩ ⟨(z 2).val, (z 2).isLt⟩
abbrev countsArr : S2x512x128.Idx → EReal := fun z =>
  groupCounts V c ⟨(z 0).val, (z 0).isLt⟩ ⟨(z 1).val, (z 1).isLt⟩

theorem tile_lt (i : Fin 2) (j : Fin 16) : i.val * 16 + j.val < cfg1.N := by rw [show cfg1.N = 32 from N_1]; omega

theorem acc_sums_last (k : Fin 512) (d : Fin 256) (t : Fin cfg1.N) (h3 : t.val % 16 = 15) (i : Fin 2)
    (hi : i.val = t.val / 16) : (Hand.acc1 V c t.val t.isLt).1 (ix2 k d) = groupSums V c i k d := by
  rw [acc_sums V c k d t.val t.isLt, h3, ← hi, Finset.sum_range]
  refine Finset.sum_congr rfl fun j _ => ?_
  rw [tileSum, dif_pos (tile_lt i j)]
  refine Finset.sum_congr rfl fun r _ => ?_
  rw [lblk_apply V c ⟨_, tile_lt i j⟩ r (rowF i j r) rfl]
  exact congrArg (_ * ·) (nrm_congr _ _ r (rowF i j r) (fun q => xblk_apply V c ⟨_, tile_lt i j⟩ r q (rowF i j r) rfl) d)

theorem acc_counts_last (k : Fin 512) (l : Fin 0x80) (t : Fin cfg1.N) (h3 : t.val % 16 = 15) (i : Fin 2)
    (hi : i.val = t.val / 16) : (Hand.acc1 V c t.val t.isLt).2 (ix2 k l) = groupCounts V c i k := by
  rw [acc_counts V c k l t.val t.isLt, h3, ← hi, Finset.sum_range]
  refine Finset.sum_congr rfl fun j _ => ?_
  rw [tileCount, dif_pos (tile_lt i j)]
  exact Finset.sum_congr rfl fun r _ => by rw [lblk_apply V c ⟨_, tile_lt i j⟩ r (rowF i j r) rfl]

theorem out_sums_entry (t : Fin cfg1.N) (h3 : t.val % 16 = 15) (y : S1x512x256.Idx) (z : S2x512x256.Idx)
    (hz0 : (z 0).val = t.val / 16) (hz1 : (z 1).val = (y 1).val) (hz2 : (z 2).val = (y 2).val) :
    k1_pay1 (Hand.acc1 V c t.val t.isLt).1 y = sumsArr V c z := by
  obtain ⟨u, k, d, rfl⟩ : ∃ (u : Fin 1) (k : Fin 512) (d : Fin 256), y = ix3 u k d := ⟨y 0, y 1, y 2, eq_ix3 y⟩
  rw [outSums_apply, acc_sums_last V c k d t h3 ⟨(z 0).val, (z 0).isLt⟩ hz0]
  show groupSums V c _ k d = groupSums V c _ _ _
  rw [show k = ⟨(z 1).val, (z 1).isLt⟩ from Fin.ext hz1.symm, show d = ⟨(z 2).val, (z 2).isLt⟩ from Fin.ext hz2.symm]

theorem out_counts_entry (t : Fin cfg1.N) (h3 : t.val % 16 = 15) (y : S1x512x128.Idx) (z : S2x512x128.Idx)
    (hz0 : (z 0).val = t.val / 16) (hz1 : (z 1).val = (y 1).val) :
    k1_pay2 (Hand.acc1 V c t.val t.isLt).2 y = countsArr V c z := by
  obtain ⟨u, k, l, rfl⟩ : ∃ (u : Fin 1) (k : Fin 512) (l : Fin 0x80), y = ix3 u k l := ⟨y 0, y 1, y 2, eq_ix3 y⟩
  rw [outCounts_apply, acc_counts_last V c k l t h3 ⟨(z 0).val, (z 0).isLt⟩ hz0]
  show groupCounts V c _ k = groupCounts V c _ _
  rw [show k = ⟨(z 1).val, (z 1).isLt⟩ from Fin.ext hz1.symm]

theorem flushed_sums (t : Fin cfg1.N) (hf : (cfg1.win 2).flush t = true) :
    (Hand.dat1 V c).flushed 2 t = ((cfg1.win 2).blk t).view.read (Elt Ideal) (sumsArr V c) := by
  obtain ⟨-, -, -, -, e0, e1, e2, -⟩ := idx_facts1 t
  show (cfg1.win 2).cut (grid1.coords t) ((Hand.dat1 V c).after 2 t) = _
  rw [Hand.after1_2]
  funext y
  rw [View.read_apply]
  have : (y 0).val < 1 := (y 0).isLt
  refine out_sums_entry V c t ((flush1_2 t).mp hf) y _ ?_ ?_ ?_
  · show win1_2.index t 0 * 1 + 1 * (y 0).val = t.val / 16
    rw [e0]; omega
  · exact emb_zero e1
  · exact emb_zero e2
theorem flushed_counts (t : Fin cfg1.N) (hf : (cfg1.win 3).flush t = true) :
    (Hand.dat1 V c).flushed 3 t = ((cfg1.win 3).blk t).view.read (Elt Ideal) (countsArr V c) := by
  obtain ⟨-, -, -, -, -, -, -, e0, e1, -⟩ := idx_facts1 t
  show (cfg1.win 3).cut (grid1.coords t) ((Hand.dat1 V c).after 3 t) = _
  rw [Hand.after1_3]
  funext y
  rw [View.read_apply]
  have : (y 0).val < 1 := (y 0).isLt
  refine out_counts_entry V c t ((flush1_3 t).mp hf) y _ ?_ ?_
  · show win1_3.index t 0 * 1 + 1 * (y 0).val = t.val / 16
    rw [e0]; omega
  · exact emb_zero e1

theorem cover_sums (z : S2x512x256.Idx) :
    ∃ t : Fin cfg1.N, (cfg1.win 2).flush t = true ∧ z ∈ ((cfg1.win 2).blk t).view.set := by
  have h0 : (z 0).val < 2 := (z 0).isLt
  have h1 : (z 1).val < 512 := (z 1).isLt
  have h2 : (z 2).val < 256 := (z 2).isLt
  have ht : (z 0).val * 16 + 15 < cfg1.N := by rw [show cfg1.N = 32 from N_1]; omega
  obtain ⟨-, -, -, -, e0, e1, e2, -⟩ := idx_facts1 ⟨_, ht⟩
  refine ⟨⟨_, ht⟩, (flush1_2 _).mpr (by show ((z 0).val * 16 + 15) % 16 = 15; omega), ?_⟩
  show z ∈ ((View.whole main_v37_0).slice (win1_2.rect ⟨_, ht⟩)).set
  rw [View.set_slice_whole, Rect.mem_set_unit]
  intro a
  match a with
  | ⟨0, _⟩ =>
    show win1_2.index _ 0 * 1 ≤ (z 0).val ∧ (z 0).val < win1_2.index _ 0 * 1 + 1
    rw [e0]; dsimp only; omega
  | ⟨1, _⟩ => exact in_blk_zero e1 h1
  | ⟨2, _⟩ => exact in_blk_zero e2 h2
theorem cover_counts (z : S2x512x128.Idx) :
    ∃ t : Fin cfg1.N, (cfg1.win 3).flush t = true ∧ z ∈ ((cfg1.win 3).blk t).view.set := by
  have h0 : (z 0).val < 2 := (z 0).isLt
  have h1 : (z 1).val < 512 := (z 1).isLt
  have h2 : (z 2).val < 0x80 := (z 2).isLt
  have ht : (z 0).val * 16 + 15 < cfg1.N := by rw [show cfg1.N = 32 from N_1]; omega
  obtain ⟨-, -, -, -, -, -, -, e0, e1, e2⟩ := idx_facts1 ⟨_, ht⟩
  refine ⟨⟨_, ht⟩, (flush1_3 _).mpr (by show ((z 0).val * 16 + 15) % 16 = 15; omega), ?_⟩
  show z ∈ ((View.whole main_v37_1).slice (win1_3.rect ⟨_, ht⟩)).set
  rw [View.set_slice_whole, Rect.mem_set_unit]
  intro a
  match a with
  | ⟨0, _⟩ =>
    show win1_3.index _ 0 * 1 ≤ (z 0).val ∧ (z 0).val < win1_3.index _ 0 * 1 + 1
    rw [e0]; dsimp only; omega
  | ⟨1, _⟩ => exact in_blk_zero e1 h1
  | ⟨2, _⟩ => exact in_blk_zero e2 h2

end Cert.KernelIdeal.Val.UpdR

namespace Cert.KernelIdeal.Val

open UpdR

theorem upd1_sums (i : Fin 2) (k : Fin 512) (d : Fin 256) :
    (Hand.dat1 V c).arrAt 2 cfg1.N (ix3 i k d)
      = ∑ j : Fin 16, ∑ r : Fin 4096, Spec.oh (C := 512) (lblF V c (rowF i j r)) k * Spec.nrm (rowsF V c) (rowF i j r) d :=
  congrFun ((Hand.dat1 V c).arrAt_eq_of_cover 2 (sumsArr V c) (flushed_sums V c) cover_sums) _

theorem upd1_counts (i : Fin 2) (k : Fin 512) (l : Fin 0x80) :
    (Hand.dat1 V c).arrAt 3 cfg1.N (ix3 i k l)
      = ∑ j : Fin 16, ∑ r : Fin 4096, Spec.oh (C := 512) (lblF V c (rowF i j r)) k :=
  congrFun ((Hand.dat1 V c).arrAt_eq_of_cover 3 (countsArr V c) (flushed_counts V c) cover_counts) _

end Cert.KernelIdeal.Val

end
-- ==== Proof.Val.LossF.lean ====
import proofs.«418718_j72808285602381_2_alg».proof.Proof.KI.Loss2
import proofs.«418718_j72808285602381_2_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.ShloMosaic.Pipeline (Dat)

namespace LossG

theorem bit_val (b : Bool) : (((((BitVec.ofBool b).setWidth 32).toInt : ℤ) : ℝ) : EReal) = if b = true then 1 else 0 := by
  cases b
  · simp
  · simp

theorem sqrt_apply {s : Shape} (a : FVec Ideal s .f32) (i : s.Idx) : sqrt a i = Ideal.sqrt (a i) := rfl

theorem exp_apply {s : Shape} (a : FVec Ideal s .f32) (i : s.Idx) : exp a i = Ideal.exp (a i) := rfl

theorem log_apply {s : Shape} (a : FVec Ideal s .f32) (i : s.Idx) : log a i = Ideal.log (a i) := rfl

theorem word_apply (b : BitVec 32) : (Scalar.ofBits .f32 b : Ideal .f32) = Ideal.ofBits .f32 b := rfl

theorem one_idx (a : S1.Idx) : a = ix1 0 := (eq_ix1 a).trans (congrArg ix1 (Subsingleton.elim (α := Fin 1) _ _))

theorem cube_apply {α : Type} (v : S1.Idx → α) (h : S1.ShapeCasts S1x1x1) (j : S1x1x1.Idx) : shapeCast S1x1x1 v h j = v (ix1 0) := by
  unfold shapeCast
  exact congrArg v (one_idx _)

theorem nll_congr {B B' C D : ℕ} (x : Fin B → Fin D → EReal) (x' : Fin B' → Fin D → EReal) (lb : Fin B → BitVec 32)
    (lb' : Fin B' → BitVec 32) (P P' : Fin C → Fin D → EReal) (r : Fin B) (r' : Fin B') (hx : x r = x' r') (hl : lb r = lb' r')
    (hP : P = P') : Spec.nll x lb P r = Spec.nll x' lb' P' r' := by
  subst hP
  have h1 : Spec.logits x P r = Spec.logits x' P r' := funext fun c => by
    unfold Spec.logits Spec.nrm
    rw [hx]
  unfold Spec.nll
  rw [h1, hl]

theorem emb_zero {q s v : ℕ} (hq : q = 0) : q * s + 1 * v = v := by subst hq; omega

theorem in_blk_zero {q s v : ℕ} (hq : q = 0) (hv : v < s) : q * s ≤ v ∧ v < q * s + s := by subst hq; omega

end LossG

open LossG

variable (V : (c : Dev nD) → (b : Ref sig .tc) → Buf (Elt Ideal) ((c : Thread nD τ).loc b)) (c : Dev nD)

namespace LossF

theorem lift_cls (h : S8192x128.Reduces [1] S8192) (r : Fin 8192) (k : Fin 128) : h.lift (ix1 r) k = ix2 r k := by
  funext a; apply Fin.ext; match a with | ⟨0, _⟩ => rfl | ⟨1, _⟩ => rfl

theorem col_apply {α : Type} (v : S8192.Idx → α) (h : S8192.ShapeCasts S8192x1) (r : Fin 8192) :
    shapeCast S8192x1 v h (ix2 r 0) = v (ix1 r) := by
  refine shapeCast_apply v h _ _ ?_
  rw [Shape.rowMajor_val_one, Shape.rowMajor_val_two]
  show r.val = r.val * 1 + 0
  omega

theorem spread_feat_apply {α : Type} (v : S8192x1.Idx → α) (h : S8192x1.Broadcasts S8192x256) (r : Fin 8192) (d : Fin 256) :
    broadcastTo S8192x256 v h (ix2 r d) = v (ix2 r 0) :=
  broadcastTo_apply v h _ _ fun a => match a with | ⟨0, _⟩ => rfl | ⟨1, _⟩ => rfl

theorem spread_cls_apply {α : Type} (v : S8192x1.Idx → α) (h : S8192x1.Broadcasts S8192x128) (r : Fin 8192) (k : Fin 128) :
    broadcastTo S8192x128 v h (ix2 r k) = v (ix2 r 0) :=
  broadcastTo_apply v h _ _ fun a => match a with | ⟨0, _⟩ => rfl | ⟨1, _⟩ => rfl

variable (hφ : FTy.f32 = FTy.f32 ∨ FTy.f32 = FTy.bf16) (hacc : (0x00000000#32 : BitVec FTy.f32.bits) = 0x00000000#32)

theorem sum_feat_apply (src : FVec Ideal S8192x256 .f32) (h : S8192x256.Reduces [1] S8192) (r : Fin 8192) :
    multiReduction .add [1] S8192 src 0x00000000#32 h hφ hacc (ix1 r) = ∑ d : Fin 256, src (ix2 r d) := by
  refine (Ideal.multiReduction_add_single src _ h hφ hacc (ix1 r)).trans ?_
  exact Finset.sum_congr rfl fun d _ => congrArg src (funext fun a => match a with | ⟨0, _⟩ => Fin.ext rfl | ⟨1, _⟩ => Fin.ext rfl)

theorem sum_cls_apply (src : FVec Ideal S8192x128 .f32) (h : S8192x128.Reduces [1] S8192) (r : Fin 8192) :
    multiReduction .add [1] S8192 src 0x00000000#32 h hφ hacc (ix1 r) = ∑ k : Fin 128, src (ix2 r k) := by
  refine (Ideal.multiReduction_add_single src _ h hφ hacc (ix1 r)).trans ?_
  exact Finset.sum_congr rfl fun k _ => congrArg src (lift_cls h r k)

theorem max_cls_apply (src : FVec Ideal S8192x128 .f32) (h : S8192x128.Reduces [1] S8192) (hφ : FTy.f32 = FTy.f32 ∨ FTy.f32 = FTy.bf16)
    (hacc : (0xFF800000#32 : BitVec FTy.f32.bits) = 0xFF800000#32) (r : Fin 8192) :
    multiReduction .maximumf [1] S8192 src 0xFF800000#32 h hφ hacc (ix1 r) = Spec.rowMax (C := 128) fun k => src (ix2 r k) := by
  refine (Ideal.multiReduction_maximumf_single src _ h hφ hacc (ix1 r)).trans ?_
  unfold Spec.rowMax Spec.ninf
  exact congrArg (fun f : Fin 128 → EReal => Finset.fold max (Ideal.ofBits .f32 0xFF800000#32) f Finset.univ)
    (funext fun k => congrArg src (lift_cls h r k))

theorem dot_apply (u : FVec Ideal S8192x256 .f32) (p : FVec Ideal S128x256 .f32) (r : Fin 8192) (k : Fin 128) :
    matmul dot_S8192x256_S128x256_S8192x128_1_1_0_0_n_n (some .fp32) u p (constant S8192x128 .f32 0x00000000#32) (ix2 r k)
      = ∑ d : Fin 256, u (ix2 r d) * p (ix2 k d) := by
  simp only [matmul]
  rw [Ideal.matmul_constant_zero_apply, ← Equiv.sum_comp (contrEquiv1 dot_S8192x256_S128x256_S8192x128_1_1_0_0_n_n 256 rfl rfl).symm]
  refine Finset.sum_congr rfl fun d _ => ?_
  have hd := contrEquiv1_symm_val dot_S8192x256_S128x256_S8192x128_1_1_0_0_n_n 256 rfl rfl d
  exact congrArg₂ (· * ·) (congrArg u (funext fun a => Fin.ext (match a with | ⟨0, _⟩ => rfl | ⟨1, _⟩ => hd)))
    (congrArg p (funext fun a => Fin.ext (match a with | ⟨0, _⟩ => rfl | ⟨1, _⟩ => hd)))

theorem oh_apply (l : IVec S8192x1 32) (hb : S8192x1.Broadcasts S8192x128) (hi : S8192x128.Iotas .tc 32 [1]) (hlt : 1 < 32)
    (r : Fin 8192) (k : Fin 128) :
    (sitofp .f32 (extui 32 (cmpi .eq (broadcastTo S8192x128 l hb) (iota .tc S8192x128 32 [1] hi)) hlt) : FVec Ideal S8192x128 .f32) (ix2 r k)
      = Spec.oh (l (ix2 r 0)) k := by
  show ((((IntOp.cmpi .eq (broadcastTo S8192x128 l hb (ix2 r k)) (iota .tc S8192x128 32 [1] hi (ix2 r k))).setWidth 32).toInt : ℝ) : EReal) = _
  rw [spread_cls_apply, iota_single_apply]
  show (((((BitVec.ofBool (l (ix2 r 0) == BitVec.ofNat 32 k.val)).setWidth 32).toInt : ℤ) : ℝ) : EReal) = _
  rw [bit_val]
  unfold Spec.oh
  simp only [beq_iff_eq]

theorem valid_apply (l : Vec Ideal S8192x1 .i32) (r : Fin 8192) :
    k2_pay3 (F := Ideal) l (ix2 r 0) = Spec.valid (l (ix2 r 0)) := by
  unfold k2_pay3 k2_pay2
  rw [shapeCast_self]
  show (((((BitVec.ofBool ((0#32 : BitVec 32).sle (l (ix2 r 0)))).setWidth 32).toInt : ℤ) : ℝ) : EReal) = _
  rw [bit_val]
  unfold Spec.valid
  simp only [BitVec.sle, decide_eq_true_eq, BitVec.toInt_zero]

theorem pay2_eq (l : Vec Ideal S8192x1 .i32) : k2_pay2 (F := Ideal) l = l := by
  unfold k2_pay2
  rw [shapeCast_self]

def tileRows : S1x8192x1.Idx ≃ Fin 8192 where
  toFun i := i 1
  invFun r := ix3 0 r 0
  left_inv i := by
    funext a
    match a with
    | ⟨0, _⟩ => exact Subsingleton.elim (α := Fin 1) _ _
    | ⟨1, _⟩ => rfl
    | ⟨2, _⟩ => exact Subsingleton.elim (α := Fin 1) _ _
  right_inv r := rfl

theorem total_apply (w : FVec Ideal S1x8192x1 .f32) (h : S1x8192x1.Reduces [1, 2] S1) (j : S1.Idx) :
    multiReduction .add [1, 2] S1 w 0x00000000#32 h hφ hacc j = ∑ r : Fin 8192, w (ix3 0 r 0) := by
  refine (Ideal.multiReduction_add_total w _ h (fun b => ?_) hφ hacc j).trans ?_
  · match b with | ⟨0, _⟩ => rfl
  · exact (Equiv.sum_comp tileRows.symm w).symm

theorem pay4_apply (x0 : Vec Ideal S8192x256 .f32) (l : Vec Ideal S8192x1 .i32) (p : Vec Ideal S128x256 .f32) (j : S1.Idx) :
    k2_pay4 (F := Ideal) x0 l p j
      = ∑ r : Fin 8192, Spec.nll (C := 128) (fun r d => x0 (ix2 r d)) (fun r => l (ix2 r 0)) (fun k d => p (ix2 k d)) r := by
  unfold k2_pay4
  refine (total_apply _ _ _ _ j).trans (Finset.sum_congr rfl fun r _ => ?_)
  rw [shapeCast_ab_1ab_apply]
  simp (config := { index := false }) only [mulf_apply, subf_apply, divf_apply, maximumf_apply, sqrt_apply, exp_apply, log_apply, broadcast_apply, word_apply,
    col_apply, spread_feat_apply, spread_cls_apply, sum_feat_apply, sum_cls_apply, max_cls_apply, dot_apply, oh_apply, valid_apply,
    pay2_eq, shapeCast_self, Ideal.ofBits_zero_f32]
  rfl

theorem pay1_lane0 (v34 : FVec Ideal S8192x1 .f32) (v42 : FVec Ideal S1 .f32) :
    k2_pay1 (F := Ideal) v34 v42 (ix3 0 0 0) = v42 (ix1 0) := by
  unfold k2_pay1
  rw [shapeCast_ab_1ab_apply, select_apply]
  rw [show cmpi .eq (iota .tc S1x128 32 [1] iota_S1x128_d1_w32) (broadcast S1x128 0#32) (ix2 0 0) = 1#1 from rfl, select_one,
    broadcast_apply]
  unfold extractAt
  exact cube_apply _ _ _

theorem pay1_lane1 (v34 : FVec Ideal S8192x1 .f32) (v42 : FVec Ideal S1 .f32) :
    k2_pay1 (F := Ideal) v34 v42 (ix3 0 0 1) = ∑ r : Fin 8192, v34 (ix2 r 0) := by
  unfold k2_pay1
  rw [shapeCast_ab_1ab_apply, select_apply]
  rw [show cmpi .eq (iota .tc S1x128 32 [1] iota_S1x128_d1_w32) (broadcast S1x128 0#32) (ix2 0 1) = 0#1 from rfl, select_zero,
    select_apply]
  rw [show cmpi .eq (iota .tc S1x128 32 [1] iota_S1x128_d1_w32) (broadcast S1x128 1#32) (ix2 0 1) = 1#1 from rfl, select_one,
    broadcast_apply]
  unfold extractAt
  rw [cube_apply, total_apply]
  exact Finset.sum_congr rfl fun r _ => shapeCast_ab_1ab_apply _ _ _ _ _

theorem idx_facts : ∀ t : Fin cfg2.N,
    (win2_0.index t 0 = t.val ∧ win2_0.index t 1 = 0) ∧ (win2_1.index t 0 = t.val ∧ win2_1.index t 1 = 0)
      ∧ (win2_2.index t 0 = 0 ∧ win2_2.index t 1 = 0)
      ∧ (win2_3.index t 0 = t.val ∧ win2_3.index t 1 = 0 ∧ win2_3.index t 2 = 0) :=
  (by decide +kernel : ∀ t : Fin grid2.N, _)

theorem xblk_apply (t : Fin cfg2.N) (r : Fin 8192) (d : Fin 256) (R : Fin 65536) (hR : R.val = t.val * 8192 + r.val) :
    Hand.xblk2 V c t (ix2 r d) = (V c main_arg0 : S65536x256.Idx → EReal) (ix2 R d) := by
  obtain ⟨⟨h0, h1⟩, -⟩ := idx_facts t
  show V c main_arg0 _ = V c main_arg0 _
  congr 1
  funext a
  apply Fin.ext
  match a with
  | ⟨0, _⟩ => show win2_0.index t 0 * 8192 + 1 * r.val = R.val; rw [h0, hR]; omega
  | ⟨1, _⟩ => exact emb_zero h1

theorem lblk_apply (t : Fin cfg2.N) (r : Fin 8192) (R : Fin 65536) (hR : R.val = t.val * 8192 + r.val) :
    Hand.lblk2 V c t (ix2 r 0) = (V c main_v72 : S65536x1.Idx → BitVec 32) (ix2 R 0) := by
  obtain ⟨-, ⟨h0, h1⟩, -⟩ := idx_facts t
  show V c main_v72 _ = V c main_v72 _
  congr 1
  funext a
  apply Fin.ext
  match a with
  | ⟨0, _⟩ => show win2_1.index t 0 * 8192 + 1 * r.val = R.val; rw [h0, hR]; omega
  | ⟨1, _⟩ => exact emb_zero h1

theorem pblk_apply (t : Fin cfg2.N) (k : Fin 128) (d : Fin 256) :
    Hand.pblk2 V c t (ix2 k d) = (V c main_v35 : S128x256.Idx → EReal) (ix2 k d) := by
  obtain ⟨-, -, ⟨h0, h1⟩, -⟩ := idx_facts t
  show V c main_v35 _ = V c main_v35 _
  congr 1
  funext a
  apply Fin.ext
  match a with
  | ⟨0, _⟩ => exact emb_zero h0
  | ⟨1, _⟩ => exact emb_zero h1

def pt (a : Fin 8) : Fin cfg2.N := ⟨a.val, by rw [show cfg2.N = 8 from N_2]; exact a.isLt⟩

def resG : S8x1x128.Idx → EReal := fun i =>
  Hand.out2_3 (Hand.xblk2 V c (pt (i 0))) (Hand.lblk2 V c (pt (i 0))) (Hand.pblk2 V c (pt (i 0))) (ix3 0 0 (i 2))

theorem resG_apply (t : Fin cfg2.N) (i : S8x1x128.Idx) (y : S1x1x128.Idx) (h0 : (i 0).val = t.val)
    (h2 : (i 2).val = (y 2).val) :
    resG V c i = Hand.out2_3 (Hand.xblk2 V c t) (Hand.lblk2 V c t) (Hand.pblk2 V c t) y := by
  have hp : pt (i 0) = t := Fin.ext h0
  have hy : (ix3 0 0 (i 2) : S1x1x128.Idx) = y := funext fun a => Fin.ext (by
    match a with
    | ⟨0, _⟩ => have : (y 0).val < 1 := (y 0).isLt; show 0 = (y 0).val; omega
    | ⟨1, _⟩ => have : (y 1).val < 1 := (y 1).isLt; show 0 = (y 1).val; omega
    | ⟨2, _⟩ => exact h2)
  unfold resG
  rw [hp, hy]

theorem flushed_eq (t : Fin cfg2.N) :
    (Hand.dat2 V c).flushed 3 t = ((cfg2.win 3).blk t).view.read (Elt Ideal) (resG V c) := by
  obtain ⟨-, -, -, h0, h1, h2⟩ := idx_facts t
  show (cfg2.win 3).cut (cfg2.grid.coords t) ((Hand.dat2 V c).after 3 t) = _
  rw [Hand.after2_3]
  funext y
  rw [View.read_apply]
  have y0 : (y 0).val < 1 := (y 0).isLt
  refine (resG_apply V c t _ ((cfg2.win 3).xinj (cfg2.grid.coords t) y) ?_ ?_).symm
  · show win2_3.index t 0 * 1 + 1 * (y 0).val = t.val
    rw [h0]; omega
  · exact emb_zero h2

theorem final : (Hand.dat2 V c).arrAt 3 cfg2.N = resG V c :=
  (Hand.dat2 V c).arrAt_eq_of_cover 3 (resG V c) (fun t _ => flushed_eq V c t) fun i =>
    ⟨pt (i 0), flush2_3 _, by
      obtain ⟨-, -, -, h0, h1, h2⟩ := idx_facts (pt (i 0))
      have hp : (pt (i 0)).val = (i 0 : Nat) := rfl
      have b1 : (i 1 : Nat) < 1 := (i 1).isLt
      have b2 : (i 2 : Nat) < 128 := (i 2).isLt
      show i ∈ ((View.whole main_v73).slice (win2_3.rect (pt (i 0)))).set
      rw [View.set_slice_whole, Rect.mem_set_unit]
      intro a
      match a with
      | ⟨0, _⟩ =>
        show win2_3.index _ 0 * 1 ≤ (i 0 : Nat) ∧ (i 0 : Nat) < win2_3.index _ 0 * 1 + 1
        rw [h0]; omega
      | ⟨1, _⟩ => exact in_blk_zero h1 b1
      | ⟨2, _⟩ => exact in_blk_zero h2 b2⟩

end LossF

open LossF

abbrev loss2X : Fin 65536 → Fin 256 → EReal := fun r d => (V c main_arg0 : S65536x256.Idx → EReal) (ix2 r d)
abbrev loss2L : Fin 65536 → BitVec 32 := fun r => (V c main_v72 : S65536x1.Idx → BitVec 32) (ix2 r 0)
abbrev loss2P : Fin 128 → Fin 256 → EReal := fun k d => (V c main_v35 : S128x256.Idx → EReal) (ix2 k d)

abbrev loss2row (t : Fin 8) (r : Fin 8192) : Fin 65536 := ⟨t.val * 8192 + r.val, by have := t.isLt; have := r.isLt; omega⟩

theorem loss2_nll (t : Fin 8) :
    ((Hand.dat2 (F := Ideal) V c).arrAt 3 cfg2.N : S8x1x128.Idx → EReal) (ix3 t 0 0)
      = ∑ r : Fin 8192, Spec.nll (C := 128) (loss2X V c) (loss2L V c) (loss2P V c) (loss2row t r) := by
  rw [final V c]
  show Hand.out2_3 _ _ _ (ix3 0 0 0) = _
  unfold Hand.out2_3
  refine (pay1_lane0 _ _).trans ?_
  refine (pay4_apply _ _ _ (ix1 0)).trans ?_
  exact Finset.sum_congr rfl fun r _ => nll_congr _ _ _ _ _ _ r (loss2row t r) (funext fun d => xblk_apply V c _ r d _ rfl)
    (lblk_apply V c _ r _ rfl) (funext fun k => funext fun d => pblk_apply V c _ k d)

theorem loss2_valid (t : Fin 8) :
    ((Hand.dat2 (F := Ideal) V c).arrAt 3 cfg2.N : S8x1x128.Idx → EReal) (ix3 t 0 1)
      = ∑ r : Fin 8192, Spec.valid (loss2L V c (loss2row t r)) := by
  rw [final V c]
  show Hand.out2_3 _ _ _ (ix3 0 0 1) = _
  unfold Hand.out2_3
  refine (pay1_lane1 _ _).trans ?_
  exact Finset.sum_congr rfl fun r _ => (valid_apply _ r).trans (congrArg Spec.valid (lblk_apply V c _ r _ rfl))

end Cert.KernelIdeal.Val

end
-- ==== Proof.Val.LossR.lean ====
import proofs.«418718_j72808285602381_2_alg».proof.Proof.KI.Loss3
import proofs.«418718_j72808285602381_2_alg».proof.Proof.Val.LossF
import proofs.«418718_j72808285602381_2_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.ShloMosaic.Pipeline (Dat)

open LossG

variable (V : (c : Dev nD) → (b : Ref sig .tc) → Buf (Elt Ideal) ((c : Thread nD τ).loc b)) (c : Dev nD)

namespace LossR

theorem lift_cls (h : S4096x512.Reduces [1] S4096) (r : Fin 4096) (k : Fin 512) : h.lift (ix1 r) k = ix2 r k := by
  funext a; apply Fin.ext; match a with | ⟨0, _⟩ => rfl | ⟨1, _⟩ => rfl

theorem col_apply {α : Type} (v : S4096.Idx → α) (h : S4096.ShapeCasts S4096x1) (r : Fin 4096) :
    shapeCast S4096x1 v h (ix2 r 0) = v (ix1 r) := by
  refine shapeCast_apply v h _ _ ?_
  rw [Shape.rowMajor_val_one, Shape.rowMajor_val_two]
  show r.val = r.val * 1 + 0
  omega

theorem spread_feat_apply {α : Type} (v : S4096x1.Idx → α) (h : S4096x1.Broadcasts S4096x256) (r : Fin 4096) (d : Fin 256) :
    broadcastTo S4096x256 v h (ix2 r d) = v (ix2 r 0) :=
  broadcastTo_apply v h _ _ fun a => match a with | ⟨0, _⟩ => rfl | ⟨1, _⟩ => rfl

theorem spread_cls_apply {α : Type} (v : S4096x1.Idx → α) (h : S4096x1.Broadcasts S4096x512) (r : Fin 4096) (k : Fin 512) :
    broadcastTo S4096x512 v h (ix2 r k) = v (ix2 r 0) :=
  broadcastTo_apply v h _ _ fun a => match a with | ⟨0, _⟩ => rfl | ⟨1, _⟩ => rfl

variable (hφ : FTy.f32 = FTy.f32 ∨ FTy.f32 = FTy.bf16) (hacc : (0x00000000#32 : BitVec FTy.f32.bits) = 0x00000000#32)

theorem sum_feat_apply (src : FVec Ideal S4096x256 .f32) (h : S4096x256.Reduces [1] S4096) (r : Fin 4096) :
    multiReduction .add [1] S4096 src 0x00000000#32 h hφ hacc (ix1 r) = ∑ d : Fin 256, src (ix2 r d) := by
  refine (Ideal.multiReduction_add_single src _ h hφ hacc (ix1 r)).trans ?_
  exact Finset.sum_congr rfl fun d _ => congrArg src (funext fun a => match a with | ⟨0, _⟩ => Fin.ext rfl | ⟨1, _⟩ => Fin.ext rfl)

theorem sum_cls_apply (src : FVec Ideal S4096x512 .f32) (h : S4096x512.Reduces [1] S4096) (r : Fin 4096) :
    multiReduction .add [1] S4096 src 0x00000000#32 h hφ hacc (ix1 r) = ∑ k : Fin 512, src (ix2 r k) := by
  refine (Ideal.multiReduction_add_single src _ h hφ hacc (ix1 r)).trans ?_
  exact Finset.sum_congr rfl fun k _ => congrArg src (lift_cls h r k)

theorem max_cls_apply (src : FVec Ideal S4096x512 .f32) (h : S4096x512.Reduces [1] S4096) (hφ : FTy.f32 = FTy.f32 ∨ FTy.f32 = FTy.bf16)
    (hacc : (0xFF800000#32 : BitVec FTy.f32.bits) = 0xFF800000#32) (r : Fin 4096) :
    multiReduction .maximumf [1] S4096 src 0xFF800000#32 h hφ hacc (ix1 r) = Spec.rowMax (C := 512) fun k => src (ix2 r k) := by
  refine (Ideal.multiReduction_maximumf_single src _ h hφ hacc (ix1 r)).trans ?_
  unfold Spec.rowMax Spec.ninf
  exact congrArg (fun f : Fin 512 → EReal => Finset.fold max (Ideal.ofBits .f32 0xFF800000#32) f Finset.univ)
    (funext fun k => congrArg src (lift_cls h r k))

theorem dot_apply (u : FVec Ideal S4096x256 .f32) (p : FVec Ideal S512x256 .f32) (r : Fin 4096) (k : Fin 512) :
    matmul dot_S4096x256_S512x256_S4096x512_1_1_0_0_n_n (some .fp32) u p (constant S4096x512 .f32 0x00000000#32) (ix2 r k)
      = ∑ d : Fin 256, u (ix2 r d) * p (ix2 k d) := by
  simp only [matmul]
  rw [Ideal.matmul_constant_zero_apply, ← Equiv.sum_comp (contrEquiv1 dot_S4096x256_S512x256_S4096x512_1_1_0_0_n_n 256 rfl rfl).symm]
  refine Finset.sum_congr rfl fun d _ => ?_
  have hd := contrEquiv1_symm_val dot_S4096x256_S512x256_S4096x512_1_1_0_0_n_n 256 rfl rfl d
  exact congrArg₂ (· * ·) (congrArg u (funext fun a => Fin.ext (match a with | ⟨0, _⟩ => rfl | ⟨1, _⟩ => hd)))
    (congrArg p (funext fun a => Fin.ext (match a with | ⟨0, _⟩ => rfl | ⟨1, _⟩ => hd)))

theorem oh_apply (l : IVec S4096x1 32) (hb : S4096x1.Broadcasts S4096x512) (hi : S4096x512.Iotas .tc 32 [1]) (hlt : 1 < 32)
    (r : Fin 4096) (k : Fin 512) :
    (sitofp .f32 (extui 32 (cmpi .eq (broadcastTo S4096x512 l hb) (iota .tc S4096x512 32 [1] hi)) hlt) : FVec Ideal S4096x512 .f32) (ix2 r k)
      = Spec.oh (l (ix2 r 0)) k := by
  show ((((IntOp.cmpi .eq (broadcastTo S4096x512 l hb (ix2 r k)) (iota .tc S4096x512 32 [1] hi (ix2 r k))).setWidth 32).toInt : ℝ) : EReal) = _
  rw [spread_cls_apply, iota_single_apply]
  show (((((BitVec.ofBool (l (ix2 r 0) == BitVec.ofNat 32 k.val)).setWidth 32).toInt : ℤ) : ℝ) : EReal) = _
  rw [bit_val]
  unfold Spec.oh
  simp only [beq_iff_eq]

theorem valid_apply (l : Vec Ideal S4096x1 .i32) (r : Fin 4096) :
    k3_pay3 (F := Ideal) l (ix2 r 0) = Spec.valid (l (ix2 r 0)) := by
  unfold k3_pay3 k3_pay2
  rw [shapeCast_self]
  show (((((BitVec.ofBool ((0#32 : BitVec 32).sle (l (ix2 r 0)))).setWidth 32).toInt : ℤ) : ℝ) : EReal) = _
  rw [bit_val]
  unfold Spec.valid
  simp only [BitVec.sle, decide_eq_true_eq, BitVec.toInt_zero]

theorem pay2_eq (l : Vec Ideal S4096x1 .i32) : k3_pay2 (F := Ideal) l = l := by
  unfold k3_pay2
  rw [shapeCast_self]

def tileRows : S1x4096x1.Idx ≃ Fin 4096 where
  toFun i := i 1
  invFun r := ix3 0 r 0
  left_inv i := by
    funext a
    match a with
    | ⟨0, _⟩ => exact Subsingleton.elim (α := Fin 1) _ _
    | ⟨1, _⟩ => rfl
    | ⟨2, _⟩ => exact Subsingleton.elim (α := Fin 1) _ _
  right_inv r := rfl

theorem total_apply (w : FVec Ideal S1x4096x1 .f32) (h : S1x4096x1.Reduces [1, 2] S1) (j : S1.Idx) :
    multiReduction .add [1, 2] S1 w 0x00000000#32 h hφ hacc j = ∑ r : Fin 4096, w (ix3 0 r 0) := by
  refine (Ideal.multiReduction_add_total w _ h (fun b => ?_) hφ hacc j).trans ?_
  · match b with | ⟨0, _⟩ => rfl
  · exact (Equiv.sum_comp tileRows.symm w).symm

theorem pay4_apply (x0 : Vec Ideal S4096x256 .f32) (l : Vec Ideal S4096x1 .i32) (p : Vec Ideal S512x256 .f32) (j : S1.Idx) :
    k3_pay4 (F := Ideal) x0 l p j
      = ∑ r : Fin 4096, Spec.nll (C := 512) (fun r d => x0 (ix2 r d)) (fun r => l (ix2 r 0)) (fun k d => p (ix2 k d)) r := by
  unfold k3_pay4
  refine (total_apply _ _ _ _ j).trans (Finset.sum_congr rfl fun r _ => ?_)
  rw [shapeCast_ab_1ab_apply]
  simp (config := { index := false }) only [mulf_apply, subf_apply, divf_apply, maximumf_apply, sqrt_apply, exp_apply, log_apply, broadcast_apply, word_apply,
    col_apply, spread_feat_apply, spread_cls_apply, sum_feat_apply, sum_cls_apply, max_cls_apply, dot_apply, oh_apply, valid_apply,
    pay2_eq, shapeCast_self, Ideal.ofBits_zero_f32]
  rfl

theorem pay1_lane0 (v34 : FVec Ideal S4096x1 .f32) (v42 : FVec Ideal S1 .f32) :
    k3_pay1 (F := Ideal) v34 v42 (ix3 0 0 0) = v42 (ix1 0) := by
  unfold k3_pay1
  rw [shapeCast_ab_1ab_apply, select_apply]
  rw [show cmpi .eq (iota .tc S1x128 32 [1] iota_S1x128_d1_w32) (broadcast S1x128 0#32) (ix2 0 0) = 1#1 from rfl, select_one,
    broadcast_apply]
  unfold extractAt
  exact cube_apply _ _ _

theorem pay1_lane1 (v34 : FVec Ideal S4096x1 .f32) (v42 : FVec Ideal S1 .f32) :
    k3_pay1 (F := Ideal) v34 v42 (ix3 0 0 1) = ∑ r : Fin 4096, v34 (ix2 r 0) := by
  unfold k3_pay1
  rw [shapeCast_ab_1ab_apply, select_apply]
  rw [show cmpi .eq (iota .tc S1x128 32 [1] iota_S1x128_d1_w32) (broadcast S1x128 0#32) (ix2 0 1) = 0#1 from rfl, select_zero,
    select_apply]
  rw [show cmpi .eq (iota .tc S1x128 32 [1] iota_S1x128_d1_w32) (broadcast S1x128 1#32) (ix2 0 1) = 1#1 from rfl, select_one,
    broadcast_apply]
  unfold extractAt
  rw [cube_apply, total_apply]
  exact Finset.sum_congr rfl fun r _ => shapeCast_ab_1ab_apply _ _ _ _ _

theorem idx_facts : ∀ t : Fin cfg3.N,
    (win3_0.index t 0 = t.val ∧ win3_0.index t 1 = 0) ∧ (win3_1.index t 0 = t.val ∧ win3_1.index t 1 = 0)
      ∧ (win3_2.index t 0 = 0 ∧ win3_2.index t 1 = 0)
      ∧ (win3_3.index t 0 = t.val ∧ win3_3.index t 1 = 0 ∧ win3_3.index t 2 = 0) :=
  (by decide +kernel : ∀ t : Fin grid3.N, _)

theorem xblk_apply (t : Fin cfg3.N) (r : Fin 4096) (d : Fin 256) (R : Fin 131072) (hR : R.val = t.val * 4096 + r.val) :
    Hand.xblk3 V c t (ix2 r d) = (V c main_arg1 : S131072x256.Idx → EReal) (ix2 R d) := by
  obtain ⟨⟨h0, h1⟩, -⟩ := idx_facts t
  show V c main_arg1 _ = V c main_arg1 _
  congr 1
  funext a
  apply Fin.ext
  match a with
  | ⟨0, _⟩ => show win3_0.index t 0 * 4096 + 1 * r.val = R.val; rw [h0, hR]; omega
  | ⟨1, _⟩ => exact emb_zero h1

theorem lblk_apply (t : Fin cfg3.N) (r : Fin 4096) (R : Fin 131072) (hR : R.val = t.val * 4096 + r.val) :
    Hand.lblk3 V c t (ix2 r 0) = (V c main_v83 : S131072x1.Idx → BitVec 32) (ix2 R 0) := by
  obtain ⟨-, ⟨h0, h1⟩, -⟩ := idx_facts t
  show V c main_v83 _ = V c main_v83 _
  congr 1
  funext a
  apply Fin.ext
  match a with
  | ⟨0, _⟩ => show win3_1.index t 0 * 4096 + 1 * r.val = R.val; rw [h0, hR]; omega
  | ⟨1, _⟩ => exact emb_zero h1

theorem pblk_apply (t : Fin cfg3.N) (k : Fin 512) (d : Fin 256) :
    Hand.pblk3 V c t (ix2 k d) = (V c main_v71 : S512x256.Idx → EReal) (ix2 k d) := by
  obtain ⟨-, -, ⟨h0, h1⟩, -⟩ := idx_facts t
  show V c main_v71 _ = V c main_v71 _
  congr 1
  funext a
  apply Fin.ext
  match a with
  | ⟨0, _⟩ => exact emb_zero h0
  | ⟨1, _⟩ => exact emb_zero h1

def pt (a : Fin 32) : Fin cfg3.N := ⟨a.val, by rw [show cfg3.N = 32 from N_3]; exact a.isLt⟩

def resG : S32x1x128.Idx → EReal := fun i =>
  Hand.out3_3 (Hand.xblk3 V c (pt (i 0))) (Hand.lblk3 V c (pt (i 0))) (Hand.pblk3 V c (pt (i 0))) (ix3 0 0 (i 2))

theorem resG_apply (t : Fin cfg3.N) (i : S32x1x128.Idx) (y : S1x1x128.Idx) (h0 : (i 0).val = t.val)
    (h2 : (i 2).val = (y 2).val) :
    resG V c i = Hand.out3_3 (Hand.xblk3 V c t) (Hand.lblk3 V c t) (Hand.pblk3 V c t) y := by
  have hp : pt (i 0) = t := Fin.ext h0
  have hy : (ix3 0 0 (i 2) : S1x1x128.Idx) = y := funext fun a => Fin.ext (by
    match a with
    | ⟨0, _⟩ => have : (y 0).val < 1 := (y 0).isLt; show 0 = (y 0).val; omega
    | ⟨1, _⟩ => have : (y 1).val < 1 := (y 1).isLt; show 0 = (y 1).val; omega
    | ⟨2, _⟩ => exact h2)
  unfold resG
  rw [hp, hy]

theorem flushed_eq (t : Fin cfg3.N) :
    (Hand.dat3 V c).flushed 3 t = ((cfg3.win 3).blk t).view.read (Elt Ideal) (resG V c) := by
  obtain ⟨-, -, -, h0, h1, h2⟩ := idx_facts t
  show (cfg3.win 3).cut (cfg3.grid.coords t) ((Hand.dat3 V c).after 3 t) = _
  rw [Hand.after3_3]
  funext y
  rw [View.read_apply]
  have y0 : (y 0).val < 1 := (y 0).isLt
  refine (resG_apply V c t _ ((cfg3.win 3).xinj (cfg3.grid.coords t) y) ?_ ?_).symm
  · show win3_3.index t 0 * 1 + 1 * (y 0).val = t.val
    rw [h0]; omega
  · exact emb_zero h2

theorem final : (Hand.dat3 V c).arrAt 3 cfg3.N = resG V c :=
  (Hand.dat3 V c).arrAt_eq_of_cover 3 (resG V c) (fun t _ => flushed_eq V c t) fun i =>
    ⟨pt (i 0), flush3_3 _, by
      obtain ⟨-, -, -, h0, h1, h2⟩ := idx_facts (pt (i 0))
      have hp : (pt (i 0)).val = (i 0 : Nat) := rfl
      have b1 : (i 1 : Nat) < 1 := (i 1).isLt
      have b2 : (i 2 : Nat) < 128 := (i 2).isLt
      show i ∈ ((View.whole main_v84).slice (win3_3.rect (pt (i 0)))).set
      rw [View.set_slice_whole, Rect.mem_set_unit]
      intro a
      match a with
      | ⟨0, _⟩ =>
        show win3_3.index _ 0 * 1 ≤ (i 0 : Nat) ∧ (i 0 : Nat) < win3_3.index _ 0 * 1 + 1
        rw [h0]; omega
      | ⟨1, _⟩ => exact in_blk_zero h1 b1
      | ⟨2, _⟩ => exact in_blk_zero h2 b2⟩

end LossR

open LossR

abbrev loss3X : Fin 131072 → Fin 256 → EReal := fun r d => (V c main_arg1 : S131072x256.Idx → EReal) (ix2 r d)
abbrev loss3L : Fin 131072 → BitVec 32 := fun r => (V c main_v83 : S131072x1.Idx → BitVec 32) (ix2 r 0)
abbrev loss3P : Fin 512 → Fin 256 → EReal := fun k d => (V c main_v71 : S512x256.Idx → EReal) (ix2 k d)

abbrev loss3row (t : Fin 32) (r : Fin 4096) : Fin 131072 := ⟨t.val * 4096 + r.val, by have := t.isLt; have := r.isLt; omega⟩

theorem loss3_nll (t : Fin 32) :
    ((Hand.dat3 (F := Ideal) V c).arrAt 3 cfg3.N : S32x1x128.Idx → EReal) (ix3 t 0 0)
      = ∑ r : Fin 4096, Spec.nll (C := 512) (loss3X V c) (loss3L V c) (loss3P V c) (loss3row t r) := by
  rw [final V c]
  show Hand.out3_3 _ _ _ (ix3 0 0 0) = _
  unfold Hand.out3_3
  refine (pay1_lane0 _ _).trans ?_
  refine (pay4_apply _ _ _ (ix1 0)).trans ?_
  exact Finset.sum_congr rfl fun r _ => nll_congr _ _ _ _ _ _ r (loss3row t r) (funext fun d => xblk_apply V c _ r d _ rfl)
    (lblk_apply V c _ r _ rfl) (funext fun k => funext fun d => pblk_apply V c _ k d)

theorem loss3_valid (t : Fin 32) :
    ((Hand.dat3 (F := Ideal) V c).arrAt 3 cfg3.N : S32x1x128.Idx → EReal) (ix3 t 0 1)
      = ∑ r : Fin 4096, Spec.valid (loss3L V c (loss3row t r)) := by
  rw [final V c]
  show Hand.out3_3 _ _ _ (ix3 0 0 1) = _
  unfold Hand.out3_3
  refine (pay1_lane1 _ _).trans ?_
  exact Finset.sum_congr rfl fun r _ => (valid_apply _ r).trans (congrArg Spec.valid (lblk_apply V c _ r _ rfl))

end Cert.KernelIdeal.Val

end
-- ==== Proof.KBridge.lean ====
import proofs.«418718_j72808285602381_2_alg».proof.Proof.KBridgeParts
import proofs.«418718_j72808285602381_2_alg».proof.Proof.KI.Run
import proofs.«418718_j72808285602381_2_alg».proof.Proof.Val.Host
import proofs.«418718_j72808285602381_2_alg».proof.Proof.Val.HostRcl
import proofs.«418718_j72808285602381_2_alg».proof.Proof.Val.UpdF
import proofs.«418718_j72808285602381_2_alg».proof.Proof.Val.UpdR
import proofs.«418718_j72808285602381_2_alg».proof.Proof.Val.LossF
import proofs.«418718_j72808285602381_2_alg».proof.Proof.Val.LossR

noncomputable section

namespace Cert.KernelIdeal.Val

open Idealize.ShloMosaic Idealize.ShloMosaic.TcCoe Idealize.ShloMosaic.ValueIdx
open Cert.KernelIdeal Cert.KernelIdeal.Gen

variable (m : (ℓ : Loc nD τ sig) → Buf (Elt Ideal) ℓ) (c : Dev nD)

-- The first result is the loss of the first branch's arguments, assembled from its per-group sums and counts and per-tile loss sums.
theorem kernel_loss_fti :
    V13 m (Hand.outs m) c (Proc.devRef .tc main_v82) ix0
      = Spec.loss (C := 128) (Xf m c) (Lf m c)
          (Spec.protoUpd (Spec.sums (Xf m c) (Lf m c)) (Spec.counts (Lf m c)) (Pf m c)) := by
  obtain ⟨a1, -, -, -, -, -, a9, -, -⟩ := carried m (Hand.outs m) c main_arg0 (by decide)
  obtain ⟨-, -, -, -, -, l8, -⟩ := carried m (Hand.outs m) c main_arg2 (by decide)
  obtain ⟨-, p2, -⟩ := carried m (Hand.outs m) c main_arg4 (by decide)
  exact loss_of_parts 2 4 8192 8 8192 (by norm_num) (by norm_num) _ (UpdF.rowsF (Hand.X1 m) c) (loss2X (Hand.X9 m) c)
    _ (UpdF.lblF (Hand.X1 m) c) (loss2L (Hand.X9 m) c) (Pf m c) _ _ (loss2P (Hand.X9 m) c) _ _ _
    (funext fun r => funext fun d => congrFun a1 (ix2 r d))
    (funext fun r => host0_labels (V0 m c) r)
    (funext fun r => funext fun d => congrFun a9 (ix2 r d))
    (funext fun r => (host2_2_labels (V8 m (Hand.outs m) c) r).trans (congrFun l8 _))
    (fun i k d => (congrFun ((V2_main_v1_0 m _ c).trans (Hand.outs_v1_0 m c)) _).trans (upd0_sums (Hand.X1 m) c i k d))
    (fun i k => (congrFun ((V2_main_v1_1 m _ c).trans (Hand.outs_v1_1 m c)) _).trans (upd0_counts (Hand.X1 m) c i k 0))
    (fun k d => (congrFun (V9_main_v35 m (Hand.outs m) c) _).trans <|
      (host1_protos (V2 m (Hand.outs m) c) k d).trans (by rw [p2]))
    (fun t => (congrFun ((V10_main_v73 m _ c).trans (Hand.outs_v73 m c)) _).trans (loss2_nll (Hand.X9 m) c t))
    (fun t => (congrFun ((V10_main_v73 m _ c).trans (Hand.outs_v73 m c)) _).trans (loss2_valid (Hand.X9 m) c t))
    ((congrFun (V13_main_v82 m (Hand.outs m) c) _).trans (host3_loss (V10 m (Hand.outs m) c)))

-- The second result is the same of the second branch's arguments.
theorem kernel_loss_rcl :
    V13 m (Hand.outs m) c (Proc.devRef .tc main_v93) ix0
      = Spec.loss (C := 512) (Xr m c) (Lr m c)
          (Spec.protoUpd (Spec.sums (Xr m c) (Lr m c)) (Spec.counts (Lr m c)) (Pr m c)) := by
  obtain ⟨-, -, -, a5, -, -, -, -, a11⟩ := carried m (Hand.outs m) c main_arg1 (by decide)
  obtain ⟨-, -, l4, -, -, -, -, l10, -⟩ := carried m (Hand.outs m) c main_arg3 (by decide)
  obtain ⟨-, -, -, -, p6, -⟩ := carried m (Hand.outs m) c main_arg5 (by decide)
  exact loss_of_parts 2 16 4096 32 4096 (by norm_num) (by norm_num) _ (UpdR.rowsF (Hand.X5 m) c) (loss3X (Hand.X11 m) c)
    _ (UpdR.lblF (Hand.X5 m) c) (loss3L (Hand.X11 m) c) (Pr m c) _ _ (loss3P (Hand.X11 m) c) _ _ _
    (funext fun r => funext fun d => congrFun a5 (ix2 r d))
    (funext fun r => (host1_2_labels (V4 m (Hand.outs m) c) r).trans (congrFun l4 _))
    (funext fun r => funext fun d => congrFun a11 (ix2 r d))
    (funext fun r => (host3_labels (V10 m (Hand.outs m) c) r).trans (congrFun l10 _))
    (fun i k d => (congrFun ((V6_main_v37_0 m _ c).trans (Hand.outs_v37_0 m c)) _).trans (upd1_sums (Hand.X5 m) c i k d))
    (fun i k => (congrFun ((V6_main_v37_1 m _ c).trans (Hand.outs_v37_1 m c)) _).trans (upd1_counts (Hand.X5 m) c i k 0))
    (fun k d => (congrFun (V11_main_v71 m (Hand.outs m) c) _).trans <|
      (host2_protos (V6 m (Hand.outs m) c) k d).trans (by rw [p6]))
    (fun t => (congrFun ((V12_main_v84 m _ c).trans (Hand.outs_v84 m c)) _).trans (loss3_nll (Hand.X11 m) c t))
    (fun t => (congrFun ((V12_main_v84 m _ c).trans (Hand.outs_v84 m c)) _).trans (loss3_valid (Hand.X11 m) c t))
    (host4_loss (V12 m (Hand.outs m) c))

end Cert.KernelIdeal.Val

end
-- ==== Proof.LibTRef.lean ====
import Idealize.ShloMosaic.Lib.StableHlo

namespace TRefCasts

open Idealize.ShloMosaic Idealize.ShloMosaic.StableHlo

variable {sig : RefSig} {T : BufTy} {Val : EltTy → Type}

/-- Moving contents along the equation between a buffer's type and its value's type, and back, is the identity. -/
theorem ofBuf_toBuf (x : TRef sig T) (v : T.Contents Val) : x.ofBuf (x.toBuf v) = v := by
  obtain ⟨r, h, hd, hu⟩ := x
  subst h
  rfl

theorem toBuf_ofBuf (x : TRef sig T) (v : x.ref.ty.Contents Val) : x.toBuf (x.ofBuf v) = v := by
  obtain ⟨r, h, hd, hu⟩ := x
  subst h
  rfl

end TRefCasts
-- ==== Proof.Ref.Link.lean ====
import proofs.«418718_j72808285602381_2_alg».proof.Proof.RefRun
import proofs.«418718_j72808285602381_2_alg».proof.Proof.RefRead
import proofs.«418718_j72808285602381_2_alg».proof.Proof.LibTRef
import Idealize.ShloMosaic.Lib.StableHlo.Run

noncomputable section

namespace Cert.ReferenceIdeal.RefVal

open Cert.ReferenceIdeal Cert.ReferenceIdeal.Gen Cert.ReferenceIdeal.Read Idealize.ShloMosaic Idealize.ShloMosaic.TcCoe Idealize.SL.Sem Idealize.ShloMosaic.StableHlo
open Cert.ReferenceIdeal.Value (ops)

variable {F : FTy → Type} [FloatOps F]

/-- The `n` operations of the program from position `a` on. -/
def seg (a n : Nat) : List (HloOp τ sig (Elt F)) := (ops.drop a).take n

/-- Eight consecutive stretches: each branch's update in two halves, then each branch's loss in two halves. -/
theorem ops_split : (ops : List (HloOp τ sig (Elt F)))
    = seg 0 34 ++ (seg 34 39 ++ (seg 73 34 ++ (seg 107 39 ++ (seg 146 34 ++ (seg 180 36 ++ (seg 216 34 ++ seg 250 36)))))) := rfl

/-- An operation writes its own result buffer, never an argument. -/
theorem ops_arg : (ops : List (HloOp τ sig (Elt F))).Forall fun op =>
    ∀ r : Ref sig .tc, Proc.devRef (τ := τ) .tc r ∈ op.writes → r ∉ [main_arg0, main_arg1, main_arg2, main_arg3, main_arg4, main_arg5] := by
  simp only [List.Forall]
  repeat' apply And.intro
  all_goals (intro r hr; simp only [nullary_writes, unary_writes, binary_writes, ternary_writes, reshape_writes, Finset.mem_singleton] at hr; obtain rfl := Proc.devRef_injective _ hr; decide)

variable (W : Valuation τ sig (Elt F))

/-- So every stretch leaves the arguments as found. -/
theorem seg_arg (a n : Nat) {r : Ref sig .tc} (hr : r ∈ [main_arg0, main_arg1, main_arg2, main_arg3, main_arg4, main_arg5]) : after (seg a n) W (no_index (Proc.devRef .tc r)) = W (Proc.devRef .tc r) :=
  after_of_forall_not_mem _ W fun op h hw => List.forall_iff_forall_mem.mp ops_arg op (List.mem_of_mem_drop (List.mem_of_mem_take h)) r hw hr

theorem after_arg0 : after (ops (F := F)) W (Proc.devRef .tc main_arg0) = W (Proc.devRef .tc main_arg0) := seg_arg W 0 286 (by decide)
theorem after_arg1 : after (ops (F := F)) W (Proc.devRef .tc main_arg1) = W (Proc.devRef .tc main_arg1) := seg_arg W 0 286 (by decide)
theorem after_arg2 : after (ops (F := F)) W (Proc.devRef .tc main_arg2) = W (Proc.devRef .tc main_arg2) := seg_arg W 0 286 (by decide)
theorem after_arg3 : after (ops (F := F)) W (Proc.devRef .tc main_arg3) = W (Proc.devRef .tc main_arg3) := seg_arg W 0 286 (by decide)
theorem after_arg4 : after (ops (F := F)) W (Proc.devRef .tc main_arg4) = W (Proc.devRef .tc main_arg4) := seg_arg W 0 286 (by decide)
theorem after_arg5 : after (ops (F := F)) W (Proc.devRef .tc main_arg5) = W (Proc.devRef .tc main_arg5) := seg_arg W 0 286 (by decide)

/-- A stretch of the other branch leaves a carried buffer as found. -/
theorem s3_v51 : after (seg 73 34) W (Proc.devRef .tc main_v51) = W (Proc.devRef .tc main_v51) := by dsimp only [seg, ops, List.drop, List.take]; after_results_simp
theorem s4_v51 : after (seg 107 39) W (Proc.devRef .tc main_v51) = W (Proc.devRef .tc main_v51) := by dsimp only [seg, ops, List.drop, List.take]; after_results_simp
theorem s5_v103 : after (seg 146 34) W (Proc.devRef .tc main_v103) = W (Proc.devRef .tc main_v103) := by dsimp only [seg, ops, List.drop, List.take]; after_results_simp
theorem s6_v103 : after (seg 180 36) W (Proc.devRef .tc main_v103) = W (Proc.devRef .tc main_v103) := by dsimp only [seg, ops, List.drop, List.take]; after_results_simp
theorem s7_v130 : after (seg 216 34) W (Proc.devRef .tc main_v130) = W (Proc.devRef .tc main_v130) := by dsimp only [seg, ops, List.drop, List.take]; after_results_simp
theorem s8_v130 : after (seg 250 36) W (Proc.devRef .tc main_v130) = W (Proc.devRef .tc main_v130) := by dsimp only [seg, ops, List.drop, List.take]; after_results_simp

/-- At these buffers the value's type is the buffer's own, and moving contents between the two is the identity. -/
theorem ofBuf_v119 (v : (⟨S65536x128, .f32⟩ : BufTy).Contents (Elt F)) : (TRef.of (T := ⟨S65536x128, .f32⟩) main_v119).ofBuf v = v := rfl
theorem toBuf_v123 (v : (⟨S65536x1, .f32⟩ : BufTy).Contents (Elt F)) : (TRef.of (T := ⟨S65536x1, .f32⟩) main_v123).toBuf v = v := rfl
theorem ofBuf_v146 (v : (⟨S131072x512, .f32⟩ : BufTy).Contents (Elt F)) : (TRef.of (T := ⟨S131072x512, .f32⟩) main_v146).ofBuf v = v := rfl
theorem toBuf_v150 (v : (⟨S131072x1, .f32⟩ : BufTy).Contents (Elt F)) : (TRef.of (T := ⟨S131072x1, .f32⟩) main_v150).toBuf v = v := rfl

variable {x0 : (⟨S65536x256, .f32⟩ : BufTy).Contents (Elt F)} {x2 : (⟨S65536, .i32⟩ : BufTy).Contents (Elt F)} {x4 : (⟨S128x256, .f32⟩ : BufTy).Contents (Elt F)}
  {x1 : (⟨S131072x256, .f32⟩ : BufTy).Contents (Elt F)} {x3 : (⟨S131072, .i32⟩ : BufTy).Contents (Elt F)} {x5 : (⟨S512x256, .f32⟩ : BufTy).Contents (Elt F)}

/-- A stretch entered with the buffers it reads at their stages of the arguments leaves the buffers it hands on at theirs. -/
theorem s1_v16 (h0 : W (Proc.devRef .tc main_arg0) = x0) (h2 : W (Proc.devRef .tc main_arg2) = x2) : after (seg 0 34) W (Proc.devRef .tc main_v16) = val_main_v16 (F := F) x0 x2 := by
  dsimp only [seg, ops, List.drop, List.take]; after_results_simp; rw [h0, h2]; rfl
theorem s1_v21 (h2 : W (Proc.devRef .tc main_arg2) = x2) : after (seg 0 34) W (Proc.devRef .tc main_v21) = val_main_v21 (F := F) x2 := by
  dsimp only [seg, ops, List.drop, List.take]; after_results_simp; rw [h2]; rfl
theorem s2_v51 (h16 : W (Proc.devRef .tc main_v16) = val_main_v16 (F := F) x0 x2) (h21 : W (Proc.devRef .tc main_v21) = val_main_v21 (F := F) x2) (h4 : W (Proc.devRef .tc main_arg4) = x4) :
    after (seg 34 39) W (Proc.devRef .tc main_v51) = val_main_v51 (F := F) x0 x2 x4 := by
  dsimp only [seg, ops, List.drop, List.take]; after_results_simp; rw [h16, h21, h4]; rfl
theorem s3_v68 (h1 : W (Proc.devRef .tc main_arg1) = x1) (h3 : W (Proc.devRef .tc main_arg3) = x3) : after (seg 73 34) W (Proc.devRef .tc main_v68) = val_main_v68 (F := F) x1 x3 := by
  dsimp only [seg, ops, List.drop, List.take]; after_results_simp; rw [h1, h3]; rfl
theorem s3_v73 (h3 : W (Proc.devRef .tc main_arg3) = x3) : after (seg 73 34) W (Proc.devRef .tc main_v73) = val_main_v73 (F := F) x3 := by
  dsimp only [seg, ops, List.drop, List.take]; after_results_simp; rw [h3]; rfl
theorem s4_v103 (h68 : W (Proc.devRef .tc main_v68) = val_main_v68 (F := F) x1 x3) (h73 : W (Proc.devRef .tc main_v73) = val_main_v73 (F := F) x3) (h5 : W (Proc.devRef .tc main_arg5) = x5) :
    after (seg 107 39) W (Proc.devRef .tc main_v103) = val_main_v103 (F := F) x1 x3 x5 := by
  dsimp only [seg, ops, List.drop, List.take]; after_results_simp; rw [h68, h73, h5]; rfl
theorem s5_v106 (h2 : W (Proc.devRef .tc main_arg2) = x2) : after (seg 146 34) W (Proc.devRef .tc main_v106) = val_main_v106 (F := F) x2 := by
  dsimp only [seg, ops, List.drop, List.take]; after_results_simp; rw [h2]; rfl
theorem s5_v119 (h51 : W (Proc.devRef .tc main_v51) = val_main_v51 (F := F) x0 x2 x4) (h0 : W (Proc.devRef .tc main_arg0) = x0) :
    after (seg 146 34) W (Proc.devRef .tc main_v119) = val_main_v119 (F := F) x0 x2 x4 := by
  dsimp only [seg, ops, List.drop, List.take]; after_results_simp; simp only [TRefCasts.ofBuf_toBuf, TRefCasts.toBuf_ofBuf]; rw [h51, h0]; rfl
theorem s6_v130 (h106 : W (Proc.devRef .tc main_v106) = val_main_v106 (F := F) x2) (h119 : W (Proc.devRef .tc main_v119) = val_main_v119 (F := F) x0 x2 x4) (h2 : W (Proc.devRef .tc main_arg2) = x2) :
    after (seg 180 36) W (Proc.devRef .tc main_v130) = val_main_v130 (F := F) x0 x2 x4 := by
  dsimp only [seg, ops, List.drop, List.take]; after_results_simp; simp only [TRefCasts.ofBuf_toBuf, TRefCasts.toBuf_ofBuf]; rw [h106, h119, h2]; simp only [ofBuf_v119, toBuf_v123]; rfl
theorem s7_v133 (h3 : W (Proc.devRef .tc main_arg3) = x3) : after (seg 216 34) W (Proc.devRef .tc main_v133) = val_main_v133 (F := F) x3 := by
  dsimp only [seg, ops, List.drop, List.take]; after_results_simp; rw [h3]; rfl
theorem s7_v146 (h103 : W (Proc.devRef .tc main_v103) = val_main_v103 (F := F) x1 x3 x5) (h1 : W (Proc.devRef .tc main_arg1) = x1) :
    after (seg 216 34) W (Proc.devRef .tc main_v146) = val_main_v146 (F := F) x1 x3 x5 := by
  dsimp only [seg, ops, List.drop, List.take]; after_results_simp; simp only [TRefCasts.ofBuf_toBuf, TRefCasts.toBuf_ofBuf]; rw [h103, h1]; rfl
theorem s8_v157 (h133 : W (Proc.devRef .tc main_v133) = val_main_v133 (F := F) x3) (h146 : W (Proc.devRef .tc main_v146) = val_main_v146 (F := F) x1 x3 x5) (h3 : W (Proc.devRef .tc main_arg3) = x3) :
    after (seg 250 36) W (Proc.devRef .tc main_v157) = val_main_v157 (F := F) x1 x3 x5 := by
  dsimp only [seg, ops, List.drop, List.take]; after_results_simp; simp only [TRefCasts.ofBuf_toBuf, TRefCasts.toBuf_ofBuf]; rw [h133, h146, h3]; simp only [ofBuf_v146, toBuf_v150]; rfl

/-- The first branch's loss after the whole program is its stage of that branch's three arguments as the program found them. -/
theorem after_v130 : after (ops (F := F)) W (Proc.devRef .tc main_v130)
    = val_main_v130 (F := F) (W (Proc.devRef .tc main_arg0)) (W (Proc.devRef .tc main_arg2)) (W (Proc.devRef .tc main_arg4)) := by
  rw [ops_split]; simp only [after_append]
  rw [s8_v130, s7_v130]
  refine s6_v130 _ (s5_v106 _ (by simp (disch := decide) only [seg_arg])) (s5_v119 _ ?_ (by simp (disch := decide) only [seg_arg])) (by simp (disch := decide) only [seg_arg])
  rw [s4_v51, s3_v51]
  exact s2_v51 _ (s1_v16 _ rfl rfl) (s1_v21 _ rfl) (seg_arg _ 0 34 (by decide))

/-- The second branch's likewise. -/
theorem after_v157 : after (ops (F := F)) W (Proc.devRef .tc main_v157)
    = val_main_v157 (F := F) (W (Proc.devRef .tc main_arg1)) (W (Proc.devRef .tc main_arg3)) (W (Proc.devRef .tc main_arg5)) := by
  rw [ops_split]; simp only [after_append]
  refine s8_v157 _ (s7_v133 _ (by simp (disch := decide) only [seg_arg])) (s7_v146 _ ?_ (by simp (disch := decide) only [seg_arg])) (by simp (disch := decide) only [seg_arg])
  rw [s6_v103, s5_v103]
  exact s4_v103 _ (s3_v68 _ (by simp (disch := decide) only [seg_arg]) (by simp (disch := decide) only [seg_arg])) (s3_v73 _ (by simp (disch := decide) only [seg_arg])) (by simp (disch := decide) only [seg_arg])

end Cert.ReferenceIdeal.RefVal

end
-- ==== Proof.LibScatterRows.lean ====
import Idealize.ShloMosaic.PureOps
import Idealize.ShloMosaic.Lib.ValueIdx

noncomputable section

namespace ScatterRows

open Idealize.ShloMosaic Idealize.ShloMosaic.ValueIdx

abbrev rowDims (N C P : Nat)
    (wf : ScatterDims.WF ⟨2, ![N, C]⟩ ⟨2, ![P, 1]⟩ ⟨2, ![P, C]⟩ [1] [0] [0] 1) :
    ScatterDims ⟨2, ![N, C]⟩ ⟨2, ![P, 1]⟩ ⟨2, ![P, C]⟩ where
  updateWindowDims := [1]
  insertedWindowDims := [0]
  scatterDimsToOperandDims := [0]
  indexVectorDim := 1
  wf := wf

variable {N C P w : Nat} (wf : ScatterDims.WF ⟨2, ![N, C]⟩ ⟨2, ![P, 1]⟩ ⟨2, ![P, C]⟩ [1] [0] [0] 1)

theorem start_zero (j : (⟨2, ![P, C]⟩ : Shape).Idx) (idx : IVec ⟨2, ![P, 1]⟩ w) :
    (rowDims N C P wf).start j idx 0 = (idx (ix2 (j 0) (0 : Fin 1))).toInt := by
  unfold ScatterDims.start
  rw [dif_pos (show (0 : Fin 2) ∈ (rowDims N C P wf).scatterDimsToOperandDims from List.mem_singleton.mpr rfl)]
  have hsi : (rowDims N C P wf).siIdx j ⟨List.idxOf (0 : Fin 2) (rowDims N C P wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem start_one (j : (⟨2, ![P, C]⟩ : Shape).Idx) (idx : IVec ⟨2, ![P, 1]⟩ w) :
    (rowDims N C P wf).start j idx 1 = 0 := by
  unfold ScatterDims.start
  rw [dif_neg (show ¬ (1 : Fin 2) ∈ (rowDims N C P wf).scatterDimsToOperandDims from
    (show ¬ (1 : Fin 2) ∈ ([0] : List (Fin 2)) by decide))]

theorem window_zero (j : (⟨2, ![P, C]⟩ : Shape).Idx) : (rowDims N C P wf).window j 0 = 0 := by
  unfold ScatterDims.window
  rw [dif_neg (show ¬ (0 : Fin 2) ∈ (rowDims N C P wf).sKept from
    (show ¬ (0 : Fin 2) ∈ ([1] : List (Fin 2)) by decide))]

theorem window_one (j : (⟨2, ![P, C]⟩ : Shape).Idx) : (rowDims N C P wf).window j 1 = (j 1).val := by
  unfold ScatterDims.window
  rw [dif_pos (show (1 : Fin 2) ∈ (rowDims N C P wf).sKept from
    (show (1 : Fin 2) ∈ ([1] : List (Fin 2)) by decide))]
  rfl

-- An update row lands on result index `i` exactly when its index word, read signed, is `i`'s row and the columns agree.
theorem resultIdx?_eq_some_iff (idx : IVec ⟨2, ![P, 1]⟩ w) (j : (⟨2, ![P, C]⟩ : Shape).Idx)
    (i : (⟨2, ![N, C]⟩ : Shape).Idx) :
    (rowDims N C P wf).resultIdx? j idx = some i
      ↔ (idx (ix2 (j 0) (0 : Fin 1))).toInt = ((i 0).val : Int) ∧ (j 1).val = (i 1).val := by
  have hi0 : (i 0).val < N := (i 0).isLt
  have hi1 : (i 1).val < C := (i 1).isLt
  have hj1 : (j 1).val < C := (j 1).isLt
  unfold ScatterDims.resultIdx?
  simp only [Option.dite_none_right_eq_some, Option.some.injEq, funext_iff, Fin.forall_fin_two, Fin.ext_iff,
    start_zero wf j idx, start_one wf j idx, window_zero wf j, window_one wf j,
    Matrix.cons_val_zero, Matrix.cons_val_one, Matrix.head_cons]
  exact ⟨fun ⟨h, e⟩ => by omega, fun h => ⟨by omega, by omega⟩⟩

open scoped BigOperators

-- A scatter-add of rows, read at an index: the old entry plus that column of the update rows whose index word names the row.
theorem scatterAdd_rows_apply {φ : FTy} (x : FVec Ideal ⟨2, ![N, C]⟩ φ) (idx : IVec ⟨2, ![P, 1]⟩ w)
    (upd : FVec Ideal ⟨2, ![P, C]⟩ φ) (i : (⟨2, ![N, C]⟩ : Shape).Idx) :
    Host.scatterAdd (rowDims N C P wf) x idx upd i
      = x i + ∑ p ∈ Finset.univ.filter (fun p : Fin P => (idx (ix2 p (0 : Fin 1))).toInt = ((i 0).val : Int)),
          upd (ix2 p (i 1)) := by
  show Ideal.hostScatterAdd (rowDims N C P wf) x idx upd i = _
  unfold Ideal.hostScatterAdd
  congr 1
  have h1 : ∀ j, (rowDims N C P wf).resultIdx? j idx = some i → ix2 (j 0) (i 1) = j := fun j hj => by
    rw [← Fin.ext ((resultIdx?_eq_some_iff wf idx j i).1 hj).2]; exact (eq_ix2 j).symm
  exact Finset.sum_nbij' (fun j => (j 0 : Fin P)) (fun p => ix2 p (i 1))
    (fun j hj => Finset.mem_filter.2 ⟨Finset.mem_univ _,
      ((resultIdx?_eq_some_iff wf idx j i).1 (Finset.mem_filter.1 hj).2).1⟩)
    (fun p hp => Finset.mem_filter.2 ⟨Finset.mem_univ _,
      (resultIdx?_eq_some_iff wf idx (ix2 p (i 1)) i).2 ⟨(Finset.mem_filter.1 hp).2, rfl⟩⟩)
    (fun j hj => h1 j (Finset.mem_filter.1 hj).2) (fun _ _ => rfl)
    (fun j hj => congrArg upd (h1 j (Finset.mem_filter.1 hj).2).symm)

end ScatterRows

end
-- ==== Proof.LibScatterVec.lean ====
import Idealize.ShloMosaic.PureOps
import Idealize.ShloMosaic.Lib.ValueIdx

noncomputable section

namespace ScatterVec

open Idealize.ShloMosaic Idealize.ShloMosaic.ValueIdx

abbrev vecDims (N P : Nat)
    (wf : ScatterDims.WF ⟨1, ![N]⟩ ⟨2, ![P, 1]⟩ ⟨1, ![P]⟩ [] [0] [0] 1) :
    ScatterDims ⟨1, ![N]⟩ ⟨2, ![P, 1]⟩ ⟨1, ![P]⟩ where
  updateWindowDims := []
  insertedWindowDims := [0]
  scatterDimsToOperandDims := [0]
  indexVectorDim := 1
  wf := wf

variable {N P w : Nat} (wf : ScatterDims.WF ⟨1, ![N]⟩ ⟨2, ![P, 1]⟩ ⟨1, ![P]⟩ [] [0] [0] 1)

theorem start_zero (j : (⟨1, ![P]⟩ : Shape).Idx) (idx : IVec ⟨2, ![P, 1]⟩ w) :
    (vecDims N P wf).start j idx 0 = (idx (ix2 (j 0) (0 : Fin 1))).toInt := by
  unfold ScatterDims.start
  rw [dif_pos (show (0 : Fin 1) ∈ (vecDims N P wf).scatterDimsToOperandDims from List.mem_singleton.mpr rfl)]
  have hsi : (vecDims N P wf).siIdx j ⟨List.idxOf (0 : Fin 1) (vecDims N P wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem window_zero (j : (⟨1, ![P]⟩ : Shape).Idx) : (vecDims N P wf).window j 0 = 0 := by
  unfold ScatterDims.window
  rw [dif_neg (show ¬ (0 : Fin 1) ∈ (vecDims N P wf).sKept from
    (show ¬ (0 : Fin 1) ∈ ([] : List (Fin 1)) by decide))]

-- An update lands on result index `i` exactly when its index word, read signed, is `i`.
theorem resultIdx?_eq_some_iff (idx : IVec ⟨2, ![P, 1]⟩ w) (j : (⟨1, ![P]⟩ : Shape).Idx)
    (i : (⟨1, ![N]⟩ : Shape).Idx) :
    (vecDims N P wf).resultIdx? j idx = some i
      ↔ (idx (ix2 (j 0) (0 : Fin 1))).toInt = ((i 0).val : Int) := by
  have hi0 : (i 0).val < N := (i 0).isLt
  unfold ScatterDims.resultIdx?
  simp only [Option.dite_none_right_eq_some, Option.some.injEq, funext_iff, Fin.forall_fin_one, Fin.ext_iff,
    start_zero wf j idx, window_zero wf j, Matrix.cons_val_zero]
  exact ⟨fun ⟨h, e⟩ => by omega, fun h => ⟨by omega, by omega⟩⟩

open scoped BigOperators

-- A scatter-add into a vector, read at an index: the old entry plus the updates whose index word names it.
theorem scatterAdd_vec_apply {φ : FTy} (x : FVec Ideal ⟨1, ![N]⟩ φ) (idx : IVec ⟨2, ![P, 1]⟩ w)
    (upd : FVec Ideal ⟨1, ![P]⟩ φ) (i : (⟨1, ![N]⟩ : Shape).Idx) :
    Host.scatterAdd (vecDims N P wf) x idx upd i
      = x i + ∑ p ∈ Finset.univ.filter (fun p : Fin P => (idx (ix2 p (0 : Fin 1))).toInt = ((i 0).val : Int)),
          upd (ix1 p) := by
  show Ideal.hostScatterAdd (vecDims N P wf) x idx upd i = _
  unfold Ideal.hostScatterAdd
  congr 1
  exact Finset.sum_nbij' (fun j => (j 0 : Fin P)) (fun p => ix1 p)
    (fun j hj => Finset.mem_filter.2 ⟨Finset.mem_univ _,
      (resultIdx?_eq_some_iff wf idx j i).1 (Finset.mem_filter.1 hj).2⟩)
    (fun p hp => Finset.mem_filter.2 ⟨Finset.mem_univ _,
      (resultIdx?_eq_some_iff wf idx (ix1 p) i).2 (Finset.mem_filter.1 hp).2⟩)
    (fun j _ => (eq_ix1 j).symm) (fun _ _ => rfl) (fun j _ => congrArg upd (eq_ix1 j))

end ScatterVec

end
-- ==== Proof.Ref.UpdF.lean ====
import proofs.«418718_j72808285602381_2_alg».proof.Proof.RefRead
import proofs.«418718_j72808285602381_2_alg».proof.Proof.Spec
import proofs.«418718_j72808285602381_2_alg».proof.Proof.SpecLaws
import proofs.«418718_j72808285602381_2_alg».proof.Proof.LibScatterRows
import proofs.«418718_j72808285602381_2_alg».proof.Proof.LibScatterVec
import Idealize.ShloMosaic.PureOps.Ideal
import Idealize.ShloMosaic.PureOps.Ideal.Laws
import Idealize.ShloMosaic.Lib.ValueIdx
import Idealize.ShloMosaic.Lib.WordArith
import Mathlib.Data.EReal.Basic

noncomputable section

namespace Cert.ReferenceIdeal.RefVal.Upd

open Idealize.ShloMosaic Idealize.ShloMosaic.ValueIdx

theorem valid_bit (l : BitVec 32) : IntOp.cmpi .sge l 0#32 = if 0 ≤ l.toInt then 1#1 else 0#1 := by
  unfold IntOp.cmpi
  show BitVec.ofBool ((0#32).sle l) = _
  rw [BitVec.sle_eq_decide]
  by_cases h : 0 ≤ l.toInt
  · rw [if_pos h]; simp [h]
  · rw [if_neg h]; simp [h]

-- A label that passes the test is its own segment; one that fails goes to segment K, which is no class below K.
theorem seg_iff {K : Nat} (hK : K < 2 ^ 31) (l : BitVec 32) (k : Fin K) :
    (Scalar.select (IntOp.cmpi .sge l 0#32) l (BitVec.ofNat 32 K)).toInt = (k.val : Int) ↔ l = BitVec.ofNat 32 k.val := by
  have hk := k.isLt
  have hc := WordArith.toInt_ofNat_small k.val (by omega)
  rw [valid_bit]
  by_cases h : 0 ≤ l.toInt
  · rw [if_pos h, select_one]
    exact ⟨fun e => BitVec.eq_of_toInt_eq (by rw [e, hc]), fun e => by rw [e, hc]⟩
  · rw [if_neg h, select_zero, WordArith.toInt_ofNat_small K hK]
    exact ⟨fun e => by omega, fun e => by rw [e, hc] at h; omega⟩

theorem valid_of_class {K : Nat} (hK : K < 2 ^ 31) (l : BitVec 32) (k : Fin K) (h : l = BitVec.ofNat 32 k.val) :
    0 ≤ l.toInt := by
  rw [h, WordArith.toInt_ofNat_small k.val (by have := k.isLt; omega)]; omega

theorem gt_bit (a x y : EReal) :
    Scalar.select (Ideal.cmp .ogt a 0) x y = if 0 < a then x else y := by
  unfold Ideal.cmp Scalar.select
  by_cases h : 0 < a
  · simp [h]
  · simp [h]

end Cert.ReferenceIdeal.RefVal.Upd

namespace Cert.ReferenceIdeal.RefVal

open Cert.ReferenceIdeal Cert.ReferenceIdeal.Gen Cert.ReferenceIdeal.Read
open Idealize.ShloMosaic Idealize.ShloMosaic.ValueIdx Idealize.ShloMosaic.StableHlo Cert.ReferenceIdeal.RefVal.Upd
open scoped BigOperators

theorem idx_rownorm_fti (r : Fin 65536) (d j : Fin 256) :
    idx_main_v1 (idx_main_v2 (idx_main_v6 (ix2 r d))) j = ix2 r j := eq_ix2 _

theorem idx_rowtest_fti (r : Fin 65536) (d : Fin 256) :
    idx_main_v11 (idx_main_call1_v1 (ix2 r d)) = ix1 r := eq_ix1 _

theorem idx_segrows_fti (r : Fin 65536) : idx_main_v14 (ix2 r (0 : Fin 1)) = ix1 r := eq_ix1 _

theorem idx_segcnt_fti (r : Fin 65536) : idx_main_v19 (ix2 r (0 : Fin 1)) = ix1 r := eq_ix1 _

theorem idx_cnt_fti (k : Fin 128) (d : Fin 256) :
    idx_main_v24 (idx_main_v25 (ix2 k d)) = ix1 k := eq_ix1 _

theorem idx_meannorm_fti (k : Fin 128) (d j : Fin 256) :
    idx_main_v28 (idx_main_v29 (idx_main_v33 (ix2 k d))) j = ix2 k j := eq_ix2 _

theorem idx_mixnorm_fti (k : Fin 128) (d j : Fin 256) :
    idx_main_v41 (idx_main_v42 (idx_main_v46 (ix2 k d))) j = ix2 k j := eq_ix2 _

theorem idx_cntpos_fti (k : Fin 128) (d : Fin 256) :
    idx_main_v48 (idx_main_call2_v0 (ix2 k d)) = ix1 k := eq_ix1 _

variable (x0 : (⟨S65536x256, .f32⟩ : BufTy).Contents (Elt Ideal))
  (x2 : (⟨S65536, .i32⟩ : BufTy).Contents (Elt Ideal))
  (x4 : (⟨S128x256, .f32⟩ : BufTy).Contents (Elt Ideal))

abbrev rows_fti : Fin 65536 → Fin 256 → EReal := fun r d => x0 (ix2 r d)
abbrev lbls_fti : Fin 65536 → BitVec 32 := fun r => x2 (ix1 r)
abbrev mean_fti : Fin 128 → Fin 256 → EReal := fun c d =>
  Ideal.div (Spec.sums (rows_fti x0) (lbls_fti x2) c d) (max (Spec.counts (lbls_fti x2) c) Spec.one)

theorem ref_nrm_fti (r : Fin 65536) (d : Fin 256) :
    val_main_v7 (F := Ideal) x0 (ix2 r d) = Spec.nrm (rows_fti x0) r d := by
  rw [val_main_v7_apply, val_main_v6_apply, val_main_v5_apply, val_main_v3_apply, val_main_v2_apply,
    val_main_v1_apply, val_main_v4_apply, val_main_cst_0_apply, val_main_cst_apply]
  simp only [val_main_v0_apply, idx_rownorm_fti, Ideal.hostDivf_def, Ideal.maximumf_def, Ideal.hostUnary_sqrt_def,
    Ideal.mulf_def, Ideal.ofBits_def, Ideal.ofBits_zero_f32, zero_add]
  rfl

theorem ref_valid_fti (r : Fin 65536) :
    val_main_v9 (F := Ideal) x2 (ix1 r) = if 0 ≤ (x2 (ix1 r)).toInt then 1#1 else 0#1 := by
  rw [val_main_v9_apply, val_main_v8_apply, val_main_c_apply]
  exact valid_bit _

theorem ref_seg_fti (r : Fin 65536) (k : Fin 128) :
    (val_main_v10 (F := Ideal) x2 (ix1 r)).toInt = (k.val : Int) ↔ x2 (ix1 r) = BitVec.ofNat 32 k.val := by
  rw [val_main_v10_apply, val_main_v9_apply, val_main_v8_apply, val_main_c_apply, val_main_call0_v1_apply,
    val_main_call0_v0_apply, val_main_c_1_apply]
  exact seg_iff (K := 128) (by norm_num) _ k

theorem ref_masked_fti (r : Fin 65536) (d : Fin 256) :
    val_main_v12 (F := Ideal) x0 x2 (ix2 r d)
      = if 0 ≤ (x2 (ix1 r)).toInt then Spec.nrm (rows_fti x0) r d else 0 := by
  rw [val_main_v12_apply, val_main_call1_v1_apply, val_main_v11_apply, idx_rowtest_fti, ref_valid_fti, ref_nrm_fti,
    val_main_call1_v2_apply, val_main_call1_v0_apply, val_main_cst_2_apply, Ideal.ofBits_def, Ideal.ofBits_zero_f32]
  by_cases h : 0 ≤ (x2 (ix1 r)).toInt
  · rw [if_pos h, if_pos h, select_one]
  · rw [if_neg h, if_neg h, select_zero]

theorem ref_sums_fti (k : Fin 128) (d : Fin 256) :
    val_main_v16 (F := Ideal) x0 x2 (ix2 k d)
      = Spec.sums (rows_fti x0) (lbls_fti x2) k d := by
  rw [val_main_v16_apply]
  unfold val_main_v15
  rw [show scatter_S129x256_S65536x1_S65536x256_1_0_0_1
      = ScatterRows.rowDims 129 256 65536 Gen.scatter_S129x256_S65536x1_S65536x256_1_0_0_1_wf from rfl,
    ScatterRows.scatterAdd_rows_apply]
  show val_main_v13 (F := Ideal) _
      + ∑ p ∈ Finset.univ.filter (fun p : Fin 65536 =>
          (val_main_v14 (F := Ideal) x2 (ix2 p (0 : Fin 1))).toInt = (k.val : Int)),
        val_main_v12 (F := Ideal) x0 x2 (ix2 p d) = _
  rw [val_main_v13_apply, val_main_cst_3_apply, Ideal.ofBits_def, Ideal.ofBits_zero_f32, zero_add]
  have hf : (Finset.univ.filter fun p : Fin 65536 =>
        (val_main_v14 (F := Ideal) x2 (ix2 p (0 : Fin 1))).toInt = (k.val : Int))
      = Finset.univ.filter fun p : Fin 65536 => x2 (ix1 p) = BitVec.ofNat 32 k.val := by
    refine Finset.filter_congr fun p _ => ?_
    rw [val_main_v14_apply, idx_segrows_fti]
    exact ref_seg_fti x2 p k
  rw [hf]
  unfold Spec.sums
  rw [Spec.sum_oh_mul (lbls_fti x2) k (fun r => Spec.nrm (rows_fti x0) r d)]
  refine Finset.sum_congr rfl fun p hp => ?_
  rw [ref_masked_fti, if_pos (valid_of_class (K := 128) (by norm_num) _ k (Finset.mem_filter.1 hp).2)]

theorem ref_counts_fti (k : Fin 128) :
    val_main_v21 (F := Ideal) x2 (ix1 k) = Spec.counts (lbls_fti x2) k := by
  rw [val_main_v21_apply]
  unfold val_main_v20
  rw [show scatter_S129_S65536x1_S65536_n_0_0_1
      = ScatterVec.vecDims 129 65536 Gen.scatter_S129_S65536x1_S65536_n_0_0_1_wf from rfl,
    ScatterVec.scatterAdd_vec_apply]
  show val_main_v18 (F := Ideal) _
      + ∑ p ∈ Finset.univ.filter (fun p : Fin 65536 =>
          (val_main_v19 (F := Ideal) x2 (ix2 p (0 : Fin 1))).toInt = (k.val : Int)),
        val_main_v17 (F := Ideal) x2 (ix1 p) = _
  rw [val_main_v18_apply, val_main_cst_4_apply, Ideal.ofBits_def, Ideal.ofBits_zero_f32, zero_add]
  have hf : (Finset.univ.filter fun p : Fin 65536 =>
        (val_main_v19 (F := Ideal) x2 (ix2 p (0 : Fin 1))).toInt = (k.val : Int))
      = Finset.univ.filter fun p : Fin 65536 => x2 (ix1 p) = BitVec.ofNat 32 k.val := by
    refine Finset.filter_congr fun p _ => ?_
    rw [val_main_v19_apply, idx_segcnt_fti]
    exact ref_seg_fti x2 p k
  rw [hf]
  unfold Spec.counts
  rw [Spec.sum_oh (lbls_fti x2) k]
  refine Finset.sum_congr rfl fun p hp => ?_
  rw [val_main_v17_apply, ref_valid_fti, if_pos (valid_of_class (K := 128) (by norm_num) _ k (Finset.mem_filter.1 hp).2)]
  show ((((1#1 : BitVec 1).toNat : ℕ) : ℝ) : EReal) = 1
  simp

theorem ref_mean_fti (k : Fin 128) (d : Fin 256) :
    val_main_v26 (F := Ideal) x0 x2 (ix2 k d)
      = mean_fti x0 x2 k d := by
  rw [val_main_v26_apply, ref_sums_fti, val_main_v25_apply, val_main_v24_apply, idx_cnt_fti, val_main_v23_apply,
    ref_counts_fti, val_main_v22_apply, val_main_cst_5_apply]
  rfl

theorem ref_mean_nrm_fti (k : Fin 128) (d : Fin 256) :
    val_main_v34 (F := Ideal) x0 x2 (ix2 k d)
      = Spec.nrm (mean_fti x0 x2) k d := by
  rw [val_main_v34_apply, val_main_v33_apply, val_main_v32_apply, val_main_v30_apply, val_main_v29_apply,
    val_main_v28_apply, val_main_v31_apply, val_main_cst_7_apply, val_main_cst_6_apply]
  simp only [val_main_v27_apply, idx_meannorm_fti, ref_mean_fti, Ideal.hostDivf_def, Ideal.maximumf_def,
    Ideal.hostUnary_sqrt_def, Ideal.mulf_def, Ideal.ofBits_def, Ideal.ofBits_zero_f32, zero_add]
  rfl

theorem ref_mix_fti (k : Fin 128) (d : Fin 256) :
    val_main_v39 (F := Ideal) x0 x2 x4 (ix2 k d)
      = Spec.half * x4 (ix2 k d)
        + Spec.half * Spec.nrm (mean_fti x0 x2) k d := by
  rw [val_main_v39_apply, val_main_v36_apply, val_main_v38_apply, val_main_v35_apply, val_main_v37_apply,
    val_main_cst_8_apply, val_main_cst_9_apply, ref_mean_nrm_fti]
  rfl

theorem ref_new_fti (k : Fin 128) (d : Fin 256) :
    val_main_v47 (F := Ideal) x0 x2 x4 (ix2 k d)
      = Spec.nrm (fun c d => Spec.half * x4 (ix2 c d)
          + Spec.half * Spec.nrm (mean_fti x0 x2) c d) k d := by
  rw [val_main_v47_apply, val_main_v46_apply, val_main_v45_apply, val_main_v43_apply, val_main_v42_apply,
    val_main_v41_apply, val_main_v44_apply, val_main_cst_11_apply, val_main_cst_10_apply]
  simp only [val_main_v40_apply, idx_mixnorm_fti, ref_mix_fti, Ideal.hostDivf_def, Ideal.maximumf_def,
    Ideal.hostUnary_sqrt_def, Ideal.mulf_def, Ideal.ofBits_def, Ideal.ofBits_zero_f32, zero_add]
  rfl

theorem ref_protos_fti (k : Fin 128) (d : Fin 256) :
    val_main_v51 (F := Ideal) x0 x2 x4 (ix2 k d)
      = Spec.protoUpd (Spec.sums (fun r d => x0 (ix2 r d)) (fun r => x2 (ix1 r)))
          (Spec.counts (fun r => x2 (ix1 r))) (fun k d => x4 (ix2 k d)) k d := by
  rw [val_main_v51_apply, val_main_call2_v0_apply, val_main_v50_apply, val_main_v48_apply, idx_cntpos_fti,
    ref_counts_fti, val_main_v49_apply, val_main_cst_12_apply, ref_new_fti, Ideal.cmpf_def, Ideal.ofBits_def,
    Ideal.ofBits_zero_f32, gt_bit]
  rfl

end Cert.ReferenceIdeal.RefVal

end
-- ==== Proof.Ref.UpdR.lean ====
import proofs.«418718_j72808285602381_2_alg».proof.Proof.Ref.UpdF

noncomputable section

namespace Cert.ReferenceIdeal.RefVal

open Cert.ReferenceIdeal Cert.ReferenceIdeal.Gen Cert.ReferenceIdeal.Read
open Idealize.ShloMosaic Idealize.ShloMosaic.ValueIdx Idealize.ShloMosaic.StableHlo Cert.ReferenceIdeal.RefVal.Upd
open scoped BigOperators

theorem idx_rownorm_rcl (r : Fin 131072) (d j : Fin 256) :
    idx_main_v53 (idx_main_v54 (idx_main_v58 (ix2 r d))) j = ix2 r j := eq_ix2 _

theorem idx_rowtest_rcl (r : Fin 131072) (d : Fin 256) :
    idx_main_v63 (idx_main_call4_v1 (ix2 r d)) = ix1 r := eq_ix1 _

theorem idx_segrows_rcl (r : Fin 131072) : idx_main_v66 (ix2 r (0 : Fin 1)) = ix1 r := eq_ix1 _

theorem idx_segcnt_rcl (r : Fin 131072) : idx_main_v71 (ix2 r (0 : Fin 1)) = ix1 r := eq_ix1 _

theorem idx_cnt_rcl (k : Fin 512) (d : Fin 256) :
    idx_main_v76 (idx_main_v77 (ix2 k d)) = ix1 k := eq_ix1 _

theorem idx_meannorm_rcl (k : Fin 512) (d j : Fin 256) :
    idx_main_v80 (idx_main_v81 (idx_main_v85 (ix2 k d))) j = ix2 k j := eq_ix2 _

theorem idx_mixnorm_rcl (k : Fin 512) (d j : Fin 256) :
    idx_main_v93 (idx_main_v94 (idx_main_v98 (ix2 k d))) j = ix2 k j := eq_ix2 _

theorem idx_cntpos_rcl (k : Fin 512) (d : Fin 256) :
    idx_main_v100 (idx_main_call5_v0 (ix2 k d)) = ix1 k := eq_ix1 _

variable (x1 : (⟨S131072x256, .f32⟩ : BufTy).Contents (Elt Ideal))
  (x3 : (⟨S131072, .i32⟩ : BufTy).Contents (Elt Ideal))
  (x5 : (⟨S512x256, .f32⟩ : BufTy).Contents (Elt Ideal))

abbrev rows_rcl : Fin 131072 → Fin 256 → EReal := fun r d => x1 (ix2 r d)
abbrev lbls_rcl : Fin 131072 → BitVec 32 := fun r => x3 (ix1 r)
abbrev mean_rcl : Fin 512 → Fin 256 → EReal := fun c d =>
  Ideal.div (Spec.sums (rows_rcl x1) (lbls_rcl x3) c d) (max (Spec.counts (lbls_rcl x3) c) Spec.one)

theorem ref_nrm_rcl (r : Fin 131072) (d : Fin 256) :
    val_main_v59 (F := Ideal) x1 (ix2 r d) = Spec.nrm (rows_rcl x1) r d := by
  rw [val_main_v59_apply, val_main_v58_apply, val_main_v57_apply, val_main_v55_apply, val_main_v54_apply,
    val_main_v53_apply, val_main_v56_apply, val_main_cst_14_apply, val_main_cst_13_apply]
  simp only [val_main_v52_apply, idx_rownorm_rcl, Ideal.hostDivf_def, Ideal.maximumf_def, Ideal.hostUnary_sqrt_def,
    Ideal.mulf_def, Ideal.ofBits_def, Ideal.ofBits_zero_f32, zero_add]
  rfl

theorem ref_valid_rcl (r : Fin 131072) :
    val_main_v61 (F := Ideal) x3 (ix1 r) = if 0 ≤ (x3 (ix1 r)).toInt then 1#1 else 0#1 := by
  rw [val_main_v61_apply, val_main_v60_apply, val_main_c_15_apply]
  exact valid_bit _

theorem ref_seg_rcl (r : Fin 131072) (k : Fin 512) :
    (val_main_v62 (F := Ideal) x3 (ix1 r)).toInt = (k.val : Int) ↔ x3 (ix1 r) = BitVec.ofNat 32 k.val := by
  rw [val_main_v62_apply, val_main_v61_apply, val_main_v60_apply, val_main_c_15_apply, val_main_call3_v1_apply,
    val_main_call3_v0_apply, val_main_c_16_apply]
  exact seg_iff (K := 512) (by norm_num) _ k

theorem ref_masked_rcl (r : Fin 131072) (d : Fin 256) :
    val_main_v64 (F := Ideal) x1 x3 (ix2 r d)
      = if 0 ≤ (x3 (ix1 r)).toInt then Spec.nrm (rows_rcl x1) r d else 0 := by
  rw [val_main_v64_apply, val_main_call4_v1_apply, val_main_v63_apply, idx_rowtest_rcl, ref_valid_rcl, ref_nrm_rcl,
    val_main_call4_v2_apply, val_main_call4_v0_apply, val_main_cst_17_apply, Ideal.ofBits_def, Ideal.ofBits_zero_f32]
  by_cases h : 0 ≤ (x3 (ix1 r)).toInt
  · rw [if_pos h, if_pos h, select_one]
  · rw [if_neg h, if_neg h, select_zero]

theorem ref_sums_rcl (k : Fin 512) (d : Fin 256) :
    val_main_v68 (F := Ideal) x1 x3 (ix2 k d)
      = Spec.sums (rows_rcl x1) (lbls_rcl x3) k d := by
  rw [val_main_v68_apply]
  unfold val_main_v67
  rw [show scatter_S513x256_S131072x1_S131072x256_1_0_0_1
      = ScatterRows.rowDims 513 256 131072 Gen.scatter_S513x256_S131072x1_S131072x256_1_0_0_1_wf from rfl,
    ScatterRows.scatterAdd_rows_apply]
  show val_main_v65 (F := Ideal) _
      + ∑ p ∈ Finset.univ.filter (fun p : Fin 131072 =>
          (val_main_v66 (F := Ideal) x3 (ix2 p (0 : Fin 1))).toInt = (k.val : Int)),
        val_main_v64 (F := Ideal) x1 x3 (ix2 p d) = _
  rw [val_main_v65_apply, val_main_cst_18_apply, Ideal.ofBits_def, Ideal.ofBits_zero_f32, zero_add]
  have hf : (Finset.univ.filter fun p : Fin 131072 =>
        (val_main_v66 (F := Ideal) x3 (ix2 p (0 : Fin 1))).toInt = (k.val : Int))
      = Finset.univ.filter fun p : Fin 131072 => x3 (ix1 p) = BitVec.ofNat 32 k.val := by
    refine Finset.filter_congr fun p _ => ?_
    rw [val_main_v66_apply, idx_segrows_rcl]
    exact ref_seg_rcl x3 p k
  rw [hf]
  unfold Spec.sums
  rw [Spec.sum_oh_mul (lbls_rcl x3) k (fun r => Spec.nrm (rows_rcl x1) r d)]
  refine Finset.sum_congr rfl fun p hp => ?_
  rw [ref_masked_rcl, if_pos (valid_of_class (K := 512) (by norm_num) _ k (Finset.mem_filter.1 hp).2)]

theorem ref_counts_rcl (k : Fin 512) :
    val_main_v73 (F := Ideal) x3 (ix1 k) = Spec.counts (lbls_rcl x3) k := by
  rw [val_main_v73_apply]
  unfold val_main_v72
  rw [show scatter_S513_S131072x1_S131072_n_0_0_1
      = ScatterVec.vecDims 513 131072 Gen.scatter_S513_S131072x1_S131072_n_0_0_1_wf from rfl,
    ScatterVec.scatterAdd_vec_apply]
  show val_main_v70 (F := Ideal) _
      + ∑ p ∈ Finset.univ.filter (fun p : Fin 131072 =>
          (val_main_v71 (F := Ideal) x3 (ix2 p (0 : Fin 1))).toInt = (k.val : Int)),
        val_main_v69 (F := Ideal) x3 (ix1 p) = _
  rw [val_main_v70_apply, val_main_cst_19_apply, Ideal.ofBits_def, Ideal.ofBits_zero_f32, zero_add]
  have hf : (Finset.univ.filter fun p : Fin 131072 =>
        (val_main_v71 (F := Ideal) x3 (ix2 p (0 : Fin 1))).toInt = (k.val : Int))
      = Finset.univ.filter fun p : Fin 131072 => x3 (ix1 p) = BitVec.ofNat 32 k.val := by
    refine Finset.filter_congr fun p _ => ?_
    rw [val_main_v71_apply, idx_segcnt_rcl]
    exact ref_seg_rcl x3 p k
  rw [hf]
  unfold Spec.counts
  rw [Spec.sum_oh (lbls_rcl x3) k]
  refine Finset.sum_congr rfl fun p hp => ?_
  rw [val_main_v69_apply, ref_valid_rcl, if_pos (valid_of_class (K := 512) (by norm_num) _ k (Finset.mem_filter.1 hp).2)]
  show ((((1#1 : BitVec 1).toNat : ℕ) : ℝ) : EReal) = 1
  simp

theorem ref_mean_rcl (k : Fin 512) (d : Fin 256) :
    val_main_v78 (F := Ideal) x1 x3 (ix2 k d)
      = mean_rcl x1 x3 k d := by
  rw [val_main_v78_apply, ref_sums_rcl, val_main_v77_apply, val_main_v76_apply, idx_cnt_rcl, val_main_v75_apply,
    ref_counts_rcl, val_main_v74_apply, val_main_cst_20_apply]
  rfl

theorem ref_mean_nrm_rcl (k : Fin 512) (d : Fin 256) :
    val_main_v86 (F := Ideal) x1 x3 (ix2 k d)
      = Spec.nrm (mean_rcl x1 x3) k d := by
  rw [val_main_v86_apply, val_main_v85_apply, val_main_v84_apply, val_main_v82_apply, val_main_v81_apply,
    val_main_v80_apply, val_main_v83_apply, val_main_cst_22_apply, val_main_cst_21_apply]
  simp only [val_main_v79_apply, idx_meannorm_rcl, ref_mean_rcl, Ideal.hostDivf_def, Ideal.maximumf_def,
    Ideal.hostUnary_sqrt_def, Ideal.mulf_def, Ideal.ofBits_def, Ideal.ofBits_zero_f32, zero_add]
  rfl

theorem ref_mix_rcl (k : Fin 512) (d : Fin 256) :
    val_main_v91 (F := Ideal) x1 x3 x5 (ix2 k d)
      = Spec.half * x5 (ix2 k d)
        + Spec.half * Spec.nrm (mean_rcl x1 x3) k d := by
  rw [val_main_v91_apply, val_main_v88_apply, val_main_v90_apply, val_main_v87_apply, val_main_v89_apply,
    val_main_cst_23_apply, val_main_cst_24_apply, ref_mean_nrm_rcl]
  rfl

theorem ref_new_rcl (k : Fin 512) (d : Fin 256) :
    val_main_v99 (F := Ideal) x1 x3 x5 (ix2 k d)
      = Spec.nrm (fun c d => Spec.half * x5 (ix2 c d)
          + Spec.half * Spec.nrm (mean_rcl x1 x3) c d) k d := by
  rw [val_main_v99_apply, val_main_v98_apply, val_main_v97_apply, val_main_v95_apply, val_main_v94_apply,
    val_main_v93_apply, val_main_v96_apply, val_main_cst_26_apply, val_main_cst_25_apply]
  simp only [val_main_v92_apply, idx_mixnorm_rcl, ref_mix_rcl, Ideal.hostDivf_def, Ideal.maximumf_def,
    Ideal.hostUnary_sqrt_def, Ideal.mulf_def, Ideal.ofBits_def, Ideal.ofBits_zero_f32, zero_add]
  rfl

theorem ref_protos_rcl (k : Fin 512) (d : Fin 256) :
    val_main_v103 (F := Ideal) x1 x3 x5 (ix2 k d)
      = Spec.protoUpd (Spec.sums (fun r d => x1 (ix2 r d)) (fun r => x3 (ix1 r)))
          (Spec.counts (fun r => x3 (ix1 r))) (fun k d => x5 (ix2 k d)) k d := by
  rw [val_main_v103_apply, val_main_call5_v0_apply, val_main_v102_apply, val_main_v100_apply, idx_cntpos_rcl,
    ref_counts_rcl, val_main_v101_apply, val_main_cst_27_apply, ref_new_rcl, Ideal.cmpf_def, Ideal.ofBits_def,
    Ideal.ofBits_zero_f32, gt_bit]
  rfl

end Cert.ReferenceIdeal.RefVal

end
-- ==== Proof.Ref.LossF.lean ====
import proofs.«418718_j72808285602381_2_alg».proof.Proof.RefRead
import proofs.«418718_j72808285602381_2_alg».proof.Proof.Spec
import proofs.«418718_j72808285602381_2_alg».proof.Proof.SpecLaws
import Idealize.ShloMosaic.Lib.ValueIdx
import Idealize.ShloMosaic.Lib.ValueIdxRank1
import Idealize.ShloMosaic.Lib.Affine
import Idealize.ShloMosaic.Lib.WordArith
import Idealize.ShloMosaic.PureOps.Reduce
import Idealize.ShloMosaic.PureOps.Ideal.Laws
import Mathlib.Data.Finset.Fold

noncomputable section

namespace Cert.ReferenceIdeal.RefVal.Loss

open Idealize.ShloMosaic Idealize.ShloMosaic.ValueIdx

abbrev rowTakeDims (R N : Nat)
    (wf : GatherDims.WF ⟨2, ![R, N]⟩ ⟨3, ![R, 1, 1]⟩ ⟨2, ![R, 1]⟩ [] [1] [0] [1] [0] 2 ![1, 1]) :
    GatherDims ⟨2, ![R, N]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

-- A look-up along the rows reads row r at that row's start index, read signed and clamped into [0, N - 1].
theorem gather_rowTake_apply {α : Type} {R N w : Nat} (hN : 0 < N)
    (wf : GatherDims.WF ⟨2, ![R, N]⟩ ⟨3, ![R, 1, 1]⟩ ⟨2, ![R, 1]⟩ [] [1] [0] [1] [0] 2 ![1, 1])
    (x : (⟨2, ![R, N]⟩ : Shape).Idx → α) (idx : IVec ⟨3, ![R, 1, 1]⟩ w) (r : Fin R) :
    Host.gather (rowTakeDims R N wf) x idx (ix2 r (0 : Fin 1))
      = x (ix2 r ⟨min (idx (ix3 r (0 : Fin 1) (0 : Fin 1))).toInt.toNat (N - 1), by omega⟩) := by
  unfold Host.gather
  congr 1
  funext a
  refine Fin.ext ?_
  match a with
  | ⟨0, _⟩ =>
    show (rowTakeDims R N wf).start (ix2 r 0) idx 0 + (rowTakeDims R N wf).batchCoord (ix2 r 0) 0
      + (rowTakeDims R N wf).offCoord (ix2 r 0) 0 = r.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl
  | ⟨1, _⟩ =>
    show (rowTakeDims R N wf).start (ix2 r 0) idx 1 + (rowTakeDims R N wf).batchCoord (ix2 r 0) 1
      + (rowTakeDims R N wf).offCoord (ix2 r 0) 1 = min (idx (ix3 r 0 0)).toInt.toNat (N - 1)
    rw [GatherDims.batchCoord_eq_zero _ _ _ (fun h => absurd (congrArg Fin.val (List.mem_singleton.mp h)) Nat.one_ne_zero),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowTakeDims R N wf).startIndexMap from List.mem_singleton.mpr rfl)]
    have hsi : (rowTakeDims R N wf).siIdx (ix2 r 0) ⟨List.idxOf (1 : Fin 2) (rowTakeDims R N wf).startIndexMap,
        List.idxOf_lt_length_iff.2 (List.mem_singleton.mpr rfl)⟩ = ix3 r 0 0 := by
      funext b; refine Fin.ext ?_
      match b with
      | ⟨0, _⟩ => rfl
      | ⟨1, _⟩ => rfl
      | ⟨2, _⟩ => rfl
    rw [hsi]
    rfl

theorem foldl_andi_all_one {ι : Type} (f : ι → BitVec 1) (hf : ∀ n, f n = 1#1) :
    ∀ l : List ι, l.foldl (fun r n => IntOp.andi r (f n)) 1#1 = 1#1
  | [] => rfl
  | a :: l => by
    have e : IntOp.andi (1#1 : BitVec 1) 1#1 = 1#1 := by decide
    rw [List.foldl_cons, hf a, e]
    exact foldl_andi_all_one f hf l

theorem reduce_andi_all_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_all_one x hx _

theorem toInt_maxsi (x y : BitVec 32) : (IntOp.maxsi x y).toInt = max x.toInt y.toInt := by
  unfold IntOp.maxsi
  by_cases h : y.slt x = true
  · rw [if_pos h]; rw [BitVec.slt_iff_toInt_lt] at h; omega
  · rw [if_neg h]; rw [BitVec.slt_iff_toInt_lt] at h; omega

-- max(l, 0) is never negative, so it is not wrapped, and for l < C = K + 1 it lies in [0, K].
theorem take_index {C K : Nat} (hK : K + 1 = C) (hC : C < 2 ^ 31) (l : BitVec 32) (hl : l.toInt < (C : Int)) :
    Scalar.select (IntOp.cmpi .slt (IntOp.maxsi l 0#32) 0#32) (IntOp.addi (IntOp.maxsi l 0#32) (BitVec.ofNat 32 C))
        (IntOp.maxsi l 0#32) = IntOp.maxsi l 0#32
    ∧ IntOp.andi (IntOp.cmpi .sge (IntOp.maxsi l 0#32) 0#32) (IntOp.cmpi .sle (IntOp.maxsi l 0#32) (BitVec.ofNat 32 K)) = 1#1 := by
  have hi : (IntOp.maxsi l 0#32).toInt = max l.toInt 0 := toInt_maxsi l 0#32
  have hKi := WordArith.toInt_ofNat_small K (by omega)
  refine ⟨?_, ?_⟩
  · have : ¬ IntOp.cmpi .slt (IntOp.maxsi l 0#32) 0#32 = 1#1 := by
      rw [IntOp.cmpi_slt, hi]; exact not_lt.mpr (le_max_right _ _)
    rw [eq_zero_of_ne_one this, select_zero]
  · rw [IntOp.andi_eq_one, IntOp.cmpi_sge, IntOp.cmpi_sle, hi, hKi]
    exact ⟨le_max_right _ _, by omega⟩

def pickIdx {C : Nat} (hC : 0 < C) (l : BitVec 32) : Fin C := ⟨min (IntOp.maxsi l 0#32).toInt.toNat (C - 1), by omega⟩

-- A label in [0, C) is its own larger-of-itself-and-zero, reads the same signed and unsigned, and is not clamped.
theorem pickIdx_of_nonneg {C : Nat} (hC : 0 < C) (l : BitVec 32) (h0 : 0 ≤ l.toInt) (hl : l.toInt < (C : Int)) :
    pickIdx hC l = ⟨l.toNat, Spec.toNat_lt_of_valid l h0 hl⟩ := by
  have h2 : 2 * l.toNat < 2 ^ 32 := BitVec.toInt_pos_iff.mp h0
  have h3 : l.toInt = (l.toNat : Int) := BitVec.toInt_eq_toNat_of_lt h2
  refine Fin.ext ?_
  show min (IntOp.maxsi l 0#32).toInt.toNat (C - 1) = l.toNat
  rw [show IntOp.maxsi l 0#32 = l from Scalar.maxsi_zero_of_nonneg h2]
  omega

theorem max_fold_max (b : EReal) {n : Nat} (f : Fin n → EReal) :
    max b ((Finset.univ : Finset (Fin n)).fold max b f) = (Finset.univ : Finset (Fin n)).fold max b f :=
  max_eq_right ((Finset.le_fold_max b).2 (Or.inl le_rfl))

theorem sum_idx1 {n : Nat} (f : (⟨1, ![n]⟩ : Shape).Idx → EReal) : ∑ j : (⟨1, ![n]⟩ : Shape).Idx, f j = ∑ r : Fin n, f (ix1 r) :=
  (idxEquiv1.symm.sum_comp f).symm

theorem uitofp_bit (b : BitVec 1) : FloatOps.uitofp (F := Ideal) .f32 b = if b = 1#1 then 1 else 0 := by
  by_cases h : b = 1#1
  · subst h
    rw [if_pos rfl]
    show (((1#1 : BitVec 1).toNat : ℝ) : EReal) = 1
    simp
  · obtain rfl := eq_zero_of_ne_one h
    rw [if_neg (by decide)]
    show (((0#1 : BitVec 1).toNat : ℝ) : EReal) = 0
    simp

end Cert.ReferenceIdeal.RefVal.Loss

namespace Cert.ReferenceIdeal.RefVal.LossF

open Cert.ReferenceIdeal Cert.ReferenceIdeal.Gen Cert.ReferenceIdeal.Read Idealize.ShloMosaic Idealize.ShloMosaic.ValueIdx
open Cert Cert.ReferenceIdeal.RefVal.Loss

section Chain

variable (x0 : (⟨S65536x256, .f32⟩ : BufTy).Contents (Elt Ideal)) (x2 : (⟨S65536, .i32⟩ : BufTy).Contents (Elt Ideal))
  (x4 : (⟨S128x256, .f32⟩ : BufTy).Contents (Elt Ideal))

abbrev feat : Fin 65536 → Fin 256 → EReal := fun r d => x0 (ix2 r d)
abbrev lab : Fin 65536 → BitVec 32 := fun r => x2 (ix1 r)
abbrev proto : Fin 128 → Fin 256 → EReal := fun k d => val_main_v51 (F := Ideal) x0 x2 x4 (ix2 k d)

theorem idx_nrm (r : Fin 65536) (d k : Fin 256) : idx_main_v108 (idx_main_v109 (idx_main_v113 (ix2 r d))) k = ix2 r k := eq_ix2 _

theorem idx_dot_left (r : Fin 65536) (c : Fin 128) (k : Fin 256) : lidx_main_v116 (ix2 r c) k = ix2 r k := eq_ix2 _

theorem idx_dot_right (r : Fin 65536) (c : Fin 128) (k : Fin 256) : idx_main_v115 (ridx_main_v116 (ix2 r c) k) = ix2 c k := eq_ix2 _

theorem idx_rowmax (r : Fin 65536) (c : Fin 128) : idx_main_call6_v3 (idx_main_call6_v4 (ix2 r c)) = ix1 r := eq_ix1 _

theorem idx_rowsum (r : Fin 65536) (c : Fin 128) : idx_main_call6_v8 (idx_main_call6_v10 (ix2 r c)) = ix1 r := eq_ix1 _

theorem idx_expsum (r : Fin 65536) (k : Fin 128) : idx_main_call6_v7 (ix1 r) k = ix2 r k := eq_ix2 _

theorem idx_picked (r : Fin 65536) : idx_main_v124 (ix1 r) = ix2 r (0 : Fin 1) :=
  funext fun a => Fin.ext (by match a with | ⟨0, _⟩ => exact Nat.div_one _ | ⟨1, _⟩ => rfl)

theorem idx_take (r : Fin 65536) : idx_main_v122 (idx_main_call7_v5 (ix3 r (0 : Fin 1) (0 : Fin 1))) = ix1 r :=
  funext fun a => Fin.ext (by
    match a with
    | ⟨0, _⟩ => show ((r.val * 1 + 0) * 1 + 0) / 1 = r.val; omega)

theorem lift_class (h : S65536x128.Reduces [1] S65536) (r : Fin 65536) (k : Fin 128) : h.lift (ix1 r) k = ix2 r k := eq_ix2 _

theorem valid_read (r : Fin 65536) : val_main_v106 (F := Ideal) x2 (ix1 r) = Spec.valid (x2 (ix1 r)) := by
  rw [val_main_v106_apply, val_main_v105_apply, val_main_v104_apply, val_main_c_28_apply, uitofp_bit]
  exact if_congr IntOp.cmpi_sge rfl rfl

theorem nrm_read (r : Fin 65536) (d : Fin 256) : val_main_v114 (F := Ideal) x0 (ix2 r d) = Spec.nrm (feat x0) r d := by
  rw [val_main_v114_apply, val_main_v113_apply, val_main_v112_apply, val_main_v111_apply, val_main_cst_30_apply,
    val_main_v110_apply, val_main_v109_apply, val_main_v108_apply, val_main_cst_29_apply]
  have e : ∀ k : Fin 256, val_main_v107 (F := Ideal) x0 (idx_main_v108 (idx_main_v109 (idx_main_v113 (ix2 r d))) k)
      = x0 (ix2 r k) * x0 (ix2 r k) := fun k => by
    rw [val_main_v107_apply, idx_nrm r d k, Ideal.mulf_def]
  rw [Finset.sum_congr rfl fun k _ => e k]
  rw [Ideal.hostDivf_def, Ideal.maximumf_def, Ideal.hostUnary_sqrt_def, Ideal.ofBits_def, Ideal.ofBits_def,
    Ideal.ofBits_zero_f32, zero_add]
  rfl

theorem logits_read (r : Fin 65536) (c : Fin 128) :
    val_main_v118 (F := Ideal) x0 x2 x4 (ix2 r c) = Spec.logits (feat x0) (proto x0 x2 x4) r c := by
  rw [val_main_v118_apply, val_main_v117_apply, val_main_cst_31_apply, val_main_v116_apply]
  rw [Finset.sum_congr rfl fun k _ => congrArg₂ (· * ·)
    ((congrArg (val_main_v114 (F := Ideal) x0) (idx_dot_left r c k)).trans (nrm_read x0 r k))
    ((val_main_v115_apply x0 x2 x4 _).trans (congrArg (val_main_v51 (F := Ideal) x0 x2 x4) (idx_dot_right r c k)))]
  rw [Ideal.hostDivf_def, Ideal.ofBits_def]
  rfl

theorem rowmax_read (r : Fin 65536) :
    val_main_call6_v2 (F := Ideal) x0 x2 x4 (ix1 r) = Spec.rowMax (Spec.logits (feat x0) (proto x0 x2 x4) r) := by
  have hR : S65536x128.Reduces [1] S65536 := by decide
  rw [val_main_call6_v2_apply, val_main_call6_v1_apply, val_main_call6_cst_0_apply]
  unfold val_main_call6_v0
  rw [Host.reduce_eq_fold_single FloatOps.maximumf _ _ reducesTo_S65536x128_S65536_d1 hR h_S_ (ix1 r),
    val_main_call6_cst_apply, Ideal.maximumf_def, Ideal.ofBits_def]
  have e : (val_main_v118 (F := Ideal) x0 x2 x4 ∘ hR.lift (ix1 r)) = Spec.logits (feat x0) (proto x0 x2 x4) r :=
    funext fun k => by rw [Function.comp_apply]; exact (congrArg _ (lift_class hR r k)).trans (logits_read x0 x2 x4 r k)
  rw [e]
  exact max_fold_max _ _

theorem logp_read (r : Fin 65536) (c : Fin 128) :
    val_main_v119 (F := Ideal) x0 x2 x4 (ix2 r c) = Spec.logp (Spec.logits (feat x0) (proto x0 x2 x4) r) c := by
  have h5 : ∀ c' : Fin 128, val_main_call6_v5 (F := Ideal) x0 x2 x4 (ix2 r c')
      = Spec.logits (feat x0) (proto x0 x2 x4) r c' - Spec.rowMax (Spec.logits (feat x0) (proto x0 x2 x4) r) := fun c' => by
    rw [val_main_call6_v5_apply, val_main_call6_v4_apply, val_main_call6_v3_apply, idx_rowmax r c', rowmax_read,
      logits_read, Ideal.subf_def]
  have h6 : ∀ k : Fin 128, val_main_call6_v6 (F := Ideal) x0 x2 x4 (idx_main_call6_v7 (ix1 r) k)
      = Ideal.exp (Spec.logits (feat x0) (proto x0 x2 x4) r k - Spec.rowMax (Spec.logits (feat x0) (proto x0 x2 x4) r)) := fun k => by
    rw [val_main_call6_v6_apply, idx_expsum r k, h5, Ideal.hostUnary_exp_def]
  rw [val_main_v119_apply, h5, val_main_call6_v10_apply, val_main_call6_v9_apply, val_main_call6_v8_apply,
    idx_rowsum r c, val_main_call6_v7_apply, val_main_call6_cst_1_apply, Finset.sum_congr rfl fun k _ => h6 k]
  rw [Ideal.subf_def, Ideal.hostUnary_log_def, Ideal.ofBits_def, Ideal.ofBits_zero_f32, zero_add]
  rfl

theorem take_index_read (hL' : ∀ j : S65536.Idx, (x2 j).toInt < 128) (i : S65536x1x1.Idx) :
    val_main_call7_v5 (F := Ideal) x2 i = IntOp.maxsi (x2 (idx_main_v122 (idx_main_call7_v5 i))) 0#32 := by
  rw [val_main_call7_v5_apply, val_main_call7_v4_apply, val_main_call7_v1_apply, val_main_call7_v3_apply,
    val_main_call7_v0_apply, val_main_call7_c_apply, val_main_call7_v2_apply, val_main_call7_c_0_apply,
    val_main_v122_apply, val_main_v121_apply, val_main_v120_apply, val_main_c_32_apply]
  exact (take_index (C := 128) (K := 127) rfl (by norm_num) _ (by exact_mod_cast hL' _)).1

theorem inrange (hL' : ∀ j : S65536.Idx, (x2 j).toInt < 128) (i : S65536x1x1.Idx) :
    val_main_call7_v11 (F := Ideal) x2 i = 1#1 := by
  rw [val_main_call7_v11_apply, val_main_call7_v7_apply, val_main_call7_v10_apply, take_index_read x2 hL' i,
    val_main_call7_v6_apply, val_main_call7_c_2_apply, val_main_call7_v9_apply, val_main_call7_v8_apply,
    val_main_call7_c_1_apply]
  exact (take_index (C := 128) (K := 127) rfl (by norm_num) _ (by exact_mod_cast hL' _)).2

theorem inrange_all (hL' : ∀ j : S65536.Idx, (x2 j).toInt < 128) (j : S65536x1.Idx) :
    val_main_call7_v12 (F := Ideal) x2 j = 1#1 := by
  unfold val_main_call7_v12
  exact reduce_andi_all_one _ _ _ _ (val_main_call7_c_3_apply _) (inrange x2 hL') j

theorem pick_read (hL : ∀ r : Fin 65536, (x2 (ix1 r)).toInt < 128) (r : Fin 65536) :
    val_main_v124 (F := Ideal) x0 x2 x4 (ix1 r)
      = val_main_v119 (F := Ideal) x0 x2 x4 (ix2 r (pickIdx (C := 128) (by decide) (x2 (ix1 r)))) := by
  have hL' : ∀ j : S65536.Idx, (x2 j).toInt < 128 := fun j => by rw [eq_ix1 j]; exact hL (j 0)
  rw [val_main_v124_apply, idx_picked r, val_main_v123_apply, inrange_all x2 hL', select_one]
  unfold val_main_call7_v13
  refine (gather_rowTake_apply (R := 65536) (N := 128) (by norm_num)
    gather_S65536x128_S65536x1x1_S65536x1_n_1_0_0_1_2_11.wf (val_main_v119 (F := Ideal) x0 x2 x4)
    (val_main_call7_v5 (F := Ideal) x2) r).trans ?_
  refine congrArg (fun c => val_main_v119 (F := Ideal) x0 x2 x4 (ix2 r c)) (Fin.ext ?_)
  show min (val_main_call7_v5 (F := Ideal) x2 (ix3 r 0 0)).toInt.toNat (128 - 1)
    = min (IntOp.maxsi (x2 (ix1 r)) 0#32).toInt.toNat (128 - 1)
  rw [take_index_read x2 hL', idx_take r]

theorem row_read (hL : ∀ r : Fin 65536, (x2 (ix1 r)).toInt < 128) (r : Fin 65536) :
    val_main_v126 (F := Ideal) x0 x2 x4 (ix1 r) = Spec.nll (C := 128) (feat x0) (lab x2) (proto x0 x2 x4) r := by
  rw [val_main_v126_apply, val_main_v125_apply, valid_read, pick_read x0 x2 x4 hL r, logp_read,
    Ideal.mulf_def, Ideal.hostNegf_def, Ideal.negf_def]
  by_cases h : 0 ≤ (x2 (ix1 r)).toInt
  · rw [Spec.nll_of_valid (by norm_num) (feat x0) (lab x2) (proto x0 x2 x4) r h (by exact_mod_cast hL r),
      Spec.valid_of_nonneg _ h, pickIdx_of_nonneg (C := 128) _ _ h (by exact_mod_cast hL r)]
  · rw [Spec.nll_of_invalid (feat x0) (lab x2) (proto x0 x2 x4) r (not_le.mp h), Spec.valid_of_neg _ (not_le.mp h), mul_zero]

end Chain

end Cert.ReferenceIdeal.RefVal.LossF

namespace Cert.ReferenceIdeal.RefVal

open Cert.ReferenceIdeal Cert.ReferenceIdeal.Gen Cert.ReferenceIdeal.Read Idealize.ShloMosaic Idealize.ShloMosaic.ValueIdx
open Cert

theorem ref_loss_fti (x0 : (⟨S65536x256, .f32⟩ : BufTy).Contents (Elt Ideal)) (x2 : (⟨S65536, .i32⟩ : BufTy).Contents (Elt Ideal))
    (x4 : (⟨S128x256, .f32⟩ : BufTy).Contents (Elt Ideal)) (hL : ∀ r : Fin 65536, (x2 (ix1 r)).toInt < 128) :
    val_main_v130 (F := Ideal) x0 x2 x4 ix0
      = Spec.loss (C := 128) (fun r d => x0 (ix2 r d)) (fun r => x2 (ix1 r))
          (fun k d => val_main_v51 (F := Ideal) x0 x2 x4 (ix2 k d)) := by
  rw [val_main_v130_apply, val_main_v129_apply, val_main_v128_apply, val_main_v127_apply, val_main_cst_35_apply,
    val_main_cst_34_apply, val_main_cst_33_apply, Loss.sum_idx1, Loss.sum_idx1,
    Finset.sum_congr rfl fun r _ => LossF.row_read x0 x2 x4 hL r, Finset.sum_congr rfl fun r _ => LossF.valid_read x2 r]
  rw [Ideal.hostDivf_def, Ideal.maximumf_def, Ideal.ofBits_def, Ideal.ofBits_def, Ideal.ofBits_zero_f32, zero_add, zero_add]
  rfl

end Cert.ReferenceIdeal.RefVal

end
-- ==== Proof.Ref.LossR.lean ====
import proofs.«418718_j72808285602381_2_alg».proof.Proof.Ref.LossF

noncomputable section

namespace Cert.ReferenceIdeal.RefVal.LossR

open Cert.ReferenceIdeal Cert.ReferenceIdeal.Gen Cert.ReferenceIdeal.Read Idealize.ShloMosaic Idealize.ShloMosaic.ValueIdx
open Cert Cert.ReferenceIdeal.RefVal.Loss

section Chain

variable (x1 : (⟨S131072x256, .f32⟩ : BufTy).Contents (Elt Ideal)) (x3 : (⟨S131072, .i32⟩ : BufTy).Contents (Elt Ideal))
  (x5 : (⟨S512x256, .f32⟩ : BufTy).Contents (Elt Ideal))

abbrev feat : Fin 131072 → Fin 256 → EReal := fun r d => x1 (ix2 r d)
abbrev lab : Fin 131072 → BitVec 32 := fun r => x3 (ix1 r)
abbrev proto : Fin 512 → Fin 256 → EReal := fun k d => val_main_v103 (F := Ideal) x1 x3 x5 (ix2 k d)

theorem idx_nrm (r : Fin 131072) (d k : Fin 256) : idx_main_v135 (idx_main_v136 (idx_main_v140 (ix2 r d))) k = ix2 r k := eq_ix2 _

theorem idx_dot_left (r : Fin 131072) (c : Fin 512) (k : Fin 256) : lidx_main_v143 (ix2 r c) k = ix2 r k := eq_ix2 _

theorem idx_dot_right (r : Fin 131072) (c : Fin 512) (k : Fin 256) : idx_main_v142 (ridx_main_v143 (ix2 r c) k) = ix2 c k := eq_ix2 _

theorem idx_rowmax (r : Fin 131072) (c : Fin 512) : idx_main_call8_v3 (idx_main_call8_v4 (ix2 r c)) = ix1 r := eq_ix1 _

theorem idx_rowsum (r : Fin 131072) (c : Fin 512) : idx_main_call8_v8 (idx_main_call8_v10 (ix2 r c)) = ix1 r := eq_ix1 _

theorem idx_expsum (r : Fin 131072) (k : Fin 512) : idx_main_call8_v7 (ix1 r) k = ix2 r k := eq_ix2 _

theorem idx_picked (r : Fin 131072) : idx_main_v151 (ix1 r) = ix2 r (0 : Fin 1) :=
  funext fun a => Fin.ext (by match a with | ⟨0, _⟩ => exact Nat.div_one _ | ⟨1, _⟩ => rfl)

theorem idx_take (r : Fin 131072) : idx_main_v149 (idx_main_call9_v5 (ix3 r (0 : Fin 1) (0 : Fin 1))) = ix1 r :=
  funext fun a => Fin.ext (by
    match a with
    | ⟨0, _⟩ => show ((r.val * 1 + 0) * 1 + 0) / 1 = r.val; omega)

theorem lift_class (h : S131072x512.Reduces [1] S131072) (r : Fin 131072) (k : Fin 512) : h.lift (ix1 r) k = ix2 r k := eq_ix2 _

theorem valid_read (r : Fin 131072) : val_main_v133 (F := Ideal) x3 (ix1 r) = Spec.valid (x3 (ix1 r)) := by
  rw [val_main_v133_apply, val_main_v132_apply, val_main_v131_apply, val_main_c_36_apply, uitofp_bit]
  exact if_congr IntOp.cmpi_sge rfl rfl

theorem nrm_read (r : Fin 131072) (d : Fin 256) : val_main_v141 (F := Ideal) x1 (ix2 r d) = Spec.nrm (feat x1) r d := by
  rw [val_main_v141_apply, val_main_v140_apply, val_main_v139_apply, val_main_v138_apply, val_main_cst_38_apply,
    val_main_v137_apply, val_main_v136_apply, val_main_v135_apply, val_main_cst_37_apply]
  have e : ∀ k : Fin 256, val_main_v134 (F := Ideal) x1 (idx_main_v135 (idx_main_v136 (idx_main_v140 (ix2 r d))) k)
      = x1 (ix2 r k) * x1 (ix2 r k) := fun k => by
    rw [val_main_v134_apply, idx_nrm r d k, Ideal.mulf_def]
  rw [Finset.sum_congr rfl fun k _ => e k]
  rw [Ideal.hostDivf_def, Ideal.maximumf_def, Ideal.hostUnary_sqrt_def, Ideal.ofBits_def, Ideal.ofBits_def,
    Ideal.ofBits_zero_f32, zero_add]
  rfl

theorem logits_read (r : Fin 131072) (c : Fin 512) :
    val_main_v145 (F := Ideal) x1 x3 x5 (ix2 r c) = Spec.logits (feat x1) (proto x1 x3 x5) r c := by
  rw [val_main_v145_apply, val_main_v144_apply, val_main_cst_39_apply, val_main_v143_apply]
  rw [Finset.sum_congr rfl fun k _ => congrArg₂ (· * ·)
    ((congrArg (val_main_v141 (F := Ideal) x1) (idx_dot_left r c k)).trans (nrm_read x1 r k))
    ((val_main_v142_apply x1 x3 x5 _).trans (congrArg (val_main_v103 (F := Ideal) x1 x3 x5) (idx_dot_right r c k)))]
  rw [Ideal.hostDivf_def, Ideal.ofBits_def]
  rfl

theorem rowmax_read (r : Fin 131072) :
    val_main_call8_v2 (F := Ideal) x1 x3 x5 (ix1 r) = Spec.rowMax (Spec.logits (feat x1) (proto x1 x3 x5) r) := by
  have hR : S131072x512.Reduces [1] S131072 := by decide
  rw [val_main_call8_v2_apply, val_main_call8_v1_apply, val_main_call8_cst_0_apply]
  unfold val_main_call8_v0
  rw [Host.reduce_eq_fold_single FloatOps.maximumf _ _ reducesTo_S131072x512_S131072_d1 hR h_S_ (ix1 r),
    val_main_call8_cst_apply, Ideal.maximumf_def, Ideal.ofBits_def]
  have e : (val_main_v145 (F := Ideal) x1 x3 x5 ∘ hR.lift (ix1 r)) = Spec.logits (feat x1) (proto x1 x3 x5) r :=
    funext fun k => by rw [Function.comp_apply]; exact (congrArg _ (lift_class hR r k)).trans (logits_read x1 x3 x5 r k)
  rw [e]
  exact max_fold_max _ _

theorem logp_read (r : Fin 131072) (c : Fin 512) :
    val_main_v146 (F := Ideal) x1 x3 x5 (ix2 r c) = Spec.logp (Spec.logits (feat x1) (proto x1 x3 x5) r) c := by
  have h5 : ∀ c' : Fin 512, val_main_call8_v5 (F := Ideal) x1 x3 x5 (ix2 r c')
      = Spec.logits (feat x1) (proto x1 x3 x5) r c' - Spec.rowMax (Spec.logits (feat x1) (proto x1 x3 x5) r) := fun c' => by
    rw [val_main_call8_v5_apply, val_main_call8_v4_apply, val_main_call8_v3_apply, idx_rowmax r c', rowmax_read,
      logits_read, Ideal.subf_def]
  have h6 : ∀ k : Fin 512, val_main_call8_v6 (F := Ideal) x1 x3 x5 (idx_main_call8_v7 (ix1 r) k)
      = Ideal.exp (Spec.logits (feat x1) (proto x1 x3 x5) r k - Spec.rowMax (Spec.logits (feat x1) (proto x1 x3 x5) r)) := fun k => by
    rw [val_main_call8_v6_apply, idx_expsum r k, h5, Ideal.hostUnary_exp_def]
  rw [val_main_v146_apply, h5, val_main_call8_v10_apply, val_main_call8_v9_apply, val_main_call8_v8_apply,
    idx_rowsum r c, val_main_call8_v7_apply, val_main_call8_cst_1_apply, Finset.sum_congr rfl fun k _ => h6 k]
  rw [Ideal.subf_def, Ideal.hostUnary_log_def, Ideal.ofBits_def, Ideal.ofBits_zero_f32, zero_add]
  rfl

theorem take_index_read (hL' : ∀ j : S131072.Idx, (x3 j).toInt < 512) (i : S131072x1x1.Idx) :
    val_main_call9_v5 (F := Ideal) x3 i = IntOp.maxsi (x3 (idx_main_v149 (idx_main_call9_v5 i))) 0#32 := by
  rw [val_main_call9_v5_apply, val_main_call9_v4_apply, val_main_call9_v1_apply, val_main_call9_v3_apply,
    val_main_call9_v0_apply, val_main_call9_c_apply, val_main_call9_v2_apply, val_main_call9_c_0_apply,
    val_main_v149_apply, val_main_v148_apply, val_main_v147_apply, val_main_c_40_apply]
  exact (take_index (C := 512) (K := 511) rfl (by norm_num) _ (by exact_mod_cast hL' _)).1

theorem inrange (hL' : ∀ j : S131072.Idx, (x3 j).toInt < 512) (i : S131072x1x1.Idx) :
    val_main_call9_v11 (F := Ideal) x3 i = 1#1 := by
  rw [val_main_call9_v11_apply, val_main_call9_v7_apply, val_main_call9_v10_apply, take_index_read x3 hL' i,
    val_main_call9_v6_apply, val_main_call9_c_2_apply, val_main_call9_v9_apply, val_main_call9_v8_apply,
    val_main_call9_c_1_apply]
  exact (take_index (C := 512) (K := 511) rfl (by norm_num) _ (by exact_mod_cast hL' _)).2

theorem inrange_all (hL' : ∀ j : S131072.Idx, (x3 j).toInt < 512) (j : S131072x1.Idx) :
    val_main_call9_v12 (F := Ideal) x3 j = 1#1 := by
  unfold val_main_call9_v12
  exact reduce_andi_all_one _ _ _ _ (val_main_call9_c_3_apply _) (inrange x3 hL') j

theorem pick_read (hL : ∀ r : Fin 131072, (x3 (ix1 r)).toInt < 512) (r : Fin 131072) :
    val_main_v151 (F := Ideal) x1 x3 x5 (ix1 r)
      = val_main_v146 (F := Ideal) x1 x3 x5 (ix2 r (pickIdx (C := 512) (by decide) (x3 (ix1 r)))) := by
  have hL' : ∀ j : S131072.Idx, (x3 j).toInt < 512 := fun j => by rw [eq_ix1 j]; exact hL (j 0)
  rw [val_main_v151_apply, idx_picked r, val_main_v150_apply, inrange_all x3 hL', select_one]
  unfold val_main_call9_v13
  refine (gather_rowTake_apply (R := 131072) (N := 512) (by norm_num)
    gather_S131072x512_S131072x1x1_S131072x1_n_1_0_0_1_2_11.wf (val_main_v146 (F := Ideal) x1 x3 x5)
    (val_main_call9_v5 (F := Ideal) x3) r).trans ?_
  refine congrArg (fun c => val_main_v146 (F := Ideal) x1 x3 x5 (ix2 r c)) (Fin.ext ?_)
  show min (val_main_call9_v5 (F := Ideal) x3 (ix3 r 0 0)).toInt.toNat (512 - 1)
    = min (IntOp.maxsi (x3 (ix1 r)) 0#32).toInt.toNat (512 - 1)
  rw [take_index_read x3 hL', idx_take r]

theorem row_read (hL : ∀ r : Fin 131072, (x3 (ix1 r)).toInt < 512) (r : Fin 131072) :
    val_main_v153 (F := Ideal) x1 x3 x5 (ix1 r) = Spec.nll (C := 512) (feat x1) (lab x3) (proto x1 x3 x5) r := by
  rw [val_main_v153_apply, val_main_v152_apply, valid_read, pick_read x1 x3 x5 hL r, logp_read,
    Ideal.mulf_def, Ideal.hostNegf_def, Ideal.negf_def]
  by_cases h : 0 ≤ (x3 (ix1 r)).toInt
  · rw [Spec.nll_of_valid (by norm_num) (feat x1) (lab x3) (proto x1 x3 x5) r h (by exact_mod_cast hL r),
      Spec.valid_of_nonneg _ h, pickIdx_of_nonneg (C := 512) _ _ h (by exact_mod_cast hL r)]
  · rw [Spec.nll_of_invalid (feat x1) (lab x3) (proto x1 x3 x5) r (not_le.mp h), Spec.valid_of_neg _ (not_le.mp h), mul_zero]

end Chain

end Cert.ReferenceIdeal.RefVal.LossR

namespace Cert.ReferenceIdeal.RefVal

open Cert.ReferenceIdeal Cert.ReferenceIdeal.Gen Cert.ReferenceIdeal.Read Idealize.ShloMosaic Idealize.ShloMosaic.ValueIdx
open Cert

theorem ref_loss_rcl (x1 : (⟨S131072x256, .f32⟩ : BufTy).Contents (Elt Ideal)) (x3 : (⟨S131072, .i32⟩ : BufTy).Contents (Elt Ideal))
    (x5 : (⟨S512x256, .f32⟩ : BufTy).Contents (Elt Ideal)) (hL : ∀ r : Fin 131072, (x3 (ix1 r)).toInt < 512) :
    val_main_v157 (F := Ideal) x1 x3 x5 ix0
      = Spec.loss (C := 512) (fun r d => x1 (ix2 r d)) (fun r => x3 (ix1 r))
          (fun k d => val_main_v103 (F := Ideal) x1 x3 x5 (ix2 k d)) := by
  rw [val_main_v157_apply, val_main_v156_apply, val_main_v155_apply, val_main_v154_apply, val_main_cst_43_apply,
    val_main_cst_42_apply, val_main_cst_41_apply, Loss.sum_idx1, Loss.sum_idx1,
    Finset.sum_congr rfl fun r _ => LossR.row_read x1 x3 x5 hL r, Finset.sum_congr rfl fun r _ => LossR.valid_read x3 r]
  rw [Ideal.hostDivf_def, Ideal.maximumf_def, Ideal.ofBits_def, Ideal.ofBits_def, Ideal.ofBits_zero_f32, zero_add, zero_add]
  rfl

end Cert.ReferenceIdeal.RefVal

end
-- ==== Proof.RBridge.lean ====
import proofs.«418718_j72808285602381_2_alg».proof.Proof.RefRead
import proofs.«418718_j72808285602381_2_alg».proof.Proof.Ref.Link
import proofs.«418718_j72808285602381_2_alg».proof.Proof.Ref.UpdF
import proofs.«418718_j72808285602381_2_alg».proof.Proof.Ref.UpdR
import proofs.«418718_j72808285602381_2_alg».proof.Proof.Ref.LossF
import proofs.«418718_j72808285602381_2_alg».proof.Proof.Ref.LossR
import proofs.«418718_j72808285602381_2_alg».proof.Proof.Spec
import Idealize.ShloMosaic.PureOps.Ideal
import Idealize.ShloMosaic.Lib.ValueIdx

noncomputable section

namespace Cert.ReferenceIdeal.RefVal

open Cert.ReferenceIdeal Cert.ReferenceIdeal.Gen Cert.ReferenceIdeal.Read
open Idealize.ShloMosaic Idealize.ShloMosaic.ValueIdx Idealize.ShloMosaic.TcCoe Idealize.SL.Sem

variable (V : Valuation τ sig (Elt Ideal))

abbrev feat_fti : (⟨S65536x256, .f32⟩ : BufTy).Contents (Elt Ideal) := V (Proc.devRef .tc main_arg0)
abbrev lbl_fti : (⟨S65536, .i32⟩ : BufTy).Contents (Elt Ideal) := V (Proc.devRef .tc main_arg2)
abbrev old_fti : (⟨S128x256, .f32⟩ : BufTy).Contents (Elt Ideal) := V (Proc.devRef .tc main_arg4)

theorem ref_result_fti (hL : ∀ r : Fin 65536, ((lbl_fti V (ix1 r) : BitVec 32)).toInt < 128) :
    StableHlo.after (Cert.ReferenceIdeal.Value.ops (F := Ideal)) V (Proc.devRef .tc main_v130) ix0
      = Spec.loss (C := 128) (fun r d => feat_fti V (ix2 r d)) (fun r => lbl_fti V (ix1 r))
          (Spec.protoUpd (Spec.sums (fun r d => feat_fti V (ix2 r d)) (fun r => lbl_fti V (ix1 r)))
            (Spec.counts (fun r => lbl_fti V (ix1 r))) (fun k d => old_fti V (ix2 k d))) :=
  (congrFun (after_v130 V) ix0).trans <|
    (ref_loss_fti (feat_fti V) (lbl_fti V) (old_fti V) hL).trans <|
      congrArg (Spec.loss (C := 128) (fun r d => feat_fti V (ix2 r d)) (fun r => lbl_fti V (ix1 r)))
        (funext fun k => funext fun d => ref_protos_fti (feat_fti V) (lbl_fti V) (old_fti V) k d)

abbrev feat_rcl : (⟨S131072x256, .f32⟩ : BufTy).Contents (Elt Ideal) := V (Proc.devRef .tc main_arg1)
abbrev lbl_rcl : (⟨S131072, .i32⟩ : BufTy).Contents (Elt Ideal) := V (Proc.devRef .tc main_arg3)
abbrev old_rcl : (⟨S512x256, .f32⟩ : BufTy).Contents (Elt Ideal) := V (Proc.devRef .tc main_arg5)

theorem ref_result_rcl (hL : ∀ r : Fin 131072, ((lbl_rcl V (ix1 r) : BitVec 32)).toInt < 512) :
    StableHlo.after (Cert.ReferenceIdeal.Value.ops (F := Ideal)) V (Proc.devRef .tc main_v157) ix0
      = Spec.loss (C := 512) (fun r d => feat_rcl V (ix2 r d)) (fun r => lbl_rcl V (ix1 r))
          (Spec.protoUpd (Spec.sums (fun r d => feat_rcl V (ix2 r d)) (fun r => lbl_rcl V (ix1 r)))
            (Spec.counts (fun r => lbl_rcl V (ix1 r))) (fun k d => old_rcl V (ix2 k d))) :=
  (congrFun (after_v157 V) ix0).trans <|
    (ref_loss_rcl (feat_rcl V) (lbl_rcl V) (old_rcl V) hL).trans <|
      congrArg (Spec.loss (C := 512) (fun r d => feat_rcl V (ix2 r d)) (fun r => lbl_rcl V (ix1 r)))
        (funext fun k => funext fun d => ref_protos_rcl (feat_rcl V) (lbl_rcl V) (old_rcl V) k d)

end Cert.ReferenceIdeal.RefVal

end
-- ==== Proof.PreLabels.lean ====
import proofs.«418718_j72808285602381_2_alg».proof.Pre_finite_inputs
import Idealize.ShloMosaic.Lib.Affine
import Idealize.ShloMosaic.Lib.ReduceAll
import Idealize.ShloMosaic.Lib.StableHlo.Predicate
import Idealize.ShloMosaic.Lib.ValueIdx

noncomputable section

namespace Cert.PreLabels

open Idealize.ShloMosaic Idealize.ShloMosaic.ValueIdx
open Cert.Pre_finite_inputs

instance : Subsingleton S_.Idx := ⟨fun a b => funext fun d => d.elim0⟩

-- If the conjunction over all entries of `x < c` (signed) is true, every entry is below `c`.
theorem lt_of_all {s : Shape} {axes : List (Fin s.rank)} (x : IVec s 32) (c : BitVec 32)
    (hb : S_.BroadcastsInDim s (![] : Fin 0 → Fin s.rank)) (hr : s.ReducesTo axes S_) (hu : 0 < S_.numel)
    (e : Host.reduce IntOp.andi (cmpi .slt x (broadcastInDim s ![] hb (constantI S_ 32 c))) (constantI S_ 1 1#1) hr hu ix0 = 1#1)
    (i : s.Idx) : (x i).toInt < c.toInt :=
  IntOp.cmpi_slt.1 (Host.reduce_andi_all _ _ hr hu ix0 e i)

-- The precondition bounds every label of each branch by the branch's number of classes.
theorem labels_lt_of_pre {F : FTy → Type} [FloatOps F] [Facts]
    (a0 : FVec F S65536x256 .f32) (a1 : FVec F S131072x256 .f32) (a2 : IVec S65536 32) (a3 : IVec S131072 32)
    (a4 : FVec F S128x256 .f32) (a5 : FVec F S512x256 .f32)
    (h : Cert.Pre_finite_inputs.fn (F := F) a0 a1 a2 a3 a4 a5 = fun _ => 1#1) :
    (∀ r : Fin 65536, (a2 (ix1 r)).toInt < 128) ∧ (∀ r : Fin 131072, (a3 (ix1 r)).toInt < 512) := by
  have e := congrFun h ix0
  dsimp only [Cert.Pre_finite_inputs.fn, Cert.Pre_finite_inputs.fn_part1, Idealize.ShloMosaic.andi] at e
  obtain ⟨e22, e25⟩ := IntOp.andi_eq_one.1 e
  obtain ⟨-, e21⟩ := IntOp.andi_eq_one.1 e22
  exact ⟨fun r => lt_of_all a2 128#32 _ _ _ e21 (ix1 r), fun r => lt_of_all a3 512#32 _ _ _ e25 (ix1 r)⟩

end Cert.PreLabels

end
-- ==== Proof.lean ====
/-
  Two branches (unit-length feature rows, integer labels, class prototypes) each update their prototypes from the class
  sums and counts of their rows and then take the mean, over the rows with a non-negative label, of minus the log-softmax
  of the row's scaled cosines with the new prototypes at the row's label. The kernel program forms sums and counts as
  products with the 0/1 matrix "the row's label is this class", tile by tile; the reference adds each row into its
  class's slot. A sum over tiles is the sum over all rows, 0 · x = 0 and 1 · x = x; every label is below its class count.
-/
import proofs.«418718_j72808285602381_2_alg».proof.Defs
import proofs.«418718_j72808285602381_2_alg».proof.Proof.Gen.Kernel
import proofs.«418718_j72808285602381_2_alg».proof.Proof.Gen.KernelIdeal
import proofs.«418718_j72808285602381_2_alg».proof.Proof.Gen.ReferenceIdeal
import proofs.«418718_j72808285602381_2_alg».proof.Proof.Gen.Pre_finite_inputs
import proofs.«418718_j72808285602381_2_alg».proof.Proof.K.Run
import proofs.«418718_j72808285602381_2_alg».proof.Proof.KI.Run
import proofs.«418718_j72808285602381_2_alg».proof.Proof.KBridge
import proofs.«418718_j72808285602381_2_alg».proof.Proof.RBridge
import proofs.«418718_j72808285602381_2_alg».proof.Proof.PreLabels
import proofs.«418718_j72808285602381_2_alg».proof.Proof.RefRun
import proofs.«418718_j72808285602381_2_alg».proof.Proof.RefRead
import proofs.«418718_j72808285602381_2_alg».proof.Proof.Ref.Link
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Hand.frame (F := Bits) m ρ

theorem frame_ki : Cert.frame_KernelIdeal := fun m ρ _ => Cert.KernelIdeal.Hand.frame (F := Ideal) m ρ

open Cert.ReferenceIdeal Cert.ReferenceIdeal.RefVal

theorem frame_ri : Cert.frame_ReferenceIdeal := fun m ρ _ =>
  (θ_run Cert.ReferenceIdeal.defs _ _).mono (fun _ h c =>
    ⟨(h c main_arg0).trans (after_arg0 _), (h c main_arg1).trans (after_arg1 _), (h c main_arg2).trans (after_arg2 _),
     (h c main_arg3).trans (after_arg3 _), (h c main_arg4).trans (after_arg4 _), (h c main_arg5).trans (after_arg5 _)⟩)
    (Cert.ReferenceIdeal.Value.run_after (F := Ideal) m ρ)

theorem preserves : Cert.preserves_Kernel_KernelIdeal := trivial

/-- Each result of the reference is the loss at the updated prototypes, and so is the kernel program's; the label bound makes the reference's indexed read the label's own class. -/
theorem algebraic : Cert.algebraic_KernelIdeal_ReferenceIdeal := by
  intro m ρ m' ρ' hpre hagree
  refine ⟨fun c => Cert.KernelIdeal.Gen.V13 m (Cert.KernelIdeal.Hand.outs m) c Cert.KernelIdeal.main_v82,
    fun c => Cert.KernelIdeal.Gen.V13 m (Cert.KernelIdeal.Hand.outs m) c Cert.KernelIdeal.main_v93,
    Cert.KernelIdeal.Hand.run_vals (F := Ideal) m ρ, ?_⟩
  refine (θ_run Cert.ReferenceIdeal.defs _ _).mono (fun _ h c => ?_) (Cert.ReferenceIdeal.Value.run_after (F := Ideal) m' ρ')
  obtain ⟨a0, a1, a2, a3, a4, a5⟩ := hagree c
  obtain ⟨hF, hR⟩ := Cert.PreLabels.labels_lt_of_pre (F := Ideal) _ _ _ _ _ _ (hpre c)
  refine ⟨(h c main_v130).trans (funext fun i => ?_), (h c main_v157).trans (funext fun i => ?_),
    (h c main_arg0).trans (after_arg0 _), (h c main_arg1).trans (after_arg1 _), (h c main_arg2).trans (after_arg2 _),
    (h c main_arg3).trans (after_arg3 _), (h c main_arg4).trans (after_arg4 _), (h c main_arg5).trans (after_arg5 _)⟩
  · rw [eq_ix0 i]
    refine (ref_result_fti (StableHlo.launchContents m' c) (by intro r; rw [show lbl_fti (StableHlo.launchContents m' c) = _ from a2]; exact hF r)).trans ?_
    refine Eq.trans ?_ (Cert.KernelIdeal.Val.kernel_loss_fti m c).symm
    simp only [feat_fti, lbl_fti, old_fti, a0, a2, a4]
  · rw [eq_ix0 i]
    refine (ref_result_rcl (StableHlo.launchContents m' c) (by intro r; rw [show lbl_rcl (StableHlo.launchContents m' c) = _ from a3]; exact hR r)).trans ?_
    refine Eq.trans ?_ (Cert.KernelIdeal.Val.kernel_loss_rcl m c).symm
    simp only [feat_rcl, lbl_rcl, old_rcl, a1, a3, a5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
